-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v304)) (v1 : (c : Dev Cert.KernelIdeal.nD) → Buf (Elt Ideal) ((c.tc : Thread Cert.KernelIdeal.nD Cert.KernelIdeal.τ).loc Cert.KernelIdeal.main_v305)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v304) = v0 c
          ∧ r.2.mem ((c.tc : Thread Cert.KernelIdeal.nD Cert.KernelIdeal.τ).loc Cert.KernelIdeal.main_v305) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v185) = v0 c
          ∧ r.2.mem ((c.tc : Thread Cert.ReferenceIdeal.nD Cert.ReferenceIdeal.τ).loc Cert.ReferenceIdeal.main_v197) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000 : Shape := ⟨1, ![2000000]⟩
abbrev S2000000x2 : Shape := ⟨2, ![2000000, 2]⟩
abbrev S50000x3 : Shape := ⟨2, ![50000, 3]⟩
abbrev S50000x1 : Shape := ⟨2, ![50000, 1]⟩
abbrev S500x3 : Shape := ⟨2, ![500, 3]⟩
abbrev S500x1 : Shape := ⟨2, ![500, 1]⟩
abbrev S2x1000x100 : Shape := ⟨3, ![2, 1000, 100]⟩
abbrev S_ : Shape := ⟨0, ![]⟩

class Facts : Prop where
  bcast_S_S2000000 : S_.BroadcastsInDim S2000000 (![] : Fin 0 → Fin S2000000.rank)
  reducesTo_S2000000_S_d0 : S2000000.ReducesTo [0] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S50000x1 : S_.BroadcastsInDim S50000x1 (![] : Fin 0 → Fin S50000x1.rank)
  reducesTo_S50000x1_S_d0_1 : S50000x1.ReducesTo [0, 1] S_
  bcast_S_S500x3 : S_.BroadcastsInDim S500x3 (![] : Fin 0 → Fin S500x3.rank)
  reducesTo_S500x3_S_d0_1 : S500x3.ReducesTo [0, 1] S_
  bcast_S_S500x1 : S_.BroadcastsInDim S500x1 (![] : Fin 0 → Fin S500x1.rank)
  reducesTo_S500x1_S_d0_1 : S500x1.ReducesTo [0, 1] S_
  bcast_S_S2x1000x100 : S_.BroadcastsInDim S2x1000x100 (![] : Fin 0 → Fin S2x1000x100.rank)
  reducesTo_S2x1000x100_S_d0_1_2 : S2x1000x100.ReducesTo [0, 1, 2] S_

variable [Facts]

def fn_part2 {F : FTy → Type} [FloatOps F] (main_arg10 : FVec F S2x1000x100 .f32) (main_arg11 : FVec F S2x1000x100 .f32) (main_v33 : IVec S_ 1) : IVec S_ 1 :=
  let main_v34 : FVec F S2x1000x100 .f32 := Host.absf main_arg10
  let main_cst_12 : FVec F S_ .f32 := constant S_ .f32 0x7F800000#32
  let main_v35 : FVec F S2x1000x100 .f32 := broadcastInDim S2x1000x100 ![] bcast_S_S2x1000x100 main_cst_12
  let main_v36 : IVec S2x1000x100 1 := cmpf .olt main_v34 main_v35
  let main_c_13 : IVec S_ 1 := constantI S_ 1 1#1
  let main_v37 : IVec S_ 1 := (fun x v => Host.reduce IntOp.andi x v reducesTo_S2x1000x100_S_d0_1_2 h_S_) main_v36 main_c_13
  let main_v38 : IVec S_ 1 := andi main_v33 main_v37
  let main_v39 : FVec F S2x1000x100 .f32 := Host.absf main_arg11
  let main_cst_14 : FVec F S_ .f32 := constant S_ .f32 0x7F800000#32
  let main_v40 : FVec F S2x1000x100 .f32 := broadcastInDim S2x1000x100 ![] bcast_S_S2x1000x100 main_cst_14
  let main_v41 : IVec S2x1000x100 1 := cmpf .olt main_v39 main_v40
  let main_c_15 : IVec S_ 1 := constantI S_ 1 1#1
  let main_v42 : IVec S_ 1 := (fun x v => Host.reduce IntOp.andi x v reducesTo_S2x1000x100_S_d0_1_2 h_S_) main_v41 main_c_15
  let main_v43 : IVec S_ 1 := andi main_v38 main_v42
  main_v43

def fn_part1 {F : FTy → Type} [FloatOps F] (main_arg7 : FVec F S500x3 .f32) (main_arg8 : FVec F S500x1 .f32) (main_arg9 : FVec F S2x1000x100 .f32) (main_arg10 : FVec F S2x1000x100 .f32) (main_arg11 : FVec F S2x1000x100 .f32) (main_v13 : IVec S_ 1) (main_v16 : IVec S50000x1 1) : IVec S_ 1 :=
  let main_c_5 : IVec S_ 1 := constantI S_ 1 1#1
  let main_v17 : IVec S_ 1 := (fun x v => Host.reduce IntOp.andi x v reducesTo_S50000x1_S_d0_1 h_S_) main_v16 main_c_5
  let main_v18 : IVec S_ 1 := andi main_v13 main_v17
  let main_v19 : FVec F S500x3 .f32 := Host.absf main_arg7
  let main_cst_6 : FVec F S_ .f32 := constant S_ .f32 0x7F800000#32
  let main_v20 : FVec F S500x3 .f32 := broadcastInDim S500x3 ![] bcast_S_S500x3 main_cst_6
  let main_v21 : IVec S500x3 1 := cmpf .olt main_v19 main_v20
  let main_c_7 : IVec S_ 1 := constantI S_ 1 1#1
  let main_v22 : IVec S_ 1 := (fun x v => Host.reduce IntOp.andi x v reducesTo_S500x3_S_d0_1 h_S_) main_v21 main_c_7
  let main_v23 : IVec S_ 1 := andi main_v18 main_v22
  let main_v24 : FVec F S500x1 .f32 := Host.absf main_arg8
  let main_cst_8 : FVec F S_ .f32 := constant S_ .f32 0x7F800000#32
  let main_v25 : FVec F S500x1 .f32 := broadcastInDim S500x1 ![] bcast_S_S500x1 main_cst_8
  let main_v26 : IVec S500x1 1 := cmpf .olt main_v24 main_v25
  let main_c_9 : IVec S_ 1 := constantI S_ 1 1#1
  let main_v27 : IVec S_ 1 := (fun x v => Host.reduce IntOp.andi x v reducesTo_S500x1_S_d0_1 h_S_) main_v26 main_c_9
  let main_v28 : IVec S_ 1 := andi main_v23 main_v27
  let main_v29 : FVec F S2x1000x100 .f32 := Host.absf main_arg9
  let main_cst_10 : FVec F S_ .f32 := constant S_ .f32 0x7F800000#32
  let main_v30 : FVec F S2x1000x100 .f32 := broadcastInDim S2x1000x100 ![] bcast_S_S2x1000x100 main_cst_10
  let main_v31 : IVec S2x1000x100 1 := cmpf .olt main_v29 main_v30
  let main_c_11 : IVec S_ 1 := constantI S_ 1 1#1
  let main_v32 : IVec S_ 1 := (fun x v => Host.reduce IntOp.andi x v reducesTo_S2x1000x100_S_d0_1_2 h_S_) main_v31 main_c_11
  let main_v33 : IVec S_ 1 := andi main_v28 main_v32
  fn_part2 (F := F) main_arg10 main_arg11 main_v33

def fn {F : FTy → Type} [FloatOps F] (main_arg0 : IVec S2000000 32) (main_arg1 : IVec S2000000x2 32) (main_arg2 : IVec S2000000 32) (main_arg3 : FVec F S2000000 .f32) (main_arg4 : FVec F S2000000 .f32) (main_arg5 : FVec F S50000x3 .f32) (main_arg6 : FVec F S50000x1 .f32) (main_arg7 : FVec F S500x3 .f32) (main_arg8 : FVec F S500x1 .f32) (main_arg9 : FVec F S2x1000x100 .f32) (main_arg10 : FVec F S2x1000x100 .f32) (main_arg11 : FVec F S2x1000x100 .f32) : IVec S_ 1 :=
  let main_v0 : FVec F S2000000 .f32 := Host.absf main_arg3
  let main_cst : FVec F S_ .f32 := constant S_ .f32 0x7F800000#32
  let main_v1 : FVec F S2000000 .f32 := broadcastInDim S2000000 ![] bcast_S_S2000000 main_cst
  let main_v2 : IVec S2000000 1 := cmpf .olt main_v0 main_v1
  let main_c : IVec S_ 1 := constantI S_ 1 1#1
  let main_v3 : IVec S_ 1 := (fun x v => Host.reduce IntOp.andi x v reducesTo_S2000000_S_d0 h_S_) main_v2 main_c
  let main_v4 : FVec F S2000000 .f32 := Host.absf main_arg4
  let main_cst_0 : FVec F S_ .f32 := constant S_ .f32 0x7F800000#32
  let main_v5 : FVec F S2000000 .f32 := broadcastInDim S2000000 ![] bcast_S_S2000000 main_cst_0
  let main_v6 : IVec S2000000 1 := cmpf .olt main_v4 main_v5
  let main_c_1 : IVec S_ 1 := constantI S_ 1 1#1
  let main_v7 : IVec S_ 1 := (fun x v => Host.reduce IntOp.andi x v reducesTo_S2000000_S_d0 h_S_) main_v6 main_c_1
  let main_v8 : IVec S_ 1 := andi main_v3 main_v7
  let main_v9 : FVec F S50000x3 .f32 := Host.absf main_arg5
  let main_cst_2 : FVec F S_ .f32 := constant S_ .f32 0x7F800000#32
  let main_v10 : FVec F S50000x3 .f32 := broadcastInDim S50000x3 ![] bcast_S_S50000x3 main_cst_2
  let main_v11 : IVec S50000x3 1 := cmpf .olt main_v9 main_v10
  let main_c_3 : IVec S_ 1 := constantI S_ 1 1#1
  let main_v12 : IVec S_ 1 := (fun x v => Host.reduce IntOp.andi x v reducesTo_S50000x3_S_d0_1 h_S_) main_v11 main_c_3
  let main_v13 : IVec S_ 1 := andi main_v8 main_v12
  let main_v14 : FVec F S50000x1 .f32 := Host.absf main_arg6
  let main_cst_4 : FVec F S_ .f32 := constant S_ .f32 0x7F800000#32
  let main_v15 : FVec F S50000x1 .f32 := broadcastInDim S50000x1 ![] bcast_S_S50000x1 main_cst_4
  let main_v16 : IVec S50000x1 1 := cmpf .olt main_v14 main_v15
  fn_part1 (F := F) main_arg7 main_arg8 main_arg9 main_arg10 main_arg11 main_v13 main_v16
-- ==== Kernel.lean ====
abbrev S2000000 : Shape := ⟨1, ![2000000]⟩
abbrev S2000000x2 : Shape := ⟨2, ![2000000, 2]⟩
abbrev S50000x3 : Shape := ⟨2, ![50000, 3]⟩
abbrev S50000x1 : Shape := ⟨2, ![50000, 1]⟩
abbrev S500x3 : Shape := ⟨2, ![500, 3]⟩
abbrev S500x1 : Shape := ⟨2, ![500, 1]⟩
abbrev S2x1000x100 : Shape := ⟨3, ![2, 1000, 100]⟩
abbrev S_ : Shape := ⟨0, ![]⟩
abbrev S2000000x1 : Shape := ⟨2, ![2000000, 1]⟩
abbrev S2000000x3 : Shape := ⟨2, ![2000000, 3]⟩
abbrev S2000000x2x1 : Shape := ⟨3, ![2000000, 2, 1]⟩
abbrev S2000000x2x3 : Shape := ⟨3, ![2000000, 2, 3]⟩
abbrev S2000000x1x3 : Shape := ⟨3, ![2000000, 1, 3]⟩
abbrev S2048000 : Shape := ⟨1, ![2048000]⟩
abbrev S1x2048000 : Shape := ⟨2, ![1, 2048000]⟩
abbrev S1x1 : Shape := ⟨2, ![1, 1]⟩
abbrev S1x102400 : Shape := ⟨2, ![1, 102400]⟩
abbrev S1 : Shape := ⟨1, ![1]⟩
abbrev S1x2000000 : Shape := ⟨2, ![1, 2000000]⟩

abbrev nBuf : Space → Nat
  | .hbm => 479
  | .vmem => 38
  | .smem => 0
  | _ => 0

abbrev hbmTy0_0 (i : Nat) : BufTy := match i % 128 with
  | 0 => ⟨S2000000, .i32⟩
  | 1 => ⟨S2000000x2, .i32⟩
  | 2 => ⟨S2000000, .i32⟩
  | 3 => ⟨S2000000, .f32⟩
  | 4 => ⟨S2000000, .f32⟩
  | 5 => ⟨S50000x3, .f32⟩
  | 6 => ⟨S50000x1, .f32⟩
  | 7 => ⟨S500x3, .f32⟩
  | 8 => ⟨S500x1, .f32⟩
  | 9 => ⟨S2x1000x100, .f32⟩
  | 10 => ⟨S2x1000x100, .f32⟩
  | 11 => ⟨S2x1000x100, .f32⟩
  | 12 => ⟨S_, .i32⟩
  | 13 => ⟨S2000000, .i32⟩
  | 14 => ⟨S2000000, .i1⟩
  | 15 => ⟨S_, .i32⟩
  | 16 => ⟨S2000000, .i32⟩
  | 17 => ⟨S2000000, .i32⟩
  | 18 => ⟨S2000000, .i32⟩
  | 19 => ⟨S2000000x1, .i32⟩
  | 20 => ⟨S2000000x3, .f32⟩
  | 21 => ⟨S_, .i32⟩
  | 22 => ⟨S2000000, .i32⟩
  | 23 => ⟨S2000000, .i1⟩
  | 24 => ⟨S_, .i32⟩
  | 25 => ⟨S2000000, .i32⟩
  | 26 => ⟨S2000000, .i32⟩
  | 27 => ⟨S2000000, .i32⟩
  | 28 => ⟨S2000000x1, .i32⟩
  | 29 => ⟨S2000000x1, .f32⟩
  | 30 => ⟨S2000000, .f32⟩
  | 31 => ⟨S_, .i32⟩
  | 32 => ⟨S2000000x2, .i32⟩
  | 33 => ⟨S2000000x2, .i1⟩
  | 34 => ⟨S_, .i32⟩
  | 35 => ⟨S2000000x2, .i32⟩
  | 36 => ⟨S2000000x2, .i32⟩
  | 37 => ⟨S2000000x2, .i32⟩
  | 38 => ⟨S2000000x2x1, .i32⟩
  | 39 => ⟨S2000000x2x3, .f32⟩
  | 40 => ⟨S_, .i32⟩
  | 41 => ⟨S2000000x2, .i32⟩
  | 42 => ⟨S2000000x2, .i1⟩
  | 43 => ⟨S_, .i32⟩
  | 44 => ⟨S2000000x2, .i32⟩
  | 45 => ⟨S2000000x2, .i32⟩
  | 46 => ⟨S2000000x2, .i32⟩
  | 47 => ⟨S2000000x2x1, .i32⟩
  | 48 => ⟨S2000000x2x1, .f32⟩
  | 49 => ⟨S2000000x2, .f32⟩
  | 50 => ⟨S2000000x1x3, .f32⟩
  | 51 => ⟨S2000000x3, .f32⟩
  | 52 => ⟨S2000000x2, .f32⟩
  | 53 => ⟨S2000000x2, .f32⟩
  | 54 => ⟨S2000000x2, .f32⟩
  | 55 => ⟨S2000000x2, .f32⟩
  | 56 => ⟨S_, .f32⟩
  | 57 => ⟨S2000000, .f32⟩
  | 58 => ⟨S2000000, .f32⟩
  | 59 => ⟨S2000000x1, .f32⟩
  | 60 => ⟨S2000000, .f32⟩
  | 61 => ⟨S2000000x1, .f32⟩
  | 62 => ⟨S2000000, .f32⟩
  | 63 => ⟨S2000000, .f32⟩
  | 64 => ⟨S_, .f32⟩
  | 65 => ⟨S2000000, .f32⟩
  | 66 => ⟨S2000000, .f32⟩
  | 67 => ⟨S_, .f32⟩
  | 68 => ⟨S2000000, .f32⟩
  | 69 => ⟨S2000000, .f32⟩
  | 70 => ⟨S2000000, .f32⟩
  | 71 => ⟨S2000000, .i32⟩
  | 72 => ⟨S_, .i32⟩
  | 73 => ⟨S_, .i32⟩
  | 74 => ⟨S_, .i32⟩
  | 75 => ⟨S2000000, .i32⟩
  | 76 => ⟨S2000000, .i32⟩
  | 77 => ⟨S_, .i32⟩
  | 78 => ⟨S2000000, .i32⟩
  | 79 => ⟨S2000000, .i32⟩
  | 80 => ⟨S2000000, .f32⟩
  | 81 => ⟨S2000000, .i32⟩
  | 82 => ⟨S_, .i32⟩
  | 83 => ⟨S_, .i32⟩
  | 84 => ⟨S_, .i32⟩
  | 85 => ⟨S2000000, .i32⟩
  | 86 => ⟨S2000000, .i32⟩
  | 87 => ⟨S_, .i32⟩
  | 88 => ⟨S2000000, .i32⟩
  | 89 => ⟨S2000000, .i32⟩
  | 90 => ⟨S2000000, .f32⟩
  | 91 => ⟨S2000000, .f32⟩
  | 92 => ⟨S_, .f32⟩
  | 93 => ⟨S_, .f32⟩
  | 94 => ⟨S_, .f32⟩
  | 95 => ⟨S2000000, .f32⟩
  | 96 => ⟨S2000000, .f32⟩
  | 97 => ⟨S_, .f32⟩
  | 98 => ⟨S2000000, .f32⟩
  | 99 => ⟨S2000000, .f32⟩
  | 100 => ⟨S2000000, .f32⟩
  | 101 => ⟨S2000000, .f32⟩
  | 102 => ⟨S_, .f32⟩
  | 103 => ⟨S_, .f32⟩
  | 104 => ⟨S_, .f32⟩
  | 105 => ⟨S2000000, .f32⟩
  | 106 => ⟨S2000000, .f32⟩
  | 107 => ⟨S_, .f32⟩
  | 108 => ⟨S2000000, .f32⟩
  | 109 => ⟨S2000000, .f32⟩
  | 110 => ⟨S_, .i32⟩
  | 111 => ⟨S2000000, .i32⟩
  | 112 => ⟨S2000000, .i1⟩
  | 113 => ⟨S_, .i32⟩
  | 114 => ⟨S2000000, .i32⟩
  | 115 => ⟨S2000000, .i32⟩
  | 116 => ⟨S2000000, .i32⟩
  | 117 => ⟨S_, .i32⟩
  | 118 => ⟨S2000000, .i32⟩
  | 119 => ⟨S2000000, .i1⟩
  | 120 => ⟨S_, .i32⟩
  | 121 => ⟨S2000000, .i32⟩
  | 122 => ⟨S2000000, .i32⟩
  | 123 => ⟨S2000000, .i32⟩
  | 124 => ⟨S_, .i32⟩
  | 125 => ⟨S2000000, .i32⟩
  | 126 => ⟨S2000000, .i1⟩
  | 127 => ⟨S_, .i32⟩
  | _ => ⟨S2000000, .i32⟩

abbrev hbmTy0_1 (i : Nat) : BufTy := match i % 128 with
  | 0 => ⟨S2000000, .i32⟩
  | 1 => ⟨S2000000, .i32⟩
  | 2 => ⟨S2000000, .i32⟩
  | 3 => ⟨S2000000x1, .i32⟩
  | 4 => ⟨S2000000x1, .i32⟩
  | 5 => ⟨S2000000x1, .i32⟩
  | 6 => ⟨S2000000x3, .i32⟩
  | 7 => ⟨S2000000, .f32⟩
  | 8 => ⟨S_, .i32⟩
  | 9 => ⟨S2000000, .i32⟩
  | 10 => ⟨S2000000, .i32⟩
  | 11 => ⟨S_, .i32⟩
  | 12 => ⟨S2000000, .i32⟩
  | 13 => ⟨S2000000, .i1⟩
  | 14 => ⟨S_, .i32⟩
  | 15 => ⟨S2000000, .i32⟩
  | 16 => ⟨S2000000, .i32⟩
  | 17 => ⟨S2000000, .i32⟩
  | 18 => ⟨S_, .i32⟩
  | 19 => ⟨S2000000, .i32⟩
  | 20 => ⟨S2000000, .i1⟩
  | 21 => ⟨S_, .i32⟩
  | 22 => ⟨S2000000, .i32⟩
  | 23 => ⟨S2000000, .i32⟩
  | 24 => ⟨S2000000, .i32⟩
  | 25 => ⟨S_, .i32⟩
  | 26 => ⟨S2000000, .i32⟩
  | 27 => ⟨S2000000, .i1⟩
  | 28 => ⟨S_, .i32⟩
  | 29 => ⟨S2000000, .i32⟩
  | 30 => ⟨S2000000, .i32⟩
  | 31 => ⟨S2000000, .i32⟩
  | 32 => ⟨S2000000x1, .i32⟩
  | 33 => ⟨S2000000x1, .i32⟩
  | 34 => ⟨S2000000x1, .i32⟩
  | 35 => ⟨S2000000x3, .i32⟩
  | 36 => ⟨S2000000, .f32⟩
  | 37 => ⟨S_, .i32⟩
  | 38 => ⟨S2000000, .i32⟩
  | 39 => ⟨S2000000, .i32⟩
  | 40 => ⟨S_, .i32⟩
  | 41 => ⟨S2000000, .i32⟩
  | 42 => ⟨S2000000, .i1⟩
  | 43 => ⟨S_, .i32⟩
  | 44 => ⟨S2000000, .i32⟩
  | 45 => ⟨S2000000, .i32⟩
  | 46 => ⟨S2000000, .i32⟩
  | 47 => ⟨S_, .i32⟩
  | 48 => ⟨S2000000, .i32⟩
  | 49 => ⟨S2000000, .i1⟩
  | 50 => ⟨S_, .i32⟩
  | 51 => ⟨S2000000, .i32⟩
  | 52 => ⟨S2000000, .i32⟩
  | 53 => ⟨S2000000, .i32⟩
  | 54 => ⟨S_, .i32⟩
  | 55 => ⟨S2000000, .i32⟩
  | 56 => ⟨S2000000, .i1⟩
  | 57 => ⟨S_, .i32⟩
  | 58 => ⟨S2000000, .i32⟩
  | 59 => ⟨S2000000, .i32⟩
  | 60 => ⟨S2000000, .i32⟩
  | 61 => ⟨S2000000x1, .i32⟩
  | 62 => ⟨S2000000x1, .i32⟩
  | 63 => ⟨S2000000x1, .i32⟩
  | 64 => ⟨S2000000x3, .i32⟩
  | 65 => ⟨S2000000, .f32⟩
  | 66 => ⟨S_, .i32⟩
  | 67 => ⟨S2000000, .i32⟩
  | 68 => ⟨S2000000, .i32⟩
  | 69 => ⟨S_, .i32⟩
  | 70 => ⟨S2000000, .i32⟩
  | 71 => ⟨S2000000, .i32⟩
  | 72 => ⟨S_, .i32⟩
  | 73 => ⟨S2000000, .i32⟩
  | 74 => ⟨S2000000, .i1⟩
  | 75 => ⟨S_, .i32⟩
  | 76 => ⟨S2000000, .i32⟩
  | 77 => ⟨S2000000, .i32⟩
  | 78 => ⟨S2000000, .i32⟩
  | 79 => ⟨S_, .i32⟩
  | 80 => ⟨S2000000, .i32⟩
  | 81 => ⟨S2000000, .i1⟩
  | 82 => ⟨S_, .i32⟩
  | 83 => ⟨S2000000, .i32⟩
  | 84 => ⟨S2000000, .i32⟩
  | 85 => ⟨S2000000, .i32⟩
  | 86 => ⟨S_, .i32⟩
  | 87 => ⟨S2000000, .i32⟩
  | 88 => ⟨S2000000, .i1⟩
  | 89 => ⟨S_, .i32⟩
  | 90 => ⟨S2000000, .i32⟩
  | 91 => ⟨S2000000, .i32⟩
  | 92 => ⟨S2000000, .i32⟩
  | 93 => ⟨S2000000x1, .i32⟩
  | 94 => ⟨S2000000x1, .i32⟩
  | 95 => ⟨S2000000x1, .i32⟩
  | 96 => ⟨S2000000x3, .i32⟩
  | 97 => ⟨S2000000, .f32⟩
  | 98 => ⟨S2000000x1x3, .f32⟩
  | 99 => ⟨S2000000x3, .f32⟩
  | 100 => ⟨S2000000x2, .f32⟩
  | 101 => ⟨S2000000x2, .f32⟩
  | 102 => ⟨S2000000x2, .f32⟩
  | 103 => ⟨S2000000x2, .f32⟩
  | 104 => ⟨S_, .f32⟩
  | 105 => ⟨S2000000, .f32⟩
  | 106 => ⟨S2000000, .f32⟩
  | 107 => ⟨S2000000x1, .f32⟩
  | 108 => ⟨S2000000, .f32⟩
  | 109 => ⟨S2000000x1, .f32⟩
  | 110 => ⟨S2000000, .f32⟩
  | 111 => ⟨S2000000, .f32⟩
  | 112 => ⟨S_, .f32⟩
  | 113 => ⟨S2000000, .f32⟩
  | 114 => ⟨S2000000, .f32⟩
  | 115 => ⟨S_, .f32⟩
  | 116 => ⟨S2000000, .f32⟩
  | 117 => ⟨S2000000, .f32⟩
  | 118 => ⟨S2000000, .f32⟩
  | 119 => ⟨S2000000, .i32⟩
  | 120 => ⟨S_, .i32⟩
  | 121 => ⟨S_, .i32⟩
  | 122 => ⟨S_, .i32⟩
  | 123 => ⟨S2000000, .i32⟩
  | 124 => ⟨S2000000, .i32⟩
  | 125 => ⟨S_, .i32⟩
  | 126 => ⟨S2000000, .i32⟩
  | 127 => ⟨S2000000, .i32⟩
  | _ => ⟨S2000000, .i32⟩

abbrev hbmTy0_2 (i : Nat) : BufTy := match i % 128 with
  | 0 => ⟨S2000000, .f32⟩
  | 1 => ⟨S2000000, .i32⟩
  | 2 => ⟨S_, .i32⟩
  | 3 => ⟨S_, .i32⟩
  | 4 => ⟨S_, .i32⟩
  | 5 => ⟨S2000000, .i32⟩
  | 6 => ⟨S2000000, .i32⟩
  | 7 => ⟨S_, .i32⟩
  | 8 => ⟨S2000000, .i32⟩
  | 9 => ⟨S2000000, .i32⟩
  | 10 => ⟨S2000000, .f32⟩
  | 11 => ⟨S2000000, .f32⟩
  | 12 => ⟨S_, .f32⟩
  | 13 => ⟨S_, .f32⟩
  | 14 => ⟨S_, .f32⟩
  | 15 => ⟨S2000000, .f32⟩
  | 16 => ⟨S2000000, .f32⟩
  | 17 => ⟨S_, .f32⟩
  | 18 => ⟨S2000000, .f32⟩
  | 19 => ⟨S2000000, .f32⟩
  | 20 => ⟨S2000000, .f32⟩
  | 21 => ⟨S2000000, .f32⟩
  | 22 => ⟨S_, .f32⟩
  | 23 => ⟨S_, .f32⟩
  | 24 => ⟨S_, .f32⟩
  | 25 => ⟨S2000000, .f32⟩
  | 26 => ⟨S2000000, .f32⟩
  | 27 => ⟨S_, .f32⟩
  | 28 => ⟨S2000000, .f32⟩
  | 29 => ⟨S2000000, .f32⟩
  | 30 => ⟨S_, .i32⟩
  | 31 => ⟨S2000000, .i32⟩
  | 32 => ⟨S2000000, .i1⟩
  | 33 => ⟨S_, .i32⟩
  | 34 => ⟨S2000000, .i32⟩
  | 35 => ⟨S2000000, .i32⟩
  | 36 => ⟨S2000000, .i32⟩
  | 37 => ⟨S_, .i32⟩
  | 38 => ⟨S2000000, .i32⟩
  | 39 => ⟨S2000000, .i1⟩
  | 40 => ⟨S_, .i32⟩
  | 41 => ⟨S2000000, .i32⟩
  | 42 => ⟨S2000000, .i32⟩
  | 43 => ⟨S2000000, .i32⟩
  | 44 => ⟨S_, .i32⟩
  | 45 => ⟨S2000000, .i32⟩
  | 46 => ⟨S2000000, .i1⟩
  | 47 => ⟨S_, .i32⟩
  | 48 => ⟨S2000000, .i32⟩
  | 49 => ⟨S2000000, .i32⟩
  | 50 => ⟨S2000000, .i32⟩
  | 51 => ⟨S2000000x1, .i32⟩
  | 52 => ⟨S2000000x1, .i32⟩
  | 53 => ⟨S2000000x1, .i32⟩
  | 54 => ⟨S2000000x3, .i32⟩
  | 55 => ⟨S2000000, .f32⟩
  | 56 => ⟨S_, .i32⟩
  | 57 => ⟨S2000000, .i32⟩
  | 58 => ⟨S2000000, .i32⟩
  | 59 => ⟨S_, .i32⟩
  | 60 => ⟨S2000000, .i32⟩
  | 61 => ⟨S2000000, .i1⟩
  | 62 => ⟨S_, .i32⟩
  | 63 => ⟨S2000000, .i32⟩
  | 64 => ⟨S2000000, .i32⟩
  | 65 => ⟨S2000000, .i32⟩
  | 66 => ⟨S_, .i32⟩
  | 67 => ⟨S2000000, .i32⟩
  | 68 => ⟨S2000000, .i1⟩
  | 69 => ⟨S_, .i32⟩
  | 70 => ⟨S2000000, .i32⟩
  | 71 => ⟨S2000000, .i32⟩
  | 72 => ⟨S2000000, .i32⟩
  | 73 => ⟨S_, .i32⟩
  | 74 => ⟨S2000000, .i32⟩
  | 75 => ⟨S2000000, .i1⟩
  | 76 => ⟨S_, .i32⟩
  | 77 => ⟨S2000000, .i32⟩
  | 78 => ⟨S2000000, .i32⟩
  | 79 => ⟨S2000000, .i32⟩
  | 80 => ⟨S2000000x1, .i32⟩
  | 81 => ⟨S2000000x1, .i32⟩
  | 82 => ⟨S2000000x1, .i32⟩
  | 83 => ⟨S2000000x3, .i32⟩
  | 84 => ⟨S2000000, .f32⟩
  | 85 => ⟨S_, .i32⟩
  | 86 => ⟨S2000000, .i32⟩
  | 87 => ⟨S2000000, .i32⟩
  | 88 => ⟨S_, .i32⟩
  | 89 => ⟨S2000000, .i32⟩
  | 90 => ⟨S2000000, .i1⟩
  | 91 => ⟨S_, .i32⟩
  | 92 => ⟨S2000000, .i32⟩
  | 93 => ⟨S2000000, .i32⟩
  | 94 => ⟨S2000000, .i32⟩
  | 95 => ⟨S_, .i32⟩
  | 96 => ⟨S2000000, .i32⟩
  | 97 => ⟨S2000000, .i1⟩
  | 98 => ⟨S_, .i32⟩
  | 99 => ⟨S2000000, .i32⟩
  | 100 => ⟨S2000000, .i32⟩
  | 101 => ⟨S2000000, .i32⟩
  | 102 => ⟨S_, .i32⟩
  | 103 => ⟨S2000000, .i32⟩
  | 104 => ⟨S2000000, .i1⟩
  | 105 => ⟨S_, .i32⟩
  | 106 => ⟨S2000000, .i32⟩
  | 107 => ⟨S2000000, .i32⟩
  | 108 => ⟨S2000000, .i32⟩
  | 109 => ⟨S2000000x1, .i32⟩
  | 110 => ⟨S2000000x1, .i32⟩
  | 111 => ⟨S2000000x1, .i32⟩
  | 112 => ⟨S2000000x3, .i32⟩
  | 113 => ⟨S2000000, .f32⟩
  | 114 => ⟨S_, .i32⟩
  | 115 => ⟨S2000000, .i32⟩
  | 116 => ⟨S2000000, .i32⟩
  | 117 => ⟨S_, .i32⟩
  | 118 => ⟨S2000000, .i32⟩
  | 119 => ⟨S2000000, .i32⟩
  | 120 => ⟨S_, .i32⟩
  | 121 => ⟨S2000000, .i32⟩
  | 122 => ⟨S2000000, .i1⟩
  | 123 => ⟨S_, .i32⟩
  | 124 => ⟨S2000000, .i32⟩
  | 125 => ⟨S2000000, .i32⟩
  | 126 => ⟨S2000000, .i32⟩
  | 127 => ⟨S_, .i32⟩
  | _ => ⟨S2000000, .i32⟩

abbrev hbmTy0_3 (i : Nat) : BufTy := match i % 128 with
  | 0 => ⟨S2000000, .i32⟩
  | 1 => ⟨S2000000, .i1⟩
  | 2 => ⟨S_, .i32⟩
  | 3 => ⟨S2000000, .i32⟩
  | 4 => ⟨S2000000, .i32⟩
  | 5 => ⟨S2000000, .i32⟩
  | 6 => ⟨S_, .i32⟩
  | 7 => ⟨S2000000, .i32⟩
  | 8 => ⟨S2000000, .i1⟩
  | 9 => ⟨S_, .i32⟩
  | 10 => ⟨S2000000, .i32⟩
  | 11 => ⟨S2000000, .i32⟩
  | 12 => ⟨S2000000, .i32⟩
  | 13 => ⟨S2000000x1, .i32⟩
  | 14 => ⟨S2000000x1, .i32⟩
  | 15 => ⟨S2000000x1, .i32⟩
  | 16 => ⟨S2000000x3, .i32⟩
  | 17 => ⟨S2000000, .f32⟩
  | 18 => ⟨S2000000x1, .f32⟩
  | 19 => ⟨S2000000, .f32⟩
  | 20 => ⟨S2000000x1, .f32⟩
  | 21 => ⟨S2000000, .f32⟩
  | 22 => ⟨S_, .i32⟩
  | 23 => ⟨S_, .f32⟩
  | 24 => ⟨S2048000, .f32⟩
  | 25 => ⟨S1x2048000, .f32⟩
  | 26 => ⟨S_, .i32⟩
  | 27 => ⟨S_, .f32⟩
  | 28 => ⟨S2048000, .f32⟩
  | 29 => ⟨S1x2048000, .f32⟩
  | 30 => ⟨S_, .i32⟩
  | 31 => ⟨S_, .f32⟩
  | 32 => ⟨S2048000, .f32⟩
  | 33 => ⟨S1x2048000, .f32⟩
  | 34 => ⟨S_, .i32⟩
  | 35 => ⟨S_, .f32⟩
  | 36 => ⟨S2048000, .f32⟩
  | 37 => ⟨S1x2048000, .f32⟩
  | 38 => ⟨S_, .i32⟩
  | 39 => ⟨S_, .f32⟩
  | 40 => ⟨S2048000, .f32⟩
  | 41 => ⟨S1x2048000, .f32⟩
  | 42 => ⟨S_, .i32⟩
  | 43 => ⟨S_, .f32⟩
  | 44 => ⟨S2048000, .f32⟩
  | 45 => ⟨S1x2048000, .f32⟩
  | 46 => ⟨S_, .i32⟩
  | 47 => ⟨S_, .f32⟩
  | 48 => ⟨S2048000, .f32⟩
  | 49 => ⟨S1x2048000, .f32⟩
  | 50 => ⟨S_, .i32⟩
  | 51 => ⟨S_, .f32⟩
  | 52 => ⟨S2048000, .f32⟩
  | 53 => ⟨S1x2048000, .f32⟩
  | 54 => ⟨S_, .i32⟩
  | 55 => ⟨S_, .f32⟩
  | 56 => ⟨S2048000, .f32⟩
  | 57 => ⟨S1x2048000, .f32⟩
  | 58 => ⟨S_, .i32⟩
  | 59 => ⟨S_, .f32⟩
  | 60 => ⟨S2048000, .f32⟩
  | 61 => ⟨S1x2048000, .f32⟩
  | 62 => ⟨S_, .i32⟩
  | 63 => ⟨S_, .f32⟩
  | 64 => ⟨S2048000, .f32⟩
  | 65 => ⟨S1x2048000, .f32⟩
  | 66 => ⟨S_, .i32⟩
  | 67 => ⟨S_, .f32⟩
  | 68 => ⟨S2048000, .f32⟩
  | 69 => ⟨S1x2048000, .f32⟩
  | 70 => ⟨S_, .i32⟩
  | 71 => ⟨S_, .f32⟩
  | 72 => ⟨S2048000, .f32⟩
  | 73 => ⟨S1x2048000, .f32⟩
  | 74 => ⟨S_, .i32⟩
  | 75 => ⟨S_, .f32⟩
  | 76 => ⟨S2048000, .f32⟩
  | 77 => ⟨S1x2048000, .f32⟩
  | 78 => ⟨S_, .i32⟩
  | 79 => ⟨S_, .f32⟩
  | 80 => ⟨S2048000, .f32⟩
  | 81 => ⟨S1x2048000, .f32⟩
  | 82 => ⟨S_, .i32⟩
  | 83 => ⟨S_, .f32⟩
  | 84 => ⟨S2048000, .f32⟩
  | 85 => ⟨S1x2048000, .f32⟩
  | 86 => ⟨S_, .i32⟩
  | 87 => ⟨S_, .f32⟩
  | 88 => ⟨S2048000, .f32⟩
  | 89 => ⟨S1x2048000, .f32⟩
  | 90 => ⟨S1x2048000, .f32⟩
  | 91 => ⟨S1x1, .f32⟩
  | 92 => ⟨S1x2000000, .f32⟩
  | 93 => ⟨S2000000, .f32⟩
  | 94 => ⟨S_, .f32⟩
  | _ => ⟨S2000000, .i32⟩

abbrev hbmTy (i : Nat) : BufTy := match i / 128 with
  | 0 => hbmTy0_0 i
  | 1 => hbmTy0_1 i
  | 2 => hbmTy0_2 i
  | 3 => hbmTy0_3 i
  | _ => ⟨S2000000, .i32⟩

abbrev bufTy : (tb : Table) → Fin (tcTables nBuf tb) → BufTy
  | .hbm, ⟨i, _⟩ => hbmTy i
  | .local _ .vmem, ⟨0, _⟩ => ⟨S1x102400, .f32⟩
  | .local _ .vmem, ⟨1, _⟩ => ⟨S1x102400, .f32⟩
  | .local _ .vmem, ⟨2, _⟩ => ⟨S1x102400, .f32⟩
  | .local _ .vmem, ⟨3, _⟩ => ⟨S1x102400, .f32⟩
  | .local _ .vmem, ⟨4, _⟩ => ⟨S1x102400, .f32⟩
  | .local _ .vmem, ⟨5, _⟩ => ⟨S1x102400, .f32⟩
  | .local _ .vmem, ⟨6, _⟩ => ⟨S1x102400, .f32⟩
  | .local _ .vmem, ⟨7, _⟩ => ⟨S1x102400, .f32⟩
  | .local _ .vmem, ⟨8, _⟩ => ⟨S1x102400, .f32⟩
  | .local _ .vmem, ⟨9, _⟩ => ⟨S1x102400, .f32⟩
  | .local _ .vmem, ⟨10, _⟩ => ⟨S1x102400, .f32⟩
  | .local _ .vmem, ⟨11, _⟩ => ⟨S1x102400, .f32⟩
  | .local _ .vmem, ⟨12, _⟩ => ⟨S1x102400, .f32⟩
  | .local _ .vmem, ⟨13, _⟩ => ⟨S1x102400, .f32⟩
  | .local _ .vmem, ⟨14, _⟩ => ⟨S1x102400, .f32⟩
  | .local _ .vmem, ⟨15, _⟩ => ⟨S1x102400, .f32⟩
  | .local _ .vmem, ⟨16, _⟩ => ⟨S1x102400, .f32⟩
  | .local _ .vmem, ⟨17, _⟩ => ⟨S1x102400, .f32⟩
  | .local _ .vmem, ⟨18, _⟩ => ⟨S1x102400, .f32⟩
  | .local _ .vmem, ⟨19, _⟩ => ⟨S1x102400, .f32⟩
  | .local _ .vmem, ⟨20, _⟩ => ⟨S1x102400, .f32⟩
  | .local _ .vmem, ⟨21, _⟩ => ⟨S1x102400, .f32⟩
  | .local _ .vmem, ⟨22, _⟩ => ⟨S1x102400, .f32⟩
  | .local _ .vmem, ⟨23, _⟩ => ⟨S1x102400, .f32⟩
  | .local _ .vmem, ⟨24, _⟩ => ⟨S1x102400, .f32⟩
  | .local _ .vmem, ⟨25, _⟩ => ⟨S1x102400, .f32⟩
  | .local _ .vmem, ⟨26, _⟩ => ⟨S1x102400, .f32⟩
  | .local _ .vmem, ⟨27, _⟩ => ⟨S1x102400, .f32⟩
  | .local _ .vmem, ⟨28, _⟩ => ⟨S1x102400, .f32⟩
  | .local _ .vmem, ⟨29, _⟩ => ⟨S1x102400, .f32⟩
  | .local _ .vmem, ⟨30, _⟩ => ⟨S1x102400, .f32⟩
  | .local _ .vmem, ⟨31, _⟩ => ⟨S1x102400, .f32⟩
  | .local _ .vmem, ⟨32, _⟩ => ⟨S1x102400, .f32⟩
  | .local _ .vmem, ⟨33, _⟩ => ⟨S1x102400, .f32⟩
  | .local _ .vmem, ⟨34, _⟩ => ⟨S1x102400, .f32⟩
  | .local _ .vmem, ⟨35, _⟩ => ⟨S1x102400, .f32⟩
  | .local _ .vmem, ⟨36, _⟩ => ⟨S1x1, .f32⟩
  | .local _ .vmem, ⟨37, _⟩ => ⟨S1x1, .f32⟩
  | _, _ => ⟨S2000000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_c_3 : Ref sig .tc := ⟨.hbm, 31, rfl⟩
abbrev main_v15 : Ref sig .tc := ⟨.hbm, 32, rfl⟩
abbrev main_v16 : Ref sig .tc := ⟨.hbm, 33, rfl⟩
abbrev main_c_4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_5 : Ref sig .tc := ⟨.hbm, 40, rfl⟩
abbrev main_v22 : Ref sig .tc := ⟨.hbm, 41, rfl⟩
abbrev main_v23 : Ref sig .tc := ⟨.hbm, 42, rfl⟩
abbrev main_c_6 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_7 : Ref sig .tc := ⟨.hbm, 64, rfl⟩
abbrev main_v43 : Ref sig .tc := ⟨.hbm, 65, rfl⟩
abbrev main_v44 : Ref sig .tc := ⟨.hbm, 66, rfl⟩
abbrev main_cst_8 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_c_10 : Ref sig .tc := ⟨.hbm, 73, rfl⟩
abbrev main_call0_v0 : Ref sig .tc := ⟨.hbm, 74, rfl⟩
abbrev main_call0_v1 : Ref sig .tc := ⟨.hbm, 75, rfl⟩
abbrev main_call0_v2 : Ref sig .tc := ⟨.hbm, 76, rfl⟩
abbrev main_call0_v3 : Ref sig .tc := ⟨.hbm, 77, rfl⟩
abbrev main_call0_v4 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_c_11 : Ref sig .tc := ⟨.hbm, 82, rfl⟩
abbrev main_c_12 : Ref sig .tc := ⟨.hbm, 83, rfl⟩
abbrev main_call1_v0 : Ref sig .tc := ⟨.hbm, 84, rfl⟩
abbrev main_call1_v1 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_cst_13 : Ref sig .tc := ⟨.hbm, 92, rfl⟩
abbrev main_cst_14 : Ref sig .tc := ⟨.hbm, 93, rfl⟩
abbrev main_call2_v0 : Ref sig .tc := ⟨.hbm, 94, rfl⟩
abbrev main_call2_v1 : Ref sig .tc := ⟨.hbm, 95, rfl⟩
abbrev main_call2_v2 : Ref sig .tc := ⟨.hbm, 96, rfl⟩
abbrev main_call2_v3 : Ref sig .tc := ⟨.hbm, 97, rfl⟩
abbrev main_call2_v4 : Ref sig .tc := ⟨.hbm, 98, rfl⟩
abbrev main_v55 : Ref sig .tc := ⟨.hbm, 99, rfl⟩
abbrev main_v56 : Ref sig .tc := ⟨.hbm, 100, rfl⟩
abbrev main_v57 : Ref sig .tc := ⟨.hbm, 101, rfl⟩
abbrev main_cst_15 : Ref sig .tc := ⟨.hbm, 102, rfl⟩
abbrev main_cst_16 : Ref sig .tc := ⟨.hbm, 103, rfl⟩
abbrev main_call3_v0 : Ref sig .tc := ⟨.hbm, 104, rfl⟩
abbrev main_call3_v1 : Ref sig .tc := ⟨.hbm, 105, rfl⟩
abbrev main_call3_v2 : Ref sig .tc := ⟨.hbm, 106, rfl⟩
abbrev main_call3_v3 : Ref sig .tc := ⟨.hbm, 107, rfl⟩
abbrev main_call3_v4 : Ref sig .tc := ⟨.hbm, 108, rfl⟩
abbrev main_v58 : Ref sig .tc := ⟨.hbm, 109, rfl⟩
abbrev main_c_17 : Ref sig .tc := ⟨.hbm, 110, rfl⟩
abbrev main_v59 : Ref sig .tc := ⟨.hbm, 111, rfl⟩
abbrev main_v60 : Ref sig .tc := ⟨.hbm, 112, rfl⟩
abbrev main_c_18 : Ref sig .tc := ⟨.hbm, 113, rfl⟩
abbrev main_v61 : Ref sig .tc := ⟨.hbm, 114, rfl⟩
abbrev main_v62 : Ref sig .tc := ⟨.hbm, 115, rfl⟩
abbrev main_v63 : Ref sig .tc := ⟨.hbm, 116, rfl⟩
abbrev main_c_19 : Ref sig .tc := ⟨.hbm, 117, rfl⟩
abbrev main_v64 : Ref sig .tc := ⟨.hbm, 118, rfl⟩
abbrev main_v65 : Ref sig .tc := ⟨.hbm, 119, rfl⟩
abbrev main_c_20 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_c_21 : Ref sig .tc := ⟨.hbm, 124, rfl⟩
abbrev main_v69 : Ref sig .tc := ⟨.hbm, 125, rfl⟩
abbrev main_v70 : Ref sig .tc := ⟨.hbm, 126, rfl⟩
abbrev main_c_22 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_v78 : Ref sig .tc := ⟨.hbm, 135, rfl⟩
abbrev main_c_23 : Ref sig .tc := ⟨.hbm, 136, rfl⟩
abbrev main_v79 : Ref sig .tc := ⟨.hbm, 137, rfl⟩
abbrev main_v80 : Ref sig .tc := ⟨.hbm, 138, rfl⟩
abbrev main_c_24 : Ref sig .tc := ⟨.hbm, 139, rfl⟩
abbrev main_v81 : Ref sig .tc := ⟨.hbm, 140, rfl⟩
abbrev main_v82 : Ref sig .tc := ⟨.hbm, 141, rfl⟩
abbrev main_c_25 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_c_26 : Ref sig .tc := ⟨.hbm, 146, rfl⟩
abbrev main_v86 : Ref sig .tc := ⟨.hbm, 147, rfl⟩
abbrev main_v87 : Ref sig .tc := ⟨.hbm, 148, rfl⟩
abbrev main_c_27 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_c_28 : Ref sig .tc := ⟨.hbm, 153, rfl⟩
abbrev main_v91 : Ref sig .tc := ⟨.hbm, 154, rfl⟩
abbrev main_v92 : Ref sig .tc := ⟨.hbm, 155, rfl⟩
abbrev main_c_29 : Ref sig .tc := ⟨.hbm, 156, rfl⟩
abbrev main_v93 : Ref sig .tc := ⟨.hbm, 157, rfl⟩
abbrev main_v94 : Ref sig .tc := ⟨.hbm, 158, rfl⟩
abbrev main_v95 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_v99 : Ref sig .tc := ⟨.hbm, 163, rfl⟩
abbrev main_v100 : Ref sig .tc := ⟨.hbm, 164, rfl⟩
abbrev main_c_30 : Ref sig .tc := ⟨.hbm, 165, rfl⟩
abbrev main_v101 : Ref sig .tc := ⟨.hbm, 166, rfl⟩
abbrev main_v102 : Ref sig .tc := ⟨.hbm, 167, rfl⟩
abbrev main_c_31 : Ref sig .tc := ⟨.hbm, 168, rfl⟩
abbrev main_v103 : Ref sig .tc := ⟨.hbm, 169, rfl⟩
abbrev main_v104 : Ref sig .tc := ⟨.hbm, 170, rfl⟩
abbrev main_c_32 : Ref sig .tc := ⟨.hbm, 171, rfl⟩
abbrev main_v105 : Ref sig .tc := ⟨.hbm, 172, rfl⟩
abbrev main_v106 : Ref sig .tc := ⟨.hbm, 173, rfl⟩
abbrev main_v107 : Ref sig .tc := ⟨.hbm, 174, rfl⟩
abbrev main_c_33 : Ref sig .tc := ⟨.hbm, 175, rfl⟩
abbrev main_v108 : Ref sig .tc := ⟨.hbm, 176, rfl⟩
abbrev main_v109 : Ref sig .tc := ⟨.hbm, 177, rfl⟩
abbrev main_c_34 : Ref sig .tc := ⟨.hbm, 178, rfl⟩
abbrev main_v110 : Ref sig .tc := ⟨.hbm, 179, rfl⟩
abbrev main_v111 : Ref sig .tc := ⟨.hbm, 180, rfl⟩
abbrev main_v112 : Ref sig .tc := ⟨.hbm, 181, rfl⟩
abbrev main_c_35 : Ref sig .tc := ⟨.hbm, 182, rfl⟩
abbrev main_v113 : Ref sig .tc := ⟨.hbm, 183, rfl⟩
abbrev main_v114 : Ref sig .tc := ⟨.hbm, 184, rfl⟩
abbrev main_c_36 : Ref sig .tc := ⟨.hbm, 185, rfl⟩
abbrev main_v115 : Ref sig .tc := ⟨.hbm, 186, rfl⟩
abbrev main_v116 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_c_37 : Ref sig .tc := ⟨.hbm, 194, rfl⟩
abbrev main_v123 : Ref sig .tc := ⟨.hbm, 195, rfl⟩
abbrev main_v124 : Ref sig .tc := ⟨.hbm, 196, rfl⟩
abbrev main_c_38 : Ref sig .tc := ⟨.hbm, 197, rfl⟩
abbrev main_v125 : Ref sig .tc := ⟨.hbm, 198, rfl⟩
abbrev main_v126 : Ref sig .tc := ⟨.hbm, 199, rfl⟩
abbrev main_c_39 : Ref sig .tc := ⟨.hbm, 200, rfl⟩
abbrev main_v127 : Ref sig .tc := ⟨.hbm, 201, rfl⟩
abbrev main_v128 : Ref sig .tc := ⟨.hbm, 202, rfl⟩
abbrev main_c_40 : Ref sig .tc := ⟨.hbm, 203, rfl⟩
abbrev main_v129 : Ref sig .tc := ⟨.hbm, 204, rfl⟩
abbrev main_v130 : Ref sig .tc := ⟨.hbm, 205, rfl⟩
abbrev main_v131 : Ref sig .tc := ⟨.hbm, 206, rfl⟩
abbrev main_c_41 : Ref sig .tc := ⟨.hbm, 207, rfl⟩
abbrev main_v132 : Ref sig .tc := ⟨.hbm, 208, rfl⟩
abbrev main_v133 : Ref sig .tc := ⟨.hbm, 209, rfl⟩
abbrev main_c_42 : Ref sig .tc := ⟨.hbm, 210, rfl⟩
abbrev main_v134 : Ref sig .tc := ⟨.hbm, 211, rfl⟩
abbrev main_v135 : Ref sig .tc := ⟨.hbm, 212, rfl⟩
abbrev main_v136 : Ref sig .tc := ⟨.hbm, 213, rfl⟩
abbrev main_c_43 : Ref sig .tc := ⟨.hbm, 214, rfl⟩
abbrev main_v137 : Ref sig .tc := ⟨.hbm, 215, rfl⟩
abbrev main_v138 : Ref sig .tc := ⟨.hbm, 216, rfl⟩
abbrev main_c_44 : Ref sig .tc := ⟨.hbm, 217, rfl⟩
abbrev main_v139 : Ref sig .tc := ⟨.hbm, 218, rfl⟩
abbrev main_v140 : Ref sig .tc := ⟨.hbm, 219, rfl⟩
abbrev main_v141 : Ref sig .tc := ⟨.hbm, 220, rfl⟩
abbrev main_v142 : Ref sig .tc := ⟨.hbm, 221, rfl⟩
abbrev main_v143 : Ref sig .tc := ⟨.hbm, 222, rfl⟩
abbrev main_v144 : Ref sig .tc := ⟨.hbm, 223, rfl⟩
abbrev main_v145 : Ref sig .tc := ⟨.hbm, 224, rfl⟩
abbrev main_v146 : Ref sig .tc := ⟨.hbm, 225, rfl⟩
abbrev main_v147 : Ref sig .tc := ⟨.hbm, 226, rfl⟩
abbrev main_v148 : Ref sig .tc := ⟨.hbm, 227, rfl⟩
abbrev main_v149 : Ref sig .tc := ⟨.hbm, 228, rfl⟩
abbrev main_v150 : Ref sig .tc := ⟨.hbm, 229, rfl⟩
abbrev main_v151 : Ref sig .tc := ⟨.hbm, 230, rfl⟩
abbrev main_v152 : Ref sig .tc := ⟨.hbm, 231, rfl⟩
abbrev main_cst_45 : Ref sig .tc := ⟨.hbm, 232, rfl⟩
abbrev main_v153 : Ref sig .tc := ⟨.hbm, 233, rfl⟩
abbrev main_v154 : Ref sig .tc := ⟨.hbm, 234, rfl⟩
abbrev main_v155 : Ref sig .tc := ⟨.hbm, 235, rfl⟩
abbrev main_v156 : Ref sig .tc := ⟨.hbm, 236, rfl⟩
abbrev main_v157 : Ref sig .tc := ⟨.hbm, 237, rfl⟩
abbrev main_v158 : Ref sig .tc := ⟨.hbm, 238, rfl⟩
abbrev main_v159 : Ref sig .tc := ⟨.hbm, 239, rfl⟩
abbrev main_cst_46 : Ref sig .tc := ⟨.hbm, 240, rfl⟩
abbrev main_v160 : Ref sig .tc := ⟨.hbm, 241, rfl⟩
abbrev main_v161 : Ref sig .tc := ⟨.hbm, 242, rfl⟩
abbrev main_cst_47 : Ref sig .tc := ⟨.hbm, 243, rfl⟩
abbrev main_v162 : Ref sig .tc := ⟨.hbm, 244, rfl⟩
abbrev main_v163 : Ref sig .tc := ⟨.hbm, 245, rfl⟩
abbrev main_v164 : Ref sig .tc := ⟨.hbm, 246, rfl⟩
abbrev main_v165 : Ref sig .tc := ⟨.hbm, 247, rfl⟩
abbrev main_c_48 : Ref sig .tc := ⟨.hbm, 248, rfl⟩
abbrev main_c_49 : Ref sig .tc := ⟨.hbm, 249, rfl⟩
abbrev main_call4_v0 : Ref sig .tc := ⟨.hbm, 250, rfl⟩
abbrev main_call4_v1 : Ref sig .tc := ⟨.hbm, 251, rfl⟩
abbrev main_call4_v2 : Ref sig .tc := ⟨.hbm, 252, rfl⟩
abbrev main_call4_v3 : Ref sig .tc := ⟨.hbm, 253, rfl⟩
abbrev main_call4_v4 : Ref sig .tc := ⟨.hbm, 254, rfl⟩
abbrev main_v166 : Ref sig .tc := ⟨.hbm, 255, rfl⟩
abbrev main_v167 : Ref sig .tc := ⟨.hbm, 256, rfl⟩
abbrev main_v168 : Ref sig .tc := ⟨.hbm, 257, rfl⟩
abbrev main_c_50 : Ref sig .tc := ⟨.hbm, 258, rfl⟩
abbrev main_c_51 : Ref sig .tc := ⟨.hbm, 259, rfl⟩
abbrev main_call5_v0 : Ref sig .tc := ⟨.hbm, 260, rfl⟩
abbrev main_call5_v1 : Ref sig .tc := ⟨.hbm, 261, rfl⟩
abbrev main_call5_v2 : Ref sig .tc := ⟨.hbm, 262, rfl⟩
abbrev main_call5_v3 : Ref sig .tc := ⟨.hbm, 263, rfl⟩
abbrev main_call5_v4 : Ref sig .tc := ⟨.hbm, 264, rfl⟩
abbrev main_v169 : Ref sig .tc := ⟨.hbm, 265, rfl⟩
abbrev main_v170 : Ref sig .tc := ⟨.hbm, 266, rfl⟩
abbrev main_v171 : Ref sig .tc := ⟨.hbm, 267, rfl⟩
abbrev main_cst_52 : Ref sig .tc := ⟨.hbm, 268, rfl⟩
abbrev main_cst_53 : Ref sig .tc := ⟨.hbm, 269, rfl⟩
abbrev main_call6_v0 : Ref sig .tc := ⟨.hbm, 270, rfl⟩
abbrev main_call6_v1 : Ref sig .tc := ⟨.hbm, 271, rfl⟩
abbrev main_call6_v2 : Ref sig .tc := ⟨.hbm, 272, rfl⟩
abbrev main_call6_v3 : Ref sig .tc := ⟨.hbm, 273, rfl⟩
abbrev main_call6_v4 : Ref sig .tc := ⟨.hbm, 274, rfl⟩
abbrev main_v172 : Ref sig .tc := ⟨.hbm, 275, rfl⟩
abbrev main_v173 : Ref sig .tc := ⟨.hbm, 276, rfl⟩
abbrev main_v174 : Ref sig .tc := ⟨.hbm, 277, rfl⟩
abbrev main_cst_54 : Ref sig .tc := ⟨.hbm, 278, rfl⟩
abbrev main_cst_55 : Ref sig .tc := ⟨.hbm, 279, rfl⟩
abbrev main_call7_v0 : Ref sig .tc := ⟨.hbm, 280, rfl⟩
abbrev main_call7_v1 : Ref sig .tc := ⟨.hbm, 281, rfl⟩
abbrev main_call7_v2 : Ref sig .tc := ⟨.hbm, 282, rfl⟩
abbrev main_call7_v3 : Ref sig .tc := ⟨.hbm, 283, rfl⟩
abbrev main_call7_v4 : Ref sig .tc := ⟨.hbm, 284, rfl⟩
abbrev main_v175 : Ref sig .tc := ⟨.hbm, 285, rfl⟩
abbrev main_c_56 : Ref sig .tc := ⟨.hbm, 286, rfl⟩
abbrev main_v176 : Ref sig .tc := ⟨.hbm, 287, rfl⟩
abbrev main_v177 : Ref sig .tc := ⟨.hbm, 288, rfl⟩
abbrev main_c_57 : Ref sig .tc := ⟨.hbm, 289, rfl⟩
abbrev main_v178 : Ref sig .tc := ⟨.hbm, 290, rfl⟩
abbrev main_v179 : Ref sig .tc := ⟨.hbm, 291, rfl⟩
abbrev main_v180 : Ref sig .tc := ⟨.hbm, 292, rfl⟩
abbrev main_c_58 : Ref sig .tc := ⟨.hbm, 293, rfl⟩
abbrev main_v181 : Ref sig .tc := ⟨.hbm, 294, rfl⟩
abbrev main_v182 : Ref sig .tc := ⟨.hbm, 295, rfl⟩
abbrev main_c_59 : Ref sig .tc := ⟨.hbm, 296, rfl⟩
abbrev main_v183 : Ref sig .tc := ⟨.hbm, 297, rfl⟩
abbrev main_v184 : Ref sig .tc := ⟨.hbm, 298, rfl⟩
abbrev main_v185 : Ref sig .tc := ⟨.hbm, 299, rfl⟩
abbrev main_c_60 : Ref sig .tc := ⟨.hbm, 300, rfl⟩
abbrev main_v186 : Ref sig .tc := ⟨.hbm, 301, rfl⟩
abbrev main_v187 : Ref sig .tc := ⟨.hbm, 302, rfl⟩
abbrev main_c_61 : Ref sig .tc := ⟨.hbm, 303, rfl⟩
abbrev main_v188 : Ref sig .tc := ⟨.hbm, 304, rfl⟩
abbrev main_v189 : Ref sig .tc := ⟨.hbm, 305, rfl⟩
abbrev main_v190 : Ref sig .tc := ⟨.hbm, 306, rfl⟩
abbrev main_v191 : Ref sig .tc := ⟨.hbm, 307, rfl⟩
abbrev main_v192 : Ref sig .tc := ⟨.hbm, 308, rfl⟩
abbrev main_v193 : Ref sig .tc := ⟨.hbm, 309, rfl⟩
abbrev main_v194 : Ref sig .tc := ⟨.hbm, 310, rfl⟩
abbrev main_v195 : Ref sig .tc := ⟨.hbm, 311, rfl⟩
abbrev main_c_62 : Ref sig .tc := ⟨.hbm, 312, rfl⟩
abbrev main_v196 : Ref sig .tc := ⟨.hbm, 313, rfl⟩
abbrev main_v197 : Ref sig .tc := ⟨.hbm, 314, rfl⟩
abbrev main_c_63 : Ref sig .tc := ⟨.hbm, 315, rfl⟩
abbrev main_v198 : Ref sig .tc := ⟨.hbm, 316, rfl⟩
abbrev main_v199 : Ref sig .tc := ⟨.hbm, 317, rfl⟩
abbrev main_c_64 : Ref sig .tc := ⟨.hbm, 318, rfl⟩
abbrev main_v200 : Ref sig .tc := ⟨.hbm, 319, rfl⟩
abbrev main_v201 : Ref sig .tc := ⟨.hbm, 320, rfl⟩
abbrev main_v202 : Ref sig .tc := ⟨.hbm, 321, rfl⟩
abbrev main_c_65 : Ref sig .tc := ⟨.hbm, 322, rfl⟩
abbrev main_v203 : Ref sig .tc := ⟨.hbm, 323, rfl⟩
abbrev main_v204 : Ref sig .tc := ⟨.hbm, 324, rfl⟩
abbrev main_c_66 : Ref sig .tc := ⟨.hbm, 325, rfl⟩
abbrev main_v205 : Ref sig .tc := ⟨.hbm, 326, rfl⟩
abbrev main_v206 : Ref sig .tc := ⟨.hbm, 327, rfl⟩
abbrev main_v207 : Ref sig .tc := ⟨.hbm, 328, rfl⟩
abbrev main_c_67 : Ref sig .tc := ⟨.hbm, 329, rfl⟩
abbrev main_v208 : Ref sig .tc := ⟨.hbm, 330, rfl⟩
abbrev main_v209 : Ref sig .tc := ⟨.hbm, 331, rfl⟩
abbrev main_c_68 : Ref sig .tc := ⟨.hbm, 332, rfl⟩
abbrev main_v210 : Ref sig .tc := ⟨.hbm, 333, rfl⟩
abbrev main_v211 : Ref sig .tc := ⟨.hbm, 334, rfl⟩
abbrev main_v212 : Ref sig .tc := ⟨.hbm, 335, rfl⟩
abbrev main_v213 : Ref sig .tc := ⟨.hbm, 336, rfl⟩
abbrev main_v214 : Ref sig .tc := ⟨.hbm, 337, rfl⟩
abbrev main_v215 : Ref sig .tc := ⟨.hbm, 338, rfl⟩
abbrev main_v216 : Ref sig .tc := ⟨.hbm, 339, rfl⟩
abbrev main_v217 : Ref sig .tc := ⟨.hbm, 340, rfl⟩
abbrev main_c_69 : Ref sig .tc := ⟨.hbm, 341, rfl⟩
abbrev main_v218 : Ref sig .tc := ⟨.hbm, 342, rfl⟩
abbrev main_v219 : Ref sig .tc := ⟨.hbm, 343, rfl⟩
abbrev main_c_70 : Ref sig .tc := ⟨.hbm, 344, rfl⟩
abbrev main_v220 : Ref sig .tc := ⟨.hbm, 345, rfl⟩
abbrev main_v221 : Ref sig .tc := ⟨.hbm, 346, rfl⟩
abbrev main_c_71 : Ref sig .tc := ⟨.hbm, 347, rfl⟩
abbrev main_v222 : Ref sig .tc := ⟨.hbm, 348, rfl⟩
abbrev main_v223 : Ref sig .tc := ⟨.hbm, 349, rfl⟩
abbrev main_v224 : Ref sig .tc := ⟨.hbm, 350, rfl⟩
abbrev main_c_72 : Ref sig .tc := ⟨.hbm, 351, rfl⟩
abbrev main_v225 : Ref sig .tc := ⟨.hbm, 352, rfl⟩
abbrev main_v226 : Ref sig .tc := ⟨.hbm, 353, rfl⟩
abbrev main_c_73 : Ref sig .tc := ⟨.hbm, 354, rfl⟩
abbrev main_v227 : Ref sig .tc := ⟨.hbm, 355, rfl⟩
abbrev main_v228 : Ref sig .tc := ⟨.hbm, 356, rfl⟩
abbrev main_v229 : Ref sig .tc := ⟨.hbm, 357, rfl⟩
abbrev main_c_74 : Ref sig .tc := ⟨.hbm, 358, rfl⟩
abbrev main_v230 : Ref sig .tc := ⟨.hbm, 359, rfl⟩
abbrev main_v231 : Ref sig .tc := ⟨.hbm, 360, rfl⟩
abbrev main_c_75 : Ref sig .tc := ⟨.hbm, 361, rfl⟩
abbrev main_v232 : Ref sig .tc := ⟨.hbm, 362, rfl⟩
abbrev main_v233 : Ref sig .tc := ⟨.hbm, 363, rfl⟩
abbrev main_v234 : Ref sig .tc := ⟨.hbm, 364, rfl⟩
abbrev main_v235 : Ref sig .tc := ⟨.hbm, 365, rfl⟩
abbrev main_v236 : Ref sig .tc := ⟨.hbm, 366, rfl⟩
abbrev main_v237 : Ref sig .tc := ⟨.hbm, 367, rfl⟩
abbrev main_v238 : Ref sig .tc := ⟨.hbm, 368, rfl⟩
abbrev main_v239 : Ref sig .tc := ⟨.hbm, 369, rfl⟩
abbrev main_c_76 : Ref sig .tc := ⟨.hbm, 370, rfl⟩
abbrev main_v240 : Ref sig .tc := ⟨.hbm, 371, rfl⟩
abbrev main_v241 : Ref sig .tc := ⟨.hbm, 372, rfl⟩
abbrev main_c_77 : Ref sig .tc := ⟨.hbm, 373, rfl⟩
abbrev main_v242 : Ref sig .tc := ⟨.hbm, 374, rfl⟩
abbrev main_v243 : Ref sig .tc := ⟨.hbm, 375, rfl⟩
abbrev main_c_78 : Ref sig .tc := ⟨.hbm, 376, rfl⟩
abbrev main_v244 : Ref sig .tc := ⟨.hbm, 377, rfl⟩
abbrev main_v245 : Ref sig .tc := ⟨.hbm, 378, rfl⟩
abbrev main_c_79 : Ref sig .tc := ⟨.hbm, 379, rfl⟩
abbrev main_v246 : Ref sig .tc := ⟨.hbm, 380, rfl⟩
abbrev main_v247 : Ref sig .tc := ⟨.hbm, 381, rfl⟩
abbrev main_v248 : Ref sig .tc := ⟨.hbm, 382, rfl⟩
abbrev main_c_80 : Ref sig .tc := ⟨.hbm, 383, rfl⟩
abbrev main_v249 : Ref sig .tc := ⟨.hbm, 384, rfl⟩
abbrev main_v250 : Ref sig .tc := ⟨.hbm, 385, rfl⟩
abbrev main_c_81 : Ref sig .tc := ⟨.hbm, 386, rfl⟩
abbrev main_v251 : Ref sig .tc := ⟨.hbm, 387, rfl⟩
abbrev main_v252 : Ref sig .tc := ⟨.hbm, 388, rfl⟩
abbrev main_v253 : Ref sig .tc := ⟨.hbm, 389, rfl⟩
abbrev main_c_82 : Ref sig .tc := ⟨.hbm, 390, rfl⟩
abbrev main_v254 : Ref sig .tc := ⟨.hbm, 391, rfl⟩
abbrev main_v255 : Ref sig .tc := ⟨.hbm, 392, rfl⟩
abbrev main_c_83 : Ref sig .tc := ⟨.hbm, 393, rfl⟩
abbrev main_v256 : Ref sig .tc := ⟨.hbm, 394, rfl⟩
abbrev main_v257 : Ref sig .tc := ⟨.hbm, 395, rfl⟩
abbrev main_v258 : Ref sig .tc := ⟨.hbm, 396, rfl⟩
abbrev main_v259 : Ref sig .tc := ⟨.hbm, 397, rfl⟩
abbrev main_v260 : Ref sig .tc := ⟨.hbm, 398, rfl⟩
abbrev main_v261 : Ref sig .tc := ⟨.hbm, 399, rfl⟩
abbrev main_v262 : Ref sig .tc := ⟨.hbm, 400, rfl⟩
abbrev main_v263 : Ref sig .tc := ⟨.hbm, 401, rfl⟩
abbrev main_v264 : Ref sig .tc := ⟨.hbm, 402, rfl⟩
abbrev main_v265 : Ref sig .tc := ⟨.hbm, 403, rfl⟩
abbrev main_v266 : Ref sig .tc := ⟨.hbm, 404, rfl⟩
abbrev main_v267 : Ref sig .tc := ⟨.hbm, 405, rfl⟩
abbrev main_c_84 : Ref sig .tc := ⟨.hbm, 406, rfl⟩
abbrev main_call8_v0 : Ref sig .tc := ⟨.hbm, 407, rfl⟩
abbrev main_v268 : Ref sig .tc := ⟨.hbm, 408, rfl⟩
abbrev main_v269 : Ref sig .tc := ⟨.hbm, 409, rfl⟩
abbrev main_c_85 : Ref sig .tc := ⟨.hbm, 410, rfl⟩
abbrev main_call9_v0 : Ref sig .tc := ⟨.hbm, 411, rfl⟩
abbrev main_v270 : Ref sig .tc := ⟨.hbm, 412, rfl⟩
abbrev main_v271 : Ref sig .tc := ⟨.hbm, 413, rfl⟩
abbrev main_c_86 : Ref sig .tc := ⟨.hbm, 414, rfl⟩
abbrev main_call10_v0 : Ref sig .tc := ⟨.hbm, 415, rfl⟩
abbrev main_v272 : Ref sig .tc := ⟨.hbm, 416, rfl⟩
abbrev main_v273 : Ref sig .tc := ⟨.hbm, 417, rfl⟩
abbrev main_c_87 : Ref sig .tc := ⟨.hbm, 418, rfl⟩
abbrev main_call11_v0 : Ref sig .tc := ⟨.hbm, 419, rfl⟩
abbrev main_v274 : Ref sig .tc := ⟨.hbm, 420, rfl⟩
abbrev main_v275 : Ref sig .tc := ⟨.hbm, 421, rfl⟩
abbrev main_c_88 : Ref sig .tc := ⟨.hbm, 422, rfl⟩
abbrev main_call12_v0 : Ref sig .tc := ⟨.hbm, 423, rfl⟩
abbrev main_v276 : Ref sig .tc := ⟨.hbm, 424, rfl⟩
abbrev main_v277 : Ref sig .tc := ⟨.hbm, 425, rfl⟩
abbrev main_c_89 : Ref sig .tc := ⟨.hbm, 426, rfl⟩
abbrev main_call13_v0 : Ref sig .tc := ⟨.hbm, 427, rfl⟩
abbrev main_v278 : Ref sig .tc := ⟨.hbm, 428, rfl⟩
abbrev main_v279 : Ref sig .tc := ⟨.hbm, 429, rfl⟩
abbrev main_c_90 : Ref sig .tc := ⟨.hbm, 430, rfl⟩
abbrev main_call14_v0 : Ref sig .tc := ⟨.hbm, 431, rfl⟩
abbrev main_v280 : Ref sig .tc := ⟨.hbm, 432, rfl⟩
abbrev main_v281 : Ref sig .tc := ⟨.hbm, 433, rfl⟩
abbrev main_c_91 : Ref sig .tc := ⟨.hbm, 434, rfl⟩
abbrev main_call15_v0 : Ref sig .tc := ⟨.hbm, 435, rfl⟩
abbrev main_v282 : Ref sig .tc := ⟨.hbm, 436, rfl⟩
abbrev main_v283 : Ref sig .tc := ⟨.hbm, 437, rfl⟩
abbrev main_c_92 : Ref sig .tc := ⟨.hbm, 438, rfl⟩
abbrev main_call16_v0 : Ref sig .tc := ⟨.hbm, 439, rfl⟩
abbrev main_v284 : Ref sig .tc := ⟨.hbm, 440, rfl⟩
abbrev main_v285 : Ref sig .tc := ⟨.hbm, 441, rfl⟩
abbrev main_c_93 : Ref sig .tc := ⟨.hbm, 442, rfl⟩
abbrev main_call17_v0 : Ref sig .tc := ⟨.hbm, 443, rfl⟩
abbrev main_v286 : Ref sig .tc := ⟨.hbm, 444, rfl⟩
abbrev main_v287 : Ref sig .tc := ⟨.hbm, 445, rfl⟩
abbrev main_c_94 : Ref sig .tc := ⟨.hbm, 446, rfl⟩
abbrev main_call18_v0 : Ref sig .tc := ⟨.hbm, 447, rfl⟩
abbrev main_v288 : Ref sig .tc := ⟨.hbm, 448, rfl⟩
abbrev main_v289 : Ref sig .tc := ⟨.hbm, 449, rfl⟩
abbrev main_c_95 : Ref sig .tc := ⟨.hbm, 450, rfl⟩
abbrev main_call19_v0 : Ref sig .tc := ⟨.hbm, 451, rfl⟩
abbrev main_v290 : Ref sig .tc := ⟨.hbm, 452, rfl⟩
abbrev main_v291 : Ref sig .tc := ⟨.hbm, 453, rfl⟩
abbrev main_c_96 : Ref sig .tc := ⟨.hbm, 454, rfl⟩
abbrev main_call20_v0 : Ref sig .tc := ⟨.hbm, 455, rfl⟩
abbrev main_v292 : Ref sig .tc := ⟨.hbm, 456, rfl⟩
abbrev main_v293 : Ref sig .tc := ⟨.hbm, 457, rfl⟩
abbrev main_c_97 : Ref sig .tc := ⟨.hbm, 458, rfl⟩
abbrev main_call21_v0 : Ref sig .tc := ⟨.hbm, 459, rfl⟩
abbrev main_v294 : Ref sig .tc := ⟨.hbm, 460, rfl⟩
abbrev main_v295 : Ref sig .tc := ⟨.hbm, 461, rfl⟩
abbrev main_c_98 : Ref sig .tc := ⟨.hbm, 462, rfl⟩
abbrev main_call22_v0 : Ref sig .tc := ⟨.hbm, 463, rfl⟩
abbrev main_v296 : Ref sig .tc := ⟨.hbm, 464, rfl⟩
abbrev main_v297 : Ref sig .tc := ⟨.hbm, 465, rfl⟩
abbrev main_c_99 : Ref sig .tc := ⟨.hbm, 466, rfl⟩
abbrev main_call23_v0 : Ref sig .tc := ⟨.hbm, 467, rfl⟩
abbrev main_v298 : Ref sig .tc := ⟨.hbm, 468, rfl⟩
abbrev main_v299 : Ref sig .tc := ⟨.hbm, 469, rfl⟩
abbrev main_c_100 : Ref sig .tc := ⟨.hbm, 470, rfl⟩
abbrev main_call24_v0 : Ref sig .tc := ⟨.hbm, 471, rfl⟩
abbrev main_v300 : Ref sig .tc := ⟨.hbm, 472, rfl⟩
abbrev main_v301 : Ref sig .tc := ⟨.hbm, 473, rfl⟩
abbrev main_v302_0 : Ref sig .tc := ⟨.hbm, 474, rfl⟩
abbrev main_v302_1 : Ref sig .tc := ⟨.hbm, 475, rfl⟩
abbrev main_v303 : Ref sig .tc := ⟨.hbm, 476, rfl⟩
abbrev main_v304 : Ref sig .tc := ⟨.hbm, 477, rfl⟩
abbrev main_v305 : Ref sig .tc := ⟨.hbm, 478, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_scratch0 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c19_i32 : BitVec 32 := 19#32
  let v101 : BitVec 1 := Scalar.cmpi .eq arg0 c19_i32
  let v102 : BitVec 32 := Scalar.extui v101
  let c0_i32_53 : BitVec 32 := 0#32
  let v103 : BitVec 1 := Scalar.cmpi .ne v102 c0_i32_53
  v103

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x102400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x102400 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x102400 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x102400 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x102400 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x102400 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x102400 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x102400 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x102400 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x102400 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x102400 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x102400 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x102400 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x102400 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x102400 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x102400 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x102400 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x102400 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S1x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  shapeCasts_S2000000x1_S2000000 : S2000000x1.ShapeCasts S2000000
  bcast_S_S2000000x2 : S_.BroadcastsInDim S2000000x2 (![] : Fin 0 → Fin S2000000x2.rank)
  bcast_S2000000x2_S2000000x2x1_0_1 : S2000000x2.BroadcastsInDim S2000000x2x1 (![0, 1] : Fin 2 → Fin S2000000x2x1.rank)
  shapeCasts_S2000000x2x1_S2000000x2 : S2000000x2x1.ShapeCasts S2000000x2
  slices_S2000000x2x3_S2000000x1x3_0_0_0 : S2000000x2x3.Slices ![0, 0, 0] S2000000x1x3
  shapeCasts_S2000000x1x3_S2000000x3 : S2000000x1x3.ShapeCasts S2000000x3
  slices_S2000000x3_S2000000x2_0_0 : S2000000x3.Slices ![0, 0] S2000000x2
  reducesTo_S2000000x2_S2000000_d1 : S2000000x2.ReducesTo [1] S2000000
  h_S_ : 0 < S_.numel
  slices_S2000000x3_S2000000x1_0_2 : S2000000x3.Slices ![0, 2] S2000000x1
  concatenates_S2000000x1_S2000000x1_S2000000x1_S2000000x3_d1 : Shape.Concatenates [S2000000x1, S2000000x1, S2000000x1] S2000000x3 1
  slices_S2000000x2x3_S2000000x1x3_0_1_0 : S2000000x2x3.Slices ![0, 1, 0] S2000000x1x3
  slices_S2000000x2_S2000000x1_0_0 : S2000000x2.Slices ![0, 0] S2000000x1
  slices_S2000000x2_S2000000x1_0_1 : S2000000x2.Slices ![0, 1] S2000000x1
  pads_S2000000_S2048000_0480000 : S2000000.Pads (![0] : Fin 1 → Nat) ![48000] ![0] S2048000
  shapeCasts_S2048000_S1x2048000 : S2048000.ShapeCasts S1x2048000
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x102400_S1x102400_0_0 : ∀ a, (![0, 0] : Fin 2 → Nat) a + S1x102400.size a ≤ S1x102400.size a
  h_S1x102400 : 0 < S1x102400.numel
  shapeCasts_S1x102400_S1x102400 : S1x102400.ShapeCasts S1x102400
  reduces_S1x102400_S1 : S1x102400.Reduces [1] S1
  shapeCasts_S1_S1x1 : S1.ShapeCasts S1x1
  slices_S1x2048000_S1x2000000_0_0 : S1x2048000.Slices ![0, 0] S1x2000000
  shapeCasts_S1x2000000_S2000000 : S1x2000000.ShapeCasts S2000000
  shapeCasts_S1x1_S_ : S1x1.ShapeCasts S_
  gather_S500x3_S2000000x1_S2000000x3_1_0_n_n_0_1_13_wf : GatherDims.WF S500x3 S2000000x1 S2000000x3 [1] [0] [] [0] [] 1 ![1, 3]
  gather_S500x1_S2000000x1_S2000000x1_1_0_n_n_0_1_11_wf : GatherDims.WF S500x1 S2000000x1 S2000000x1 [1] [0] [] [0] [] 1 ![1, 1]
  gather_S50000x3_S2000000x2x1_S2000000x2x3_2_0_n_n_0_2_13_wf : GatherDims.WF S50000x3 S2000000x2x1 S2000000x2x3 [2] [0] [] [0] [] 2 ![1, 3]
  gather_S50000x1_S2000000x2x1_S2000000x2x1_2_0_n_n_0_2_11_wf : GatherDims.WF S50000x1 S2000000x2x1 S2000000x2x1 [2] [0] [] [0] [] 2 ![1, 1]
  gather_S2x1000x100_S2000000x3_S2000000_n_012_n_n_012_1_111_wf : GatherDims.WF S2x1000x100 S2000000x3 S2000000 [] [0, 1, 2] [] [0, 1, 2] [] 1 ![1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x102400.size a ≤ S1x2048000.size a
  hwx0_0 : ∀ i : grid0.Coords, EltTy.bits .f32 = 32 ∨ (Rect.block (s := S1x2048000) S1x102400.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x102400.size a ≤ S1x2048000.size a
  hwx0_1 : ∀ i : grid0.Coords, EltTy.bits .f32 = 32 ∨ (Rect.block (s := S1x2048000) S1x102400.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x102400.size a ≤ S1x2048000.size a
  hwx0_2 : ∀ i : grid0.Coords, EltTy.bits .f32 = 32 ∨ (Rect.block (s := S1x2048000) S1x102400.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x102400.size a ≤ S1x2048000.size a
  hwx0_3 : ∀ i : grid0.Coords, EltTy.bits .f32 = 32 ∨ (Rect.block (s := S1x2048000) S1x102400.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x102400.size a ≤ S1x2048000.size a
  hwx0_4 : ∀ i : grid0.Coords, EltTy.bits .f32 = 32 ∨ (Rect.block (s := S1x2048000) S1x102400.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x102400.size a ≤ S1x2048000.size a
  hwx0_5 : ∀ i : grid0.Coords, EltTy.bits .f32 = 32 ∨ (Rect.block (s := S1x2048000) S1x102400.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x102400.size a ≤ S1x2048000.size a
  hwx0_6 : ∀ i : grid0.Coords, EltTy.bits .f32 = 32 ∨ (Rect.block (s := S1x2048000) S1x102400.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x102400.size a ≤ S1x2048000.size a
  hwx0_7 : ∀ i : grid0.Coords, EltTy.bits .f32 = 32 ∨ (Rect.block (s := S1x2048000) S1x102400.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x102400.size a ≤ S1x2048000.size a
  hwx0_8 : ∀ i : grid0.Coords, EltTy.bits .f32 = 32 ∨ (Rect.block (s := S1x2048000) S1x102400.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x102400.size a ≤ S1x2048000.size a
  hwx0_9 : ∀ i : grid0.Coords, EltTy.bits .f32 = 32 ∨ (Rect.block (s := S1x2048000) S1x102400.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x102400.size a ≤ S1x2048000.size a
  hwx0_10 : ∀ i : grid0.Coords, EltTy.bits .f32 = 32 ∨ (Rect.block (s := S1x2048000) S1x102400.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x102400.size a ≤ S1x2048000.size a
  hwx0_11 : ∀ i : grid0.Coords, EltTy.bits .f32 = 32 ∨ (Rect.block (s := S1x2048000) S1x102400.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x102400.size a ≤ S1x2048000.size a
  hwx0_12 : ∀ i : grid0.Coords, EltTy.bits .f32 = 32 ∨ (Rect.block (s := S1x2048000) S1x102400.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x102400.size a ≤ S1x2048000.size a
  hwx0_13 : ∀ i : grid0.Coords, EltTy.bits .f32 = 32 ∨ (Rect.block (s := S1x2048000) S1x102400.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x102400.size a ≤ S1x2048000.size a
  hwx0_14 : ∀ i : grid0.Coords, EltTy.bits .f32 = 32 ∨ (Rect.block (s := S1x2048000) S1x102400.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x102400.size a ≤ S1x2048000.size a
  hwx0_15 : ∀ i : grid0.Coords, EltTy.bits .f32 = 32 ∨ (Rect.block (s := S1x2048000) S1x102400.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x102400.size a ≤ S1x2048000.size a
  hwx0_16 : ∀ i : grid0.Coords, EltTy.bits .f32 = 32 ∨ (Rect.block (s := S1x2048000) S1x102400.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1x102400.size a ≤ S1x2048000.size a
  hwx0_17 : ∀ i : grid0.Coords, EltTy.bits .f32 = 32 ∨ (Rect.block (s := S1x2048000) S1x102400.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x1.size a ≤ S1x1.size a
  hwx0_18 : ∀ i : grid0.Coords, EltTy.bits .f32 = 32 ∨ (Rect.block (s := S1x1) S1x1.size (cc0_transform_18 i) (hinb0_18 i)).WholeWords (EltTy.packing .f32)

variable [Facts₀]

def gather_S500x3_S2000000x1_S2000000x3_1_0_n_n_0_1_13 : GatherDims S500x3 S2000000x1 S2000000x3 where
  offsetDims := [1]
  collapsedSliceDims := [0]
  operandBatchingDims := []
  startIndicesBatchingDims := []
  startIndexMap := [0]
  indexVectorDim := 1
  sliceSizes := ![1, 3]
  wf := gather_S500x3_S2000000x1_S2000000x3_1_0_n_n_0_1_13_wf
def gather_S500x1_S2000000x1_S2000000x1_1_0_n_n_0_1_11 : GatherDims S500x1 S2000000x1 S2000000x1 where
  offsetDims := [1]
  collapsedSliceDims := [0]
  operandBatchingDims := []
  startIndicesBatchingDims := []
  startIndexMap := [0]
  indexVectorDim := 1
  sliceSizes := ![1, 1]
  wf := gather_S500x1_S2000000x1_S2000000x1_1_0_n_n_0_1_11_wf
def gather_S50000x3_S2000000x2x1_S2000000x2x3_2_0_n_n_0_2_13 : GatherDims S50000x3 S2000000x2x1 S2000000x2x3 where
  offsetDims := [2]
  collapsedSliceDims := [0]
  operandBatchingDims := []
  startIndicesBatchingDims := []
  startIndexMap := [0]
  indexVectorDim := 2
  sliceSizes := ![1, 3]
  wf := gather_S50000x3_S2000000x2x1_S2000000x2x3_2_0_n_n_0_2_13_wf
def gather_S50000x1_S2000000x2x1_S2000000x2x1_2_0_n_n_0_2_11 : GatherDims S50000x1 S2000000x2x1 S2000000x2x1 where
  offsetDims := [2]
  collapsedSliceDims := [0]
  operandBatchingDims := []
  startIndicesBatchingDims := []
  startIndexMap := [0]
  indexVectorDim := 2
  sliceSizes := ![1, 1]
  wf := gather_S50000x1_S2000000x2x1_S2000000x2x1_2_0_n_n_0_2_11_wf
def gather_S2x1000x100_S2000000x3_S2000000_n_012_n_n_012_1_111 : GatherDims S2x1000x100 S2000000x3 S2000000 where
  offsetDims := []
  collapsedSliceDims := [0, 1, 2]
  operandBatchingDims := []
  startIndicesBatchingDims := []
  startIndexMap := [0, 1, 2]
  indexVectorDim := 1
  sliceSizes := ![1, 1, 1]
  wf := gather_S2x1000x100_S2000000x3_S2000000_n_012_n_n_012_1_111_wf

abbrev win0_0 : Pipeline.Window sig grid0 :=
  Pipeline.Window.ofSpec (Memref.whole main_v269) S1x102400.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v271) S1x102400.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v273) S1x102400.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v275) S1x102400.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v277) S1x102400.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v279) S1x102400.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v281) S1x102400.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v283) S1x102400.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v285) S1x102400.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v287) S1x102400.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v289) S1x102400.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v291) S1x102400.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v293) S1x102400.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v295) S1x102400.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v297) S1x102400.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v299) S1x102400.size cc0_transform_15 reads0_15 false false 2 stage0_15 sem0_15
    hrank0 hreads0_15 hinb0_15 nbuf0_15 (Memref.isWhole_whole _) hwx0_15 hstage0_15

abbrev win0_16 : Pipeline.Window sig grid0 :=
  Pipeline.Window.ofSpec (Memref.whole main_v301) S1x102400.size cc0_transform_16 reads0_16 false false 2 stage0_16 sem0_16
    hrank0 hreads0_16 hinb0_16 nbuf0_16 (Memref.isWhole_whole _) hwx0_16 hstage0_16

abbrev win0_17 : Pipeline.Window sig grid0 :=
  Pipeline.Window.ofSpec (Memref.whole main_v302_0) S1x102400.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v302_1) S1x1.size cc0_transform_18 reads0_18 true true 1 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

abbrev idle0 : Fin 19 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun _ => false | 16 => fun _ => false | 17 => fun _ => false | 18 => fun i => !(k0_cond2 i == 1#1) | ⟨_ + 19, h⟩ => absurd h (Nat.not_lt.2 (Nat.le_add_left _ _))

class Facts : Prop extends Facts₀ where

variable [Facts]
-- ==== ReferenceIdeal.lean ====
abbrev S2000000 : Shape := ⟨1, ![2000000]⟩
abbrev S2000000x2 : Shape := ⟨2, ![2000000, 2]⟩
abbrev S50000x3 : Shape := ⟨2, ![50000, 3]⟩
abbrev S50000x1 : Shape := ⟨2, ![50000, 1]⟩
abbrev S500x3 : Shape := ⟨2, ![500, 3]⟩
abbrev S500x1 : Shape := ⟨2, ![500, 1]⟩
abbrev S2x1000x100 : Shape := ⟨3, ![2, 1000, 100]⟩
abbrev S2000000x1 : Shape := ⟨2, ![2000000, 1]⟩
abbrev S_ : Shape := ⟨0, ![]⟩
abbrev S2000000x3 : Shape := ⟨2, ![2000000, 3]⟩
abbrev S2000000x2x1 : Shape := ⟨3, ![2000000, 2, 1]⟩
abbrev S2000000x2x3 : Shape := ⟨3, ![2000000, 2, 3]⟩
abbrev S2000000x2x2 : Shape := ⟨3, ![2000000, 2, 2]⟩
abbrev S2000000x1x2 : Shape := ⟨3, ![2000000, 1, 2]⟩

abbrev nBuf : Space → Nat
  | .hbm => 287
  | .vmem => 0
  | .smem => 0
  | _ => 0

abbrev hbmTy0_0 (i : Nat) : BufTy := match i % 128 with
  | 0 => ⟨S2000000, .i32⟩
  | 1 => ⟨S2000000x2, .i32⟩
  | 2 => ⟨S2000000, .i32⟩
  | 3 => ⟨S2000000, .f32⟩
  | 4 => ⟨S2000000, .f32⟩
  | 5 => ⟨S50000x3, .f32⟩
  | 6 => ⟨S50000x1, .f32⟩
  | 7 => ⟨S500x3, .f32⟩
  | 8 => ⟨S500x1, .f32⟩
  | 9 => ⟨S2x1000x100, .f32⟩
  | 10 => ⟨S2x1000x100, .f32⟩
  | 11 => ⟨S2x1000x100, .f32⟩
  | 12 => ⟨S2000000x1, .i32⟩
  | 13 => ⟨S_, .i32⟩
  | 14 => ⟨S2000000, .i32⟩
  | 15 => ⟨S2000000, .i1⟩
  | 16 => ⟨S_, .i32⟩
  | 17 => ⟨S2000000, .i32⟩
  | 18 => ⟨S2000000, .i32⟩
  | 19 => ⟨S2000000, .i32⟩
  | 20 => ⟨S2000000x1, .i32⟩
  | 21 => ⟨S2000000x3, .f32⟩
  | 22 => ⟨S_, .i32⟩
  | 23 => ⟨S2000000, .i32⟩
  | 24 => ⟨S2000000, .i1⟩
  | 25 => ⟨S_, .i32⟩
  | 26 => ⟨S2000000, .i32⟩
  | 27 => ⟨S2000000, .i32⟩
  | 28 => ⟨S2000000, .i32⟩
  | 29 => ⟨S2000000x1, .i32⟩
  | 30 => ⟨S2000000x1, .f32⟩
  | 31 => ⟨S2000000, .f32⟩
  | 32 => ⟨S_, .i32⟩
  | 33 => ⟨S2000000x2, .i32⟩
  | 34 => ⟨S2000000x2, .i1⟩
  | 35 => ⟨S_, .i32⟩
  | 36 => ⟨S2000000x2, .i32⟩
  | 37 => ⟨S2000000x2, .i32⟩
  | 38 => ⟨S2000000x2, .i32⟩
  | 39 => ⟨S2000000x2x1, .i32⟩
  | 40 => ⟨S2000000x2x3, .f32⟩
  | 41 => ⟨S_, .i32⟩
  | 42 => ⟨S2000000x2, .i32⟩
  | 43 => ⟨S2000000x2, .i1⟩
  | 44 => ⟨S_, .i32⟩
  | 45 => ⟨S2000000x2, .i32⟩
  | 46 => ⟨S2000000x2, .i32⟩
  | 47 => ⟨S2000000x2, .i32⟩
  | 48 => ⟨S2000000x2x1, .i32⟩
  | 49 => ⟨S2000000x2x1, .f32⟩
  | 50 => ⟨S2000000x2, .f32⟩
  | 51 => ⟨S2000000x2x2, .f32⟩
  | 52 => ⟨S2000000x2, .f32⟩
  | 53 => ⟨S2000000x1x2, .f32⟩
  | 54 => ⟨S2000000x2x2, .f32⟩
  | 55 => ⟨S2000000x2x2, .f32⟩
  | 56 => ⟨S2000000x2x2, .f32⟩
  | 57 => ⟨S_, .f32⟩
  | 58 => ⟨S2000000x2, .f32⟩
  | 59 => ⟨S2000000x2, .f32⟩
  | 60 => ⟨S2000000x2x1, .f32⟩
  | 61 => ⟨S2000000x2, .f32⟩
  | 62 => ⟨S2000000x1, .f32⟩
  | 63 => ⟨S2000000, .f32⟩
  | 64 => ⟨S2000000x1, .f32⟩
  | 65 => ⟨S2000000x2, .f32⟩
  | 66 => ⟨S2000000x2, .f32⟩
  | 67 => ⟨S_, .f32⟩
  | 68 => ⟨S2000000x2, .f32⟩
  | 69 => ⟨S2000000x2, .f32⟩
  | 70 => ⟨S_, .f32⟩
  | 71 => ⟨S2000000x2, .f32⟩
  | 72 => ⟨S2000000x2, .f32⟩
  | 73 => ⟨S_, .f32⟩
  | 74 => ⟨S2000000x2, .f32⟩
  | 75 => ⟨S2000000x2, .f32⟩
  | 76 => ⟨S_, .f32⟩
  | 77 => ⟨S2000000x2, .f32⟩
  | 78 => ⟨S2000000x2, .f32⟩
  | 79 => ⟨S2000000x2, .f32⟩
  | 80 => ⟨S2000000x2, .i32⟩
  | 81 => ⟨S_, .i32⟩
  | 82 => ⟨S_, .i32⟩
  | 83 => ⟨S_, .i32⟩
  | 84 => ⟨S2000000x2, .i32⟩
  | 85 => ⟨S2000000x2, .i32⟩
  | 86 => ⟨S_, .i32⟩
  | 87 => ⟨S2000000x2, .i32⟩
  | 88 => ⟨S2000000x2, .i32⟩
  | 89 => ⟨S2000000x2, .f32⟩
  | 90 => ⟨S2000000x2, .i32⟩
  | 91 => ⟨S_, .i32⟩
  | 92 => ⟨S_, .i32⟩
  | 93 => ⟨S_, .i32⟩
  | 94 => ⟨S2000000x2, .i32⟩
  | 95 => ⟨S2000000x2, .i32⟩
  | 96 => ⟨S_, .i32⟩
  | 97 => ⟨S2000000x2, .i32⟩
  | 98 => ⟨S2000000x2, .i32⟩
  | 99 => ⟨S2000000x2, .f32⟩
  | 100 => ⟨S2000000x2, .f32⟩
  | 101 => ⟨S_, .f32⟩
  | 102 => ⟨S_, .f32⟩
  | 103 => ⟨S_, .f32⟩
  | 104 => ⟨S2000000x2, .f32⟩
  | 105 => ⟨S2000000x2, .f32⟩
  | 106 => ⟨S_, .f32⟩
  | 107 => ⟨S2000000x2, .f32⟩
  | 108 => ⟨S2000000x2, .f32⟩
  | 109 => ⟨S2000000x2, .f32⟩
  | 110 => ⟨S2000000x2, .f32⟩
  | 111 => ⟨S_, .f32⟩
  | 112 => ⟨S_, .f32⟩
  | 113 => ⟨S_, .f32⟩
  | 114 => ⟨S2000000x2, .f32⟩
  | 115 => ⟨S2000000x2, .f32⟩
  | 116 => ⟨S_, .f32⟩
  | 117 => ⟨S2000000x2, .f32⟩
  | 118 => ⟨S2000000x2, .f32⟩
  | 119 => ⟨S_, .i32⟩
  | 120 => ⟨S2000000x1, .i32⟩
  | 121 => ⟨S2000000x1, .i1⟩
  | 122 => ⟨S_, .i32⟩
  | 123 => ⟨S2000000x1, .i32⟩
  | 124 => ⟨S2000000x1, .i32⟩
  | 125 => ⟨S2000000x1, .i32⟩
  | 126 => ⟨S_, .i32⟩
  | 127 => ⟨S2000000x2, .i32⟩
  | _ => ⟨S2000000, .i32⟩

abbrev hbmTy0_1 (i : Nat) : BufTy := match i % 128 with
  | 0 => ⟨S2000000x2, .i1⟩
  | 1 => ⟨S_, .i32⟩
  | 2 => ⟨S2000000x2, .i32⟩
  | 3 => ⟨S2000000x2, .i32⟩
  | 4 => ⟨S2000000x2, .i32⟩
  | 5 => ⟨S_, .i32⟩
  | 6 => ⟨S2000000x2, .i32⟩
  | 7 => ⟨S2000000x2, .i1⟩
  | 8 => ⟨S_, .i32⟩
  | 9 => ⟨S2000000x2, .i32⟩
  | 10 => ⟨S2000000x2, .i32⟩
  | 11 => ⟨S2000000x2, .i32⟩
  | 12 => ⟨S2000000x2, .i32⟩
  | 13 => ⟨S2000000x2x1, .i32⟩
  | 14 => ⟨S2000000x2x1, .i32⟩
  | 15 => ⟨S2000000x2x1, .i32⟩
  | 16 => ⟨S2000000x2x3, .i32⟩
  | 17 => ⟨S2000000x2, .f32⟩
  | 18 => ⟨S_, .i32⟩
  | 19 => ⟨S2000000x2, .i32⟩
  | 20 => ⟨S2000000x2, .i32⟩
  | 21 => ⟨S_, .i32⟩
  | 22 => ⟨S2000000x1, .i32⟩
  | 23 => ⟨S2000000x1, .i1⟩
  | 24 => ⟨S_, .i32⟩
  | 25 => ⟨S2000000x1, .i32⟩
  | 26 => ⟨S2000000x1, .i32⟩
  | 27 => ⟨S2000000x1, .i32⟩
  | 28 => ⟨S_, .i32⟩
  | 29 => ⟨S2000000x2, .i32⟩
  | 30 => ⟨S2000000x2, .i1⟩
  | 31 => ⟨S_, .i32⟩
  | 32 => ⟨S2000000x2, .i32⟩
  | 33 => ⟨S2000000x2, .i32⟩
  | 34 => ⟨S2000000x2, .i32⟩
  | 35 => ⟨S_, .i32⟩
  | 36 => ⟨S2000000x2, .i32⟩
  | 37 => ⟨S2000000x2, .i1⟩
  | 38 => ⟨S_, .i32⟩
  | 39 => ⟨S2000000x2, .i32⟩
  | 40 => ⟨S2000000x2, .i32⟩
  | 41 => ⟨S2000000x2, .i32⟩
  | 42 => ⟨S2000000x2, .i32⟩
  | 43 => ⟨S2000000x2x1, .i32⟩
  | 44 => ⟨S2000000x2x1, .i32⟩
  | 45 => ⟨S2000000x2x1, .i32⟩
  | 46 => ⟨S2000000x2x3, .i32⟩
  | 47 => ⟨S2000000x2, .f32⟩
  | 48 => ⟨S_, .i32⟩
  | 49 => ⟨S2000000x2, .i32⟩
  | 50 => ⟨S2000000x2, .i32⟩
  | 51 => ⟨S_, .i32⟩
  | 52 => ⟨S2000000x1, .i32⟩
  | 53 => ⟨S2000000x1, .i1⟩
  | 54 => ⟨S_, .i32⟩
  | 55 => ⟨S2000000x1, .i32⟩
  | 56 => ⟨S2000000x1, .i32⟩
  | 57 => ⟨S2000000x1, .i32⟩
  | 58 => ⟨S_, .i32⟩
  | 59 => ⟨S2000000x2, .i32⟩
  | 60 => ⟨S2000000x2, .i1⟩
  | 61 => ⟨S_, .i32⟩
  | 62 => ⟨S2000000x2, .i32⟩
  | 63 => ⟨S2000000x2, .i32⟩
  | 64 => ⟨S2000000x2, .i32⟩
  | 65 => ⟨S_, .i32⟩
  | 66 => ⟨S2000000x2, .i32⟩
  | 67 => ⟨S2000000x2, .i1⟩
  | 68 => ⟨S_, .i32⟩
  | 69 => ⟨S2000000x2, .i32⟩
  | 70 => ⟨S2000000x2, .i32⟩
  | 71 => ⟨S2000000x2, .i32⟩
  | 72 => ⟨S2000000x2, .i32⟩
  | 73 => ⟨S2000000x2x1, .i32⟩
  | 74 => ⟨S2000000x2x1, .i32⟩
  | 75 => ⟨S2000000x2x1, .i32⟩
  | 76 => ⟨S2000000x2x3, .i32⟩
  | 77 => ⟨S2000000x2, .f32⟩
  | 78 => ⟨S_, .i32⟩
  | 79 => ⟨S2000000x2, .i32⟩
  | 80 => ⟨S2000000x2, .i32⟩
  | 81 => ⟨S_, .i32⟩
  | 82 => ⟨S2000000x2, .i32⟩
  | 83 => ⟨S2000000x2, .i32⟩
  | 84 => ⟨S_, .i32⟩
  | 85 => ⟨S2000000x1, .i32⟩
  | 86 => ⟨S2000000x1, .i1⟩
  | 87 => ⟨S_, .i32⟩
  | 88 => ⟨S2000000x1, .i32⟩
  | 89 => ⟨S2000000x1, .i32⟩
  | 90 => ⟨S2000000x1, .i32⟩
  | 91 => ⟨S_, .i32⟩
  | 92 => ⟨S2000000x2, .i32⟩
  | 93 => ⟨S2000000x2, .i1⟩
  | 94 => ⟨S_, .i32⟩
  | 95 => ⟨S2000000x2, .i32⟩
  | 96 => ⟨S2000000x2, .i32⟩
  | 97 => ⟨S2000000x2, .i32⟩
  | 98 => ⟨S_, .i32⟩
  | 99 => ⟨S2000000x2, .i32⟩
  | 100 => ⟨S2000000x2, .i1⟩
  | 101 => ⟨S_, .i32⟩
  | 102 => ⟨S2000000x2, .i32⟩
  | 103 => ⟨S2000000x2, .i32⟩
  | 104 => ⟨S2000000x2, .i32⟩
  | 105 => ⟨S2000000x2, .i32⟩
  | 106 => ⟨S2000000x2x1, .i32⟩
  | 107 => ⟨S2000000x2x1, .i32⟩
  | 108 => ⟨S2000000x2x1, .i32⟩
  | 109 => ⟨S2000000x2x3, .i32⟩
  | 110 => ⟨S2000000x2, .f32⟩
  | 111 => ⟨S_, .f32⟩
  | 112 => ⟨S2000000x2, .f32⟩
  | 113 => ⟨S2000000x2, .f32⟩
  | 114 => ⟨S_, .f32⟩
  | 115 => ⟨S2000000x2, .f32⟩
  | 116 => ⟨S2000000x2, .f32⟩
  | 117 => ⟨S2000000x2, .f32⟩
  | 118 => ⟨S2000000x2, .f32⟩
  | 119 => ⟨S_, .f32⟩
  | 120 => ⟨S2000000x2, .f32⟩
  | 121 => ⟨S2000000x2, .f32⟩
  | 122 => ⟨S2000000x2, .f32⟩
  | 123 => ⟨S2000000x2, .f32⟩
  | 124 => ⟨S2000000x2, .f32⟩
  | 125 => ⟨S_, .f32⟩
  | 126 => ⟨S2000000x2, .f32⟩
  | 127 => ⟨S2000000x2, .f32⟩
  | _ => ⟨S2000000, .i32⟩

abbrev hbmTy0_2 (i : Nat) : BufTy := match i % 128 with
  | 0 => ⟨S2000000x2, .f32⟩
  | 1 => ⟨S2000000x2, .f32⟩
  | 2 => ⟨S2000000x2, .f32⟩
  | 3 => ⟨S2000000x2, .f32⟩
  | 4 => ⟨S2000000x2, .f32⟩
  | 5 => ⟨S2000000x2, .f32⟩
  | 6 => ⟨S2000000x2, .f32⟩
  | 7 => ⟨S2000000x1, .f32⟩
  | 8 => ⟨S2000000x2, .f32⟩
  | 9 => ⟨S2000000x2, .f32⟩
  | 10 => ⟨S2000000x1, .f32⟩
  | 11 => ⟨S2000000, .f32⟩
  | 12 => ⟨S2000000x1, .f32⟩
  | 13 => ⟨S2000000, .f32⟩
  | 14 => ⟨S2000000, .f32⟩
  | 15 => ⟨S2000000, .f32⟩
  | 16 => ⟨S2000000, .f32⟩
  | 17 => ⟨S_, .f32⟩
  | 18 => ⟨S2000000, .f32⟩
  | 19 => ⟨S2000000, .i1⟩
  | 20 => ⟨S_, .f32⟩
  | 21 => ⟨S2000000, .f32⟩
  | 22 => ⟨S2000000, .f32⟩
  | 23 => ⟨S2000000, .f32⟩
  | 24 => ⟨S_, .f32⟩
  | 25 => ⟨S2000000, .f32⟩
  | 26 => ⟨S2000000, .f32⟩
  | 27 => ⟨S2000000, .f32⟩
  | 28 => ⟨S2000000, .f32⟩
  | 29 => ⟨S_, .f32⟩
  | 30 => ⟨S_, .f32⟩
  | _ => ⟨S2000000, .i32⟩

abbrev hbmTy (i : Nat) : BufTy := match i / 128 with
  | 0 => hbmTy0_0 i
  | 1 => hbmTy0_1 i
  | 2 => hbmTy0_2 i
  | _ => ⟨S2000000, .i32⟩

abbrev bufTy : (tb : Table) → Fin (tcTables nBuf tb) → BufTy
  | .hbm, ⟨i, _⟩ => hbmTy i
  | _, _ => ⟨S2000000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c_1 : Ref sig .tc := ⟨.hbm, 22, rfl⟩
abbrev main_v8 : Ref sig .tc := ⟨.hbm, 23, rfl⟩
abbrev main_v9 : Ref sig .tc := ⟨.hbm, 24, rfl⟩
abbrev main_c_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_c_3 : Ref sig .tc := ⟨.hbm, 32, rfl⟩
abbrev main_v16 : Ref sig .tc := ⟨.hbm, 33, rfl⟩
abbrev main_v17 : Ref sig .tc := ⟨.hbm, 34, rfl⟩
abbrev main_c_4 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_5 : Ref sig .tc := ⟨.hbm, 41, rfl⟩
abbrev main_v23 : Ref sig .tc := ⟨.hbm, 42, rfl⟩
abbrev main_v24 : Ref sig .tc := ⟨.hbm, 43, rfl⟩
abbrev main_c_6 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_7 : Ref sig .tc := ⟨.hbm, 67, rfl⟩
abbrev main_v46 : Ref sig .tc := ⟨.hbm, 68, rfl⟩
abbrev main_v47 : Ref sig .tc := ⟨.hbm, 69, rfl⟩
abbrev main_cst_8 : Ref sig .tc := ⟨.hbm, 70, rfl⟩
abbrev main_v48 : Ref sig .tc := ⟨.hbm, 71, rfl⟩
abbrev main_v49 : Ref sig .tc := ⟨.hbm, 72, rfl⟩
abbrev main_cst_9 : Ref sig .tc := ⟨.hbm, 73, rfl⟩
abbrev main_v50 : Ref sig .tc := ⟨.hbm, 74, rfl⟩
abbrev main_v51 : Ref sig .tc := ⟨.hbm, 75, rfl⟩
abbrev main_cst_10 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_11 : Ref sig .tc := ⟨.hbm, 81, rfl⟩
abbrev main_c_12 : Ref sig .tc := ⟨.hbm, 82, rfl⟩
abbrev main_call0_v0 : Ref sig .tc := ⟨.hbm, 83, rfl⟩
abbrev main_call0_v1 : Ref sig .tc := ⟨.hbm, 84, rfl⟩
abbrev main_call0_v2 : Ref sig .tc := ⟨.hbm, 85, rfl⟩
abbrev main_call0_v3 : Ref sig .tc := ⟨.hbm, 86, rfl⟩
abbrev main_call0_v4 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_c_13 : Ref sig .tc := ⟨.hbm, 91, rfl⟩
abbrev main_c_14 : Ref sig .tc := ⟨.hbm, 92, rfl⟩
abbrev main_call1_v0 : Ref sig .tc := ⟨.hbm, 93, rfl⟩
abbrev main_call1_v1 : Ref sig .tc := ⟨.hbm, 94, rfl⟩
abbrev main_call1_v2 : Ref sig .tc := ⟨.hbm, 95, rfl⟩
abbrev main_call1_v3 : Ref sig .tc := ⟨.hbm, 96, rfl⟩
abbrev main_call1_v4 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_cst_15 : Ref sig .tc := ⟨.hbm, 101, rfl⟩
abbrev main_cst_16 : Ref sig .tc := ⟨.hbm, 102, rfl⟩
abbrev main_call2_v0 : Ref sig .tc := ⟨.hbm, 103, rfl⟩
abbrev main_call2_v1 : Ref sig .tc := ⟨.hbm, 104, rfl⟩
abbrev main_call2_v2 : Ref sig .tc := ⟨.hbm, 105, rfl⟩
abbrev main_call2_v3 : Ref sig .tc := ⟨.hbm, 106, rfl⟩
abbrev main_call2_v4 : Ref sig .tc := ⟨.hbm, 107, rfl⟩
abbrev main_v62 : Ref sig .tc := ⟨.hbm, 108, rfl⟩
abbrev main_v63 : Ref sig .tc := ⟨.hbm, 109, rfl⟩
abbrev main_v64 : Ref sig .tc := ⟨.hbm, 110, rfl⟩
abbrev main_cst_17 : Ref sig .tc := ⟨.hbm, 111, rfl⟩
abbrev main_cst_18 : Ref sig .tc := ⟨.hbm, 112, rfl⟩
abbrev main_call3_v0 : Ref sig .tc := ⟨.hbm, 113, rfl⟩
abbrev main_call3_v1 : Ref sig .tc := ⟨.hbm, 114, rfl⟩
abbrev main_call3_v2 : Ref sig .tc := ⟨.hbm, 115, rfl⟩
abbrev main_call3_v3 : Ref sig .tc := ⟨.hbm, 116, rfl⟩
abbrev main_call3_v4 : Ref sig .tc := ⟨.hbm, 117, rfl⟩
abbrev main_v65 : Ref sig .tc := ⟨.hbm, 118, rfl⟩
abbrev main_c_19 : Ref sig .tc := ⟨.hbm, 119, rfl⟩
abbrev main_v66 : Ref sig .tc := ⟨.hbm, 120, rfl⟩
abbrev main_v67 : Ref sig .tc := ⟨.hbm, 121, rfl⟩
abbrev main_c_20 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_c_21 : Ref sig .tc := ⟨.hbm, 126, rfl⟩
abbrev main_v71 : Ref sig .tc := ⟨.hbm, 127, rfl⟩
abbrev main_v72 : Ref sig .tc := ⟨.hbm, 128, rfl⟩
abbrev main_c_22 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_c_23 : Ref sig .tc := ⟨.hbm, 133, rfl⟩
abbrev main_v76 : Ref sig .tc := ⟨.hbm, 134, rfl⟩
abbrev main_v77 : Ref sig .tc := ⟨.hbm, 135, rfl⟩
abbrev main_c_24 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_v86 : Ref sig .tc := ⟨.hbm, 145, rfl⟩
abbrev main_c_25 : Ref sig .tc := ⟨.hbm, 146, rfl⟩
abbrev main_v87 : Ref sig .tc := ⟨.hbm, 147, rfl⟩
abbrev main_v88 : Ref sig .tc := ⟨.hbm, 148, rfl⟩
abbrev main_c_26 : Ref sig .tc := ⟨.hbm, 149, rfl⟩
abbrev main_v89 : Ref sig .tc := ⟨.hbm, 150, rfl⟩
abbrev main_v90 : Ref sig .tc := ⟨.hbm, 151, rfl⟩
abbrev main_c_27 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_c_28 : Ref sig .tc := ⟨.hbm, 156, rfl⟩
abbrev main_v94 : Ref sig .tc := ⟨.hbm, 157, rfl⟩
abbrev main_v95 : Ref sig .tc := ⟨.hbm, 158, rfl⟩
abbrev main_c_29 : Ref sig .tc := ⟨.hbm, 159, rfl⟩
abbrev main_v96 : Ref sig .tc := ⟨.hbm, 160, rfl⟩
abbrev main_v97 : Ref sig .tc := ⟨.hbm, 161, rfl⟩
abbrev main_v98 : Ref sig .tc := ⟨.hbm, 162, rfl⟩
abbrev main_c_30 : Ref sig .tc := ⟨.hbm, 163, rfl⟩
abbrev main_v99 : Ref sig .tc := ⟨.hbm, 164, rfl⟩
abbrev main_v100 : Ref sig .tc := ⟨.hbm, 165, rfl⟩
abbrev main_c_31 : Ref sig .tc := ⟨.hbm, 166, rfl⟩
abbrev main_v101 : Ref sig .tc := ⟨.hbm, 167, rfl⟩
abbrev main_v102 : Ref sig .tc := ⟨.hbm, 168, rfl⟩
abbrev main_v103 : Ref sig .tc := ⟨.hbm, 169, rfl⟩
abbrev main_v104 : Ref sig .tc := ⟨.hbm, 170, rfl⟩
abbrev main_v105 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_c_32 : Ref sig .tc := ⟨.hbm, 176, rfl⟩
abbrev main_v110 : Ref sig .tc := ⟨.hbm, 177, rfl⟩
abbrev main_v111 : Ref sig .tc := ⟨.hbm, 178, rfl⟩
abbrev main_c_33 : Ref sig .tc := ⟨.hbm, 179, rfl⟩
abbrev main_v112 : Ref sig .tc := ⟨.hbm, 180, rfl⟩
abbrev main_v113 : Ref sig .tc := ⟨.hbm, 181, rfl⟩
abbrev main_c_34 : Ref sig .tc := ⟨.hbm, 182, rfl⟩
abbrev main_v114 : Ref sig .tc := ⟨.hbm, 183, rfl⟩
abbrev main_v115 : Ref sig .tc := ⟨.hbm, 184, rfl⟩
abbrev main_v116 : Ref sig .tc := ⟨.hbm, 185, rfl⟩
abbrev main_c_35 : Ref sig .tc := ⟨.hbm, 186, rfl⟩
abbrev main_v117 : Ref sig .tc := ⟨.hbm, 187, rfl⟩
abbrev main_v118 : Ref sig .tc := ⟨.hbm, 188, rfl⟩
abbrev main_c_36 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_c_37 : Ref sig .tc := ⟨.hbm, 193, rfl⟩
abbrev main_v122 : Ref sig .tc := ⟨.hbm, 194, rfl⟩
abbrev main_v123 : Ref sig .tc := ⟨.hbm, 195, rfl⟩
abbrev main_c_38 : Ref sig .tc := ⟨.hbm, 196, rfl⟩
abbrev main_v124 : Ref sig .tc := ⟨.hbm, 197, rfl⟩
abbrev main_v125 : Ref sig .tc := ⟨.hbm, 198, rfl⟩
abbrev main_v126 : Ref sig .tc := ⟨.hbm, 199, rfl⟩
abbrev main_v127 : Ref sig .tc := ⟨.hbm, 200, rfl⟩
abbrev main_v128 : Ref sig .tc := ⟨.hbm, 201, rfl⟩
abbrev main_v129 : Ref sig .tc := ⟨.hbm, 202, rfl⟩
abbrev main_v130 : Ref sig .tc := ⟨.hbm, 203, rfl⟩
abbrev main_v131 : Ref sig .tc := ⟨.hbm, 204, rfl⟩
abbrev main_v132 : Ref sig .tc := ⟨.hbm, 205, rfl⟩
abbrev main_c_39 : Ref sig .tc := ⟨.hbm, 206, rfl⟩
abbrev main_v133 : Ref sig .tc := ⟨.hbm, 207, rfl⟩
abbrev main_v134 : Ref sig .tc := ⟨.hbm, 208, rfl⟩
abbrev main_c_40 : Ref sig .tc := ⟨.hbm, 209, rfl⟩
abbrev main_v135 : Ref sig .tc := ⟨.hbm, 210, rfl⟩
abbrev main_v136 : Ref sig .tc := ⟨.hbm, 211, rfl⟩
abbrev main_c_41 : Ref sig .tc := ⟨.hbm, 212, rfl⟩
abbrev main_v137 : Ref sig .tc := ⟨.hbm, 213, rfl⟩
abbrev main_v138 : Ref sig .tc := ⟨.hbm, 214, rfl⟩
abbrev main_c_42 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_c_43 : Ref sig .tc := ⟨.hbm, 219, rfl⟩
abbrev main_v142 : Ref sig .tc := ⟨.hbm, 220, rfl⟩
abbrev main_v143 : Ref sig .tc := ⟨.hbm, 221, rfl⟩
abbrev main_c_44 : Ref sig .tc := ⟨.hbm, 222, rfl⟩
abbrev main_v144 : Ref sig .tc := ⟨.hbm, 223, rfl⟩
abbrev main_v145 : Ref sig .tc := ⟨.hbm, 224, rfl⟩
abbrev main_v146 : Ref sig .tc := ⟨.hbm, 225, rfl⟩
abbrev main_c_45 : Ref sig .tc := ⟨.hbm, 226, rfl⟩
abbrev main_v147 : Ref sig .tc := ⟨.hbm, 227, rfl⟩
abbrev main_v148 : Ref sig .tc := ⟨.hbm, 228, rfl⟩
abbrev main_c_46 : Ref sig .tc := ⟨.hbm, 229, rfl⟩
abbrev main_v149 : Ref sig .tc := ⟨.hbm, 230, rfl⟩
abbrev main_v150 : Ref sig .tc := ⟨.hbm, 231, rfl⟩
abbrev main_v151 : Ref sig .tc := ⟨.hbm, 232, rfl⟩
abbrev main_v152 : Ref sig .tc := ⟨.hbm, 233, rfl⟩
abbrev main_v153 : Ref sig .tc := ⟨.hbm, 234, rfl⟩
abbrev main_v154 : Ref sig .tc := ⟨.hbm, 235, rfl⟩
abbrev main_v155 : Ref sig .tc := ⟨.hbm, 236, rfl⟩
abbrev main_v156 : Ref sig .tc := ⟨.hbm, 237, rfl⟩
abbrev main_v157 : Ref sig .tc := ⟨.hbm, 238, rfl⟩
abbrev main_cst_47 : Ref sig .tc := ⟨.hbm, 239, rfl⟩
abbrev main_v158 : Ref sig .tc := ⟨.hbm, 240, rfl⟩
abbrev main_v159 : Ref sig .tc := ⟨.hbm, 241, rfl⟩
abbrev main_cst_48 : Ref sig .tc := ⟨.hbm, 242, rfl⟩
abbrev main_v160 : Ref sig .tc := ⟨.hbm, 243, rfl⟩
abbrev main_v161 : Ref sig .tc := ⟨.hbm, 244, rfl⟩
abbrev main_v162 : Ref sig .tc := ⟨.hbm, 245, rfl⟩
abbrev main_v163 : Ref sig .tc := ⟨.hbm, 246, rfl⟩
abbrev main_cst_49 : Ref sig .tc := ⟨.hbm, 247, rfl⟩
abbrev main_v164 : Ref sig .tc := ⟨.hbm, 248, rfl⟩
abbrev main_v165 : Ref sig .tc := ⟨.hbm, 249, rfl⟩
abbrev main_v166 : Ref sig .tc := ⟨.hbm, 250, rfl⟩
abbrev main_v167 : Ref sig .tc := ⟨.hbm, 251, rfl⟩
abbrev main_v168 : Ref sig .tc := ⟨.hbm, 252, rfl⟩
abbrev main_cst_50 : Ref sig .tc := ⟨.hbm, 253, rfl⟩
abbrev main_v169 : Ref sig .tc := ⟨.hbm, 254, rfl⟩
abbrev main_v170 : Ref sig .tc := ⟨.hbm, 255, rfl⟩
abbrev main_v171 : Ref sig .tc := ⟨.hbm, 256, rfl⟩
abbrev main_v172 : Ref sig .tc := ⟨.hbm, 257, rfl⟩
abbrev main_v173 : Ref sig .tc := ⟨.hbm, 258, rfl⟩
abbrev main_v174 : Ref sig .tc := ⟨.hbm, 259, rfl⟩
abbrev main_v175 : Ref sig .tc := ⟨.hbm, 260, rfl⟩
abbrev main_v176 : Ref sig .tc := ⟨.hbm, 261, rfl⟩
abbrev main_v177 : Ref sig .tc := ⟨.hbm, 262, rfl⟩
abbrev main_v178 : Ref sig .tc := ⟨.hbm, 263, rfl⟩
abbrev main_v179 : Ref sig .tc := ⟨.hbm, 264, rfl⟩
abbrev main_v180 : Ref sig .tc := ⟨.hbm, 265, rfl⟩
abbrev main_v181 : Ref sig .tc := ⟨.hbm, 266, rfl⟩
abbrev main_v182 : Ref sig .tc := ⟨.hbm, 267, rfl⟩
abbrev main_v183 : Ref sig .tc := ⟨.hbm, 268, rfl⟩
abbrev main_v184 : Ref sig .tc := ⟨.hbm, 269, rfl⟩
abbrev main_v185 : Ref sig .tc := ⟨.hbm, 270, rfl⟩
abbrev main_v186 : Ref sig .tc := ⟨.hbm, 271, rfl⟩
abbrev main_v187 : Ref sig .tc := ⟨.hbm, 272, rfl⟩
abbrev main_cst_51 : Ref sig .tc := ⟨.hbm, 273, rfl⟩
abbrev main_v188 : Ref sig .tc := ⟨.hbm, 274, rfl⟩
abbrev main_v189 : Ref sig .tc := ⟨.hbm, 275, rfl⟩
abbrev main_cst_52 : Ref sig .tc := ⟨.hbm, 276, rfl⟩
abbrev main_v190 : Ref sig .tc := ⟨.hbm, 277, rfl⟩
abbrev main_v191 : Ref sig .tc := ⟨.hbm, 278, rfl⟩
abbrev main_v192 : Ref sig .tc := ⟨.hbm, 279, rfl⟩
abbrev main_cst_53 : Ref sig .tc := ⟨.hbm, 280, rfl⟩
abbrev main_v193 : Ref sig .tc := ⟨.hbm, 281, rfl⟩
abbrev main_v194 : Ref sig .tc := ⟨.hbm, 282, rfl⟩
abbrev main_v195 : Ref sig .tc := ⟨.hbm, 283, rfl⟩
abbrev main_v196 : Ref sig .tc := ⟨.hbm, 284, rfl⟩
abbrev main_cst_54 : Ref sig .tc := ⟨.hbm, 285, rfl⟩
abbrev main_v197 : Ref sig .tc := ⟨.hbm, 286, rfl⟩

abbrev nD : Nat := 1
abbrev τ : Topo := Topo.v7x

variable {F : FTy → Type} [FloatOps F]

class Facts₀ : Prop where
  bcast_S2000000_S2000000x1_0 : S2000000.BroadcastsInDim S2000000x1 (![0] : Fin 1 → Fin S2000000x1.rank)
  bcast_S_S2000000 : S_.BroadcastsInDim S2000000 (![] : Fin 0 → Fin S2000000.rank)
  shapeCasts_S2000000x1_S2000000 : S2000000x1.ShapeCasts S2000000
  bcast_S_S2000000x2 : S_.BroadcastsInDim S2000000x2 (![] : Fin 0 → Fin S2000000x2.rank)
  bcast_S2000000x2_S2000000x2x1_0_1 : S2000000x2.BroadcastsInDim S2000000x2x1 (![0, 1] : Fin 2 → Fin S2000000x2x1.rank)
  shapeCasts_S2000000x2x1_S2000000x2 : S2000000x2x1.ShapeCasts S2000000x2
  slices_S2000000x2x3_S2000000x2x2_0_0_0 : S2000000x2x3.Slices ![0, 0, 0] S2000000x2x2
  slices_S2000000x3_S2000000x2_0_0 : S2000000x3.Slices ![0, 0] S2000000x2
  bcast_S2000000x2_S2000000x1x2_0_2 : S2000000x2.BroadcastsInDim S2000000x1x2 (![0, 2] : Fin 2 → Fin S2000000x1x2.rank)
  bcast_S2000000x1x2_S2000000x2x2_0_1_2 : S2000000x1x2.BroadcastsInDim S2000000x2x2 (![0, 1, 2] : Fin 3 → Fin S2000000x2x2.rank)
  reducesTo_S2000000x2x2_S2000000x2_d2 : S2000000x2x2.ReducesTo [2] S2000000x2
  h_S_ : 0 < S_.numel
  slices_S2000000x2x3_S2000000x2x1_0_0_2 : S2000000x2x3.Slices ![0, 0, 2] S2000000x2x1
  slices_S2000000x3_S2000000x1_0_2 : S2000000x3.Slices ![0, 2] S2000000x1
  bcast_S2000000x1_S2000000x2_0_1 : S2000000x1.BroadcastsInDim S2000000x2 (![0, 1] : Fin 2 → Fin S2000000x2.rank)
  bcast_S_S2000000x1 : S_.BroadcastsInDim S2000000x1 (![] : Fin 0 → Fin S2000000x1.rank)
  concatenates_S2000000x2x1_S2000000x2x1_S2000000x2x1_S2000000x2x3_d2 : Shape.Concatenates [S2000000x2x1, S2000000x2x1, S2000000x2x1] S2000000x2x3 2
  slices_S2000000x2_S2000000x1_0_0 : S2000000x2.Slices ![0, 0] S2000000x1
  slices_S2000000x2_S2000000x1_0_1 : S2000000x2.Slices ![0, 1] S2000000x1
  reducesTo_S2000000_S_d0 : S2000000.ReducesTo [0] S_
  gather_S500x3_S2000000x1_S2000000x3_1_0_n_n_0_1_13_wf : GatherDims.WF S500x3 S2000000x1 S2000000x3 [1] [0] [] [0] [] 1 ![1, 3]
  gather_S500x1_S2000000x1_S2000000x1_1_0_n_n_0_1_11_wf : GatherDims.WF S500x1 S2000000x1 S2000000x1 [1] [0] [] [0] [] 1 ![1, 1]
  gather_S50000x3_S2000000x2x1_S2000000x2x3_2_0_n_n_0_2_13_wf : GatherDims.WF S50000x3 S2000000x2x1 S2000000x2x3 [2] [0] [] [0] [] 2 ![1, 3]
  gather_S50000x1_S2000000x2x1_S2000000x2x1_2_0_n_n_0_2_11_wf : GatherDims.WF S50000x1 S2000000x2x1 S2000000x2x1 [2] [0] [] [0] [] 2 ![1, 1]
  gather_S2x1000x100_S2000000x2x3_S2000000x2_n_012_n_n_012_2_111_wf : GatherDims.WF S2x1000x100 S2000000x2x3 S2000000x2 [] [0, 1, 2] [] [0, 1, 2] [] 2 ![1, 1, 1]

variable [Facts₀]

def gather_S500x3_S2000000x1_S2000000x3_1_0_n_n_0_1_13 : GatherDims S500x3 S2000000x1 S2000000x3 where
  offsetDims := [1]
  collapsedSliceDims := [0]
  operandBatchingDims := []
  startIndicesBatchingDims := []
  startIndexMap := [0]
  indexVectorDim := 1
  sliceSizes := ![1, 3]
  wf := gather_S500x3_S2000000x1_S2000000x3_1_0_n_n_0_1_13_wf
def gather_S500x1_S2000000x1_S2000000x1_1_0_n_n_0_1_11 : GatherDims S500x1 S2000000x1 S2000000x1 where
  offsetDims := [1]
  collapsedSliceDims := [0]
  operandBatchingDims := []
  startIndicesBatchingDims := []
  startIndexMap := [0]
  indexVectorDim := 1
  sliceSizes := ![1, 1]
  wf := gather_S500x1_S2000000x1_S2000000x1_1_0_n_n_0_1_11_wf
def gather_S50000x3_S2000000x2x1_S2000000x2x3_2_0_n_n_0_2_13 : GatherDims S50000x3 S2000000x2x1 S2000000x2x3 where
  offsetDims := [2]
  collapsedSliceDims := [0]
  operandBatchingDims := []
  startIndicesBatchingDims := []
  startIndexMap := [0]
  indexVectorDim := 2
  sliceSizes := ![1, 3]
  wf := gather_S50000x3_S2000000x2x1_S2000000x2x3_2_0_n_n_0_2_13_wf
def gather_S50000x1_S2000000x2x1_S2000000x2x1_2_0_n_n_0_2_11 : GatherDims S50000x1 S2000000x2x1 S2000000x2x1 where
  offsetDims := [2]
  collapsedSliceDims := [0]
  operandBatchingDims := []
  startIndicesBatchingDims := []
  startIndexMap := [0]
  indexVectorDim := 2
  sliceSizes := ![1, 1]
  wf := gather_S50000x1_S2000000x2x1_S2000000x2x1_2_0_n_n_0_2_11_wf
def gather_S2x1000x100_S2000000x2x3_S2000000x2_n_012_n_n_012_2_111 : GatherDims S2x1000x100 S2000000x2x3 S2000000x2 where
  offsetDims := []
  collapsedSliceDims := [0, 1, 2]
  operandBatchingDims := []
  startIndicesBatchingDims := []
  startIndexMap := [0, 1, 2]
  indexVectorDim := 2
  sliceSizes := ![1, 1, 1]
  wf := gather_S2x1000x100_S2000000x2x3_S2000000x2_n_012_n_n_012_2_111_wf

class Facts : Prop extends Facts₀ where

variable [Facts]
-- ==== Proof.K.Kit.lean ====
import proofs.«401436_j25331717111921_1_alg».proof.Proof.Gen.Kernel.Launch
import proofs.«401436_j25331717111921_1_alg».proof.Proof.Gen.Kernel.Skeleton
import proofs.«401436_j25331717111921_1_alg».proof.Proof.Gen.Kernel.Points
import Idealize.ShloMosaic.Lib.Pipeline.FrameBody
import Idealize.ShloMosaic.Lib.Pipeline.FrameSuffix
import Idealize.ShloMosaic.Lib.Tactic
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen
variable {F : FTy → Type} [FloatOps F]
variable (m : (ℓ : Loc nD τ sig) → Buf (Elt F) ℓ) (ρ : Dev nD → PrngReg)
abbrev prefixOps : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50]
abbrev V0 (c : Dev nD) : Valuation τ sig (Elt F) := StableHlo.after (List.flatten (prefixOps (F := F))) (fun b => m (c, b))
abbrev V (c : Dev nD) (b : Ref sig .tc) : Buf (Elt F) ((c : Thread nD τ).loc b) := V0 m c (Proc.devRef .tc b)
theorem prefix_sub : (prefixOps (F := F)).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub, hostOps0_36_sub, hostOps0_37_sub, hostOps0_38_sub, hostOps0_39_sub, hostOps0_40_sub, hostOps0_41_sub, hostOps0_42_sub, hostOps0_43_sub, hostOps0_44_sub, hostOps0_45_sub, hostOps0_46_sub, hostOps0_47_sub, hostOps0_48_sub, hostOps0_49_sub, hostOps0_50_sub⟩
theorem prefix_fresh : (prefixOps (F := F)).Forall fun ops => ops.Forall fun op => op.fresh = ∅ := by
  simp only [List.Forall]; repeat' constructor
theorem hostOps1_fresh : (hostOps1 : List (HloOp τ sig (Elt F))).Forall fun op => op.fresh = ∅ := by
  simp only [List.Forall]; repeat' constructor
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (prefixOps (F := F)) [hostOps1] prefix_sub prefix_fresh main_chain
end Cert.Kernel.Hand
end
-- ==== Proof.K.VArgs.lean ====
import proofs.«401436_j25331717111921_1_alg».proof.Proof.K.Kit
import Idealize.ShloMosaic.Lib.StableHlo.Run
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
variable (m : (ℓ : Loc nD τ sig) → Buf (Elt F) ℓ) (ρ : Dev nD → PrngReg)
abbrev IsResult (b : DevRef τ sig) : Prop := ∃ y : Ref sig .tc, b = Proc.devRef (τ := τ) .tc y ∧ 12 ≤ y.idx.val
set_option maxHeartbeats 8000000 in
theorem prefix_writes : (List.flatten (prefixOps (F := F))).Forall fun op => ∀ b ∈ op.writes, IsResult b := by
  simp only [prefixOps,
    List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, StableHlo.nary_writes,
    StableHlo.unaryIndexed_writes, Finset.mem_singleton, forall_eq]
  repeat' apply And.intro
  all_goals exact ⟨_, rfl, by decide⟩
theorem V_of_arg (c : Dev nD) (r : Ref sig .tc) (hr : r.idx.val < 12) : V m c r = m ((c : Thread nD τ).loc r) :=
  StableHlo.after_of_forall_not_mem (b := Proc.devRef .tc r) _ _ fun op hop hb => by
    obtain ⟨y, hy, h12⟩ := (List.forall_iff_forall_mem.mp (prefix_writes (F := F))) op hop _ hb
    have hry : r = y := Proc.devRef_injective _ hy
    subst hry
    omega
theorem V_main_arg2 (c : Dev nD) : V m c main_arg2 = m ((c : Thread nD τ).loc main_arg2) := V_of_arg m c main_arg2 (by decide)
theorem V_main_arg3 (c : Dev nD) : V m c main_arg3 = m ((c : Thread nD τ).loc main_arg3) := V_of_arg m c main_arg3 (by decide)
theorem V_main_arg4 (c : Dev nD) : V m c main_arg4 = m ((c : Thread nD τ).loc main_arg4) := V_of_arg m c main_arg4 (by decide)
theorem V_main_arg9 (c : Dev nD) : V m c main_arg9 = m ((c : Thread nD τ).loc main_arg9) := V_of_arg m c main_arg9 (by decide)
end Cert.Kernel.Hand
end
-- ==== Proof.K.FrameKit.lean ====
import proofs.«401436_j25331717111921_1_alg».proof.Proof.K.VArgs
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
variable (m : (ℓ : Loc nD τ sig) → Buf (Elt F) ℓ) (ρ : Dev nD → PrngReg)
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
theorem sfx_writes : ∀ op ∈ (hostOps1 : List (HloOp τ sig (Elt F))), ∀ b ∈ op.writes, IsResult b := by
  intro op hop
  simp only [hostOps1, List.mem_cons, List.mem_nil_iff, or_false] at hop
  rcases hop with rfl | rfl | rfl
  all_goals
    simp only [StableHlo.unary_writes, StableHlo.reshape_writes, Finset.mem_singleton, forall_eq]
    exact ⟨_, rfl, by decide⟩
theorem arr_isResult : ∀ w : Fin 19, 12 ≤ (Pipeline.arrRef spec0 w).idx.val := by decide
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl
  all_goals
    intro w
    fin_cases w <;>
      simp only [StableHlo.unary_writes, StableHlo.reshape_writes, Finset.mem_singleton] <;>
      exact StableHlo.devRef_ne_of_ne (by decide)
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))
section
variable {c : Dev nD} (dat : Dat τ (Elt F) Unit ℕ (UR sig nD τ) ℕ cfg0 c)
theorem before0_0_of (hA : dat.A 0 = V m c (Pipeline.arrRef spec0 0)) (t : Fin cfg0.N) (d) : dat.before 0 t d = iblk m c 0 t :=
  (dat.before_fetched 0 t (fetch0_0 t) d).trans (by unfold Dat.fetched Dat.blockOf iblk; rw [hA]; rfl)
theorem before0_1_of (hA : dat.A 1 = V m c (Pipeline.arrRef spec0 1)) (t : Fin cfg0.N) (d) : dat.before 1 t d = iblk m c 1 t :=
  (dat.before_fetched 1 t (fetch0_1 t) d).trans (by unfold Dat.fetched Dat.blockOf iblk; rw [hA]; rfl)
theorem before0_2_of (hA : dat.A 2 = V m c (Pipeline.arrRef spec0 2)) (t : Fin cfg0.N) (d) : dat.before 2 t d = iblk m c 2 t :=
  (dat.before_fetched 2 t (fetch0_2 t) d).trans (by unfold Dat.fetched Dat.blockOf iblk; rw [hA]; rfl)
theorem before0_3_of (hA : dat.A 3 = V m c (Pipeline.arrRef spec0 3)) (t : Fin cfg0.N) (d) : dat.before 3 t d = iblk m c 3 t :=
  (dat.before_fetched 3 t (fetch0_3 t) d).trans (by unfold Dat.fetched Dat.blockOf iblk; rw [hA]; rfl)
theorem before0_4_of (hA : dat.A 4 = V m c (Pipeline.arrRef spec0 4)) (t : Fin cfg0.N) (d) : dat.before 4 t d = iblk m c 4 t :=
  (dat.before_fetched 4 t (fetch0_4 t) d).trans (by unfold Dat.fetched Dat.blockOf iblk; rw [hA]; rfl)
theorem before0_5_of (hA : dat.A 5 = V m c (Pipeline.arrRef spec0 5)) (t : Fin cfg0.N) (d) : dat.before 5 t d = iblk m c 5 t :=
  (dat.before_fetched 5 t (fetch0_5 t) d).trans (by unfold Dat.fetched Dat.blockOf iblk; rw [hA]; rfl)
theorem before0_6_of (hA : dat.A 6 = V m c (Pipeline.arrRef spec0 6)) (t : Fin cfg0.N) (d) : dat.before 6 t d = iblk m c 6 t :=
  (dat.before_fetched 6 t (fetch0_6 t) d).trans (by unfold Dat.fetched Dat.blockOf iblk; rw [hA]; rfl)
theorem before0_7_of (hA : dat.A 7 = V m c (Pipeline.arrRef spec0 7)) (t : Fin cfg0.N) (d) : dat.before 7 t d = iblk m c 7 t :=
  (dat.before_fetched 7 t (fetch0_7 t) d).trans (by unfold Dat.fetched Dat.blockOf iblk; rw [hA]; rfl)
theorem before0_8_of (hA : dat.A 8 = V m c (Pipeline.arrRef spec0 8)) (t : Fin cfg0.N) (d) : dat.before 8 t d = iblk m c 8 t :=
  (dat.before_fetched 8 t (fetch0_8 t) d).trans (by unfold Dat.fetched Dat.blockOf iblk; rw [hA]; rfl)
theorem before0_9_of (hA : dat.A 9 = V m c (Pipeline.arrRef spec0 9)) (t : Fin cfg0.N) (d) : dat.before 9 t d = iblk m c 9 t :=
  (dat.before_fetched 9 t (fetch0_9 t) d).trans (by unfold Dat.fetched Dat.blockOf iblk; rw [hA]; rfl)
theorem before0_10_of (hA : dat.A 10 = V m c (Pipeline.arrRef spec0 10)) (t : Fin cfg0.N) (d) : dat.before 10 t d = iblk m c 10 t :=
  (dat.before_fetched 10 t (fetch0_10 t) d).trans (by unfold Dat.fetched Dat.blockOf iblk; rw [hA]; rfl)
theorem before0_11_of (hA : dat.A 11 = V m c (Pipeline.arrRef spec0 11)) (t : Fin cfg0.N) (d) : dat.before 11 t d = iblk m c 11 t :=
  (dat.before_fetched 11 t (fetch0_11 t) d).trans (by unfold Dat.fetched Dat.blockOf iblk; rw [hA]; rfl)
theorem before0_12_of (hA : dat.A 12 = V m c (Pipeline.arrRef spec0 12)) (t : Fin cfg0.N) (d) : dat.before 12 t d = iblk m c 12 t :=
  (dat.before_fetched 12 t (fetch0_12 t) d).trans (by unfold Dat.fetched Dat.blockOf iblk; rw [hA]; rfl)
theorem before0_13_of (hA : dat.A 13 = V m c (Pipeline.arrRef spec0 13)) (t : Fin cfg0.N) (d) : dat.before 13 t d = iblk m c 13 t :=
  (dat.before_fetched 13 t (fetch0_13 t) d).trans (by unfold Dat.fetched Dat.blockOf iblk; rw [hA]; rfl)
theorem before0_14_of (hA : dat.A 14 = V m c (Pipeline.arrRef spec0 14)) (t : Fin cfg0.N) (d) : dat.before 14 t d = iblk m c 14 t :=
  (dat.before_fetched 14 t (fetch0_14 t) d).trans (by unfold Dat.fetched Dat.blockOf iblk; rw [hA]; rfl)
theorem before0_15_of (hA : dat.A 15 = V m c (Pipeline.arrRef spec0 15)) (t : Fin cfg0.N) (d) : dat.before 15 t d = iblk m c 15 t :=
  (dat.before_fetched 15 t (fetch0_15 t) d).trans (by unfold Dat.fetched Dat.blockOf iblk; rw [hA]; rfl)
theorem before0_16_of (hA : dat.A 16 = V m c (Pipeline.arrRef spec0 16)) (t : Fin cfg0.N) (d) : dat.before 16 t d = iblk m c 16 t :=
  (dat.before_fetched 16 t (fetch0_16 t) d).trans (by unfold Dat.fetched Dat.blockOf iblk; rw [hA]; rfl)
end
theorem arr_ne_arg (r : Ref sig .tc) (hr : r.idx.val < 12) : ∀ w, Pipeline.arrRef spec0 w ≠ r := fun w e => by
  have h := arr_isResult w
  rw [e] at h
  omega
theorem tail_keeps (dats : (p : Fin 1) → (c : Dev nD) → Dat τ (Elt F) Unit ℕ (UR sig nD τ) ℕ (cfgs p) c) (c : Dev nD)
    (r : Ref sig .tc) (hr : r.idx.val < 12) :
    Pipeline.afterTail₀ cfgs dats 0 (V0 m) [hostOps1] c r = V m c r := by
  unfold Pipeline.afterTail₀
  rw [StableHlo.after_of_forall_not_mem (b := Proc.devRef .tc r) _ _ fun op hop hb => ?_,
    Pipeline.withArrays_of_ne _ c (V0 m c) _ r (arr_ne_arg r hr)]
  simp only [List.flatten_cons, List.flatten_nil, List.append_nil] at hop
  obtain ⟨y, hy, h12⟩ := sfx_writes op hop _ hb
  have hry : r = y := Proc.devRef_injective _ hy
  subst hry
  omega
theorem arg_kept (dats : (p : Fin 1) → (c : Dev nD) → Dat τ (Elt F) Unit ℕ (UR sig nD τ) ℕ (cfgs p) c) (c : Dev nD)
    (r : Ref sig .tc) (hr : r.idx.val < 12) (hs : r.isScoped = false) (res : PUnit × MemSt nD τ sig (Elt F))
    (h : Pipeline.FramePost cfgs dats 0 (Pipeline.afterTail₀ cfgs dats 0 (V0 m) [hostOps1]) res) :
    res.2.mem ((c.tc : Thread nD τ).loc r) = m ((c.tc : Thread nD τ).loc r) :=
  ((h c).2 r (Pipeline.mem_restRefs_of r hs (arr_ne_arg r hr))).trans ((tail_keeps m dats c r hr).trans (V_of_arg m c r hr))
abbrev ArgsKept (r : PUnit × MemSt nD τ sig (Elt F)) : Prop := ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (ArgsKept m) :=
  (θ_run defs _ _).mono (fun res h c =>
    have k := fun r hr hs => arg_kept m dats c r hr hs res h
    ⟨k main_arg0 (by decide) (by decide), k main_arg1 (by decide) (by decide), k main_arg2 (by decide) (by decide), k main_arg3 (by decide) (by decide), k main_arg4 (by decide) (by decide), k main_arg5 (by decide) (by decide), k main_arg6 (by decide) (by decide), k main_arg7 (by decide) (by decide), k main_arg8 (by decide) (by decide), k main_arg9 (by decide) (by decide), k main_arg10 (by decide) (by decide), k main_arg11 (by decide) (by decide)⟩) h
end Cert.Kernel.Hand
end
-- ==== Proof.K.Cases.lean ====
import proofs.«401436_j25331717111921_1_alg».proof.Proof.Gen.Kernel.Launch
import proofs.«401436_j25331717111921_1_alg».proof.Proof.Gen.Kernel.Skeleton
import proofs.«401436_j25331717111921_1_alg».proof.Proof.Gen.Kernel.Points
import Idealize.ShloMosaic.Lib.Pipeline.FrameBody
import Idealize.ShloMosaic.Lib.Ring
import Idealize.ShloMosaic.Lib.Tactic
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen
variable {F : FTy → Type} [FloatOps F]
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)
abbrev cond0_1 (i : grid0.Coords) : Prop := k0_cond2 i = 1#1
theorem hcond0_1 : ∀ t : Fin cfg0.N, cond0_1 (grid0.coords t) ↔ t.val = 19 :=
  (by decide +kernel : ∀ t : Fin grid0.N, cond0_1 (grid0.coords t) ↔ t.val = 19)
theorem idleAt0_18_A : ∀ t : Fin cfg0.N, cond0_0 (grid0.coords t) → ¬cond0_1 (grid0.coords t) → idle0 18 (grid0.coords t) = true := by decide +kernel
theorem noFlush0_18_A : ∀ t : Fin cfg0.N, cond0_0 (grid0.coords t) → ¬cond0_1 (grid0.coords t) → (cfg0.win 18).flush t = false := by decide +kernel
theorem idleAt0_18_B : ∀ t : Fin cfg0.N, ¬cond0_0 (grid0.coords t) → ¬cond0_1 (grid0.coords t) → idle0 18 (grid0.coords t) = true := by decide +kernel
theorem noFlush0_18_B : ∀ t : Fin cfg0.N, ¬cond0_0 (grid0.coords t) → ¬cond0_1 (grid0.coords t) → (cfg0.win 18).flush t = false := by decide +kernel
theorem liveAt0_18_C : ∀ t : Fin cfg0.N, ¬cond0_0 (grid0.coords t) → cond0_1 (grid0.coords t) → idle0 18 (grid0.coords t) = false := by decide +kernel
abbrev VO0_17 : View sig .tc .vmem S1x102400 .f32 := (Memref.whole cc0_stg17_0 : Memref sig .tc .vmem S1x102400 .f32).view
abbrev VO0_18 : View sig .tc .vmem S1x1 .f32 := (Memref.whole cc0_stg18_0 : Memref sig .tc .vmem S1x1 .f32).view
abbrev ms0_0 (t : Fin cfg0.N) : Memref sig .tc .vmem S1x102400 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x102400 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x102400 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x102400 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x102400 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x102400 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x102400 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x102400 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x102400 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x102400 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x102400 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x102400 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x102400 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x102400 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x102400 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x102400 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x102400 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x102400 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x1 .f32 := win0_18.stage (cfg0.slots t 18)
abbrev hs0_18 (t : Fin cfg0.N) : (ms0_18 t).IsWhole := hstage0_18 ((cfg0.slots t 18).cast nbuf0_18)
abbrev scM0_0 : Memref sig .tc .vmem S1x1 .f32 := Memref.whole cc0_scratch0
abbrev VS0_0 : View sig .tc .vmem S1x1 .f32 := scM0_0.view
theorem bodyAt0_eq (t : Fin cfg0.N) :
    bodyAt0 (F := F) t = cc0__combine_kernel (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) := rfl
theorem PhiA0_eq (c : Dev nD) :
    (Pipeline.ΦA spec0 c : sProp (MT nD τ sig Unit (Elt F) ℕ (UR sig nD τ) ℕ))
      = iprop(iprop((∃ d, owns (c : Thread nD τ) scM0_0 fullShare d)) ∗ (∃ r, prngReg c r)) := by
  unfold Pipeline.ΦA; rw [scopedRest0_eq]; simp only [scM0_0, owns_whole]; try rfl
abbrev ins (c : Dev nD) (a1 a2 a3 a4 a5 a6 a7 a8 a9 a10 a11 a12 a13 a14 a15 a16 a17 : Memref sig .tc .vmem S1x102400 .f32)
    (x0 x1 x2 x3 x4 x5 x6 x7 x8 x9 x10 x11 x12 x13 x14 x15 x16 : Vec F S1x102400 .f32) : sProp (MT nD τ sig Unit (Elt F) ℕ (UR sig nD τ) ℕ) :=
  iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare x9 ∗ owns (c : Thread nD τ) a11 fullShare x10 ∗ owns (c : Thread nD τ) a12 fullShare x11 ∗ owns (c : Thread nD τ) a13 fullShare x12 ∗ owns (c : Thread nD τ) a14 fullShare x13 ∗ owns (c : Thread nD τ) a15 fullShare x14 ∗ owns (c : Thread nD τ) a16 fullShare x15 ∗ owns (c : Thread nD τ) a17 fullShare x16)
theorem own_unread (c : Dev nD) {sh : Shape} {a : Memref sig .tc .vmem sh .f32} (h : a.IsWhole) (x : Vec F sh .f32) :
    (a.view.loc (c : Thread nD τ) ↦[a.view.set]{fullShare} h.unread x)
      ⊢ (iprop(∃ f, ⌜a.view.read (Elt F) f = x⌝ ∗ (a.view.loc (c : Thread nD τ) ↦[a.view.set]{fullShare} f)) : sProp (MT nD τ sig Unit (Elt F) ℕ (UR sig nD τ) ℕ)) := by
  iintro H; iexists _; isplitr
  · ipureintro; exact h.read_unread _
  iexact H
end Cert.Kernel.Hand
end
-- ==== Proof.K.Runs.lean ====
import proofs.«401436_j25331717111921_1_alg».proof.Proof.K.Cases
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
variable (c : Dev nD) (i : grid0.Coords) (arg1 : Memref sig .tc .vmem S1x102400 .f32) (harg1 : arg1.IsWhole) (arg2 : Memref sig .tc .vmem S1x102400 .f32) (harg2 : arg2.IsWhole) (arg3 : Memref sig .tc .vmem S1x102400 .f32) (harg3 : arg3.IsWhole) (arg4 : Memref sig .tc .vmem S1x102400 .f32) (harg4 : arg4.IsWhole) (arg5 : Memref sig .tc .vmem S1x102400 .f32) (harg5 : arg5.IsWhole) (arg6 : Memref sig .tc .vmem S1x102400 .f32) (harg6 : arg6.IsWhole) (arg7 : Memref sig .tc .vmem S1x102400 .f32) (harg7 : arg7.IsWhole) (arg8 : Memref sig .tc .vmem S1x102400 .f32) (harg8 : arg8.IsWhole) (arg9 : Memref sig .tc .vmem S1x102400 .f32) (harg9 : arg9.IsWhole) (arg10 : Memref sig .tc .vmem S1x102400 .f32) (harg10 : arg10.IsWhole) (arg11 : Memref sig .tc .vmem S1x102400 .f32) (harg11 : arg11.IsWhole) (arg12 : Memref sig .tc .vmem S1x102400 .f32) (harg12 : arg12.IsWhole) (arg13 : Memref sig .tc .vmem S1x102400 .f32) (harg13 : arg13.IsWhole) (arg14 : Memref sig .tc .vmem S1x102400 .f32) (harg14 : arg14.IsWhole) (arg15 : Memref sig .tc .vmem S1x102400 .f32) (harg15 : arg15.IsWhole) (arg16 : Memref sig .tc .vmem S1x102400 .f32) (harg16 : arg16.IsWhole) (arg17 : Memref sig .tc .vmem S1x102400 .f32) (harg17 : arg17.IsWhole) (arg18 : Memref sig .tc .vmem S1x102400 .f32) (harg18 : arg18.IsWhole) (arg19 : Memref sig .tc .vmem S1x1 .f32) (harg19 : arg19.IsWhole) (arg20 : Memref sig .tc .vmem S1x1 .f32) (harg20 : arg20.IsWhole)
set_option maxHeartbeats 4000000 in
noncomputable def kernelRun0_A (hc0 : cond0_0 i) (hc1 : ¬cond0_1 i)
    (x0 x1 x2 x3 x4 x5 x6 x7 x8 x9 x10 x11 x12 x13 x14 x15 x16 : Vec F S1x102400 .f32) :
    Σ' (L17 : List (View.Piece (Elt F) S1x102400 .f32)) (L18 : List (View.Piece (Elt F) S1x1 .f32)), { LS0 : List (View.Piece (Elt F) S1x1 .f32) //
      ∀ (xi18 : Vec F S1x1 .f32) (E : Set ℕ) (K : PUnit → sProp 𝕄),
        iprop(ins c arg1 arg2 arg3 arg4 arg5 arg6 arg7 arg8 arg9 arg10 arg11 arg12 arg13 arg14 arg15 arg16 arg17 x0 x1 x2 x3 x4 x5 x6 x7 x8 x9 x10 x11 x12 x13 x14 x15 x16 ∗ (∃ d, owns (c : Thread nD τ) arg18 fullShare d) ∗ owns (c : Thread nD τ) arg19 fullShare xi18 ∗ (∃ d, owns (c : Thread nD τ) arg20 fullShare d)
            ∗ (iprop(ins c arg1 arg2 arg3 arg4 arg5 arg6 arg7 arg8 arg9 arg10 arg11 arg12 arg13 arg14 arg15 arg16 arg17 x0 x1 x2 x3 x4 x5 x6 x7 x8 x9 x10 x11 x12 x13 x14 x15 x16 ∗ (∃ f, arg18.view.loc (c : Thread nD τ) ↦[arg18.view.set]{fullShare} arg18.view.writes (Elt F) f L17) ∗ owns (c : Thread nD τ) arg19 fullShare xi18 ∗ (∃ f, arg20.view.loc (c : Thread nD τ) ↦[arg20.view.set]{fullShare} arg20.view.writes (Elt F) f LS0)) -∗ K ⟨⟩))
          ⊢ wp frame (wpE (defs₀ (F := F)) Variants.none c none) E (cc0__combine_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, [], ?_, fun xi18 E K => ?run⟩
  case run =>
    simp only [cc0__combine_kernel_eq_skeleton]; unfold cc0__combine_kernel_skel
    unfold ins owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩, ⟨%d17, %f17, -, H17⟩, ⟨%f18, %hf18, H18⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg19.eq_unread hf18
    sl_exec (disch := first | exact hc0 | exact hc1)
    sl_step
    iapply Hk
    isplitl [H0 H1 H2 H3 H4 H5 H6 H7 H8 H9 H10 H11 H12 H13 H14 H15 H16]
    · isplitl [H0]; · iapply own_unread c harg1; iexact H0
      isplitl [H1]; · iapply own_unread c harg2; iexact H1
      isplitl [H2]; · iapply own_unread c harg3; iexact H2
      isplitl [H3]; · iapply own_unread c harg4; iexact H3
      isplitl [H4]; · iapply own_unread c harg5; iexact H4
      isplitl [H5]; · iapply own_unread c harg6; iexact H5
      isplitl [H6]; · iapply own_unread c harg7; iexact H6
      isplitl [H7]; · iapply own_unread c harg8; iexact H7
      isplitl [H8]; · iapply own_unread c harg9; iexact H8
      isplitl [H9]; · iapply own_unread c harg10; iexact H9
      isplitl [H10]; · iapply own_unread c harg11; iexact H10
      isplitl [H11]; · iapply own_unread c harg12; iexact H11
      isplitl [H12]; · iapply own_unread c harg13; iexact H12
      isplitl [H13]; · iapply own_unread c harg14; iexact H13
      isplitl [H14]; · iapply own_unread c harg15; iexact H14
      isplitl [H15]; · iapply own_unread c harg16; iexact H15
      iapply own_unread c harg17; iexact H16
    isplitl [H17]; · iexists _; iexact H17
    isplitl [H18]; · iapply own_unread c harg19; iexact H18
    iexists _; iexact HS0
set_option maxHeartbeats 4000000 in
noncomputable def kernelRun0_B (hc0 : ¬cond0_0 i) (hc1 : ¬cond0_1 i)
    (x0 x1 x2 x3 x4 x5 x6 x7 x8 x9 x10 x11 x12 x13 x14 x15 x16 : Vec F S1x102400 .f32) (xs0 : Vec F S1x1 .f32) :
    Σ' (L17 : List (View.Piece (Elt F) S1x102400 .f32)) (L18 : List (View.Piece (Elt F) S1x1 .f32)), { LS0 : List (View.Piece (Elt F) S1x1 .f32) //
      ∀ (xi18 : Vec F S1x1 .f32) (E : Set ℕ) (K : PUnit → sProp 𝕄),
        iprop(ins c arg1 arg2 arg3 arg4 arg5 arg6 arg7 arg8 arg9 arg10 arg11 arg12 arg13 arg14 arg15 arg16 arg17 x0 x1 x2 x3 x4 x5 x6 x7 x8 x9 x10 x11 x12 x13 x14 x15 x16 ∗ (∃ d, owns (c : Thread nD τ) arg18 fullShare d) ∗ owns (c : Thread nD τ) arg19 fullShare xi18 ∗ owns (c : Thread nD τ) arg20 fullShare xs0
            ∗ (iprop(ins c arg1 arg2 arg3 arg4 arg5 arg6 arg7 arg8 arg9 arg10 arg11 arg12 arg13 arg14 arg15 arg16 arg17 x0 x1 x2 x3 x4 x5 x6 x7 x8 x9 x10 x11 x12 x13 x14 x15 x16 ∗ (∃ f, arg18.view.loc (c : Thread nD τ) ↦[arg18.view.set]{fullShare} arg18.view.writes (Elt F) f L17) ∗ owns (c : Thread nD τ) arg19 fullShare xi18 ∗ (∃ f, arg20.view.loc (c : Thread nD τ) ↦[arg20.view.set]{fullShare} arg20.view.writes (Elt F) f LS0)) -∗ K ⟨⟩))
          ⊢ wp frame (wpE (defs₀ (F := F)) Variants.none c none) E (cc0__combine_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, [], ?_, fun xi18 E K => ?run⟩
  case run =>
    simp only [cc0__combine_kernel_eq_skeleton]; unfold cc0__combine_kernel_skel
    unfold ins owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩, ⟨%d17, %f17, -, H17⟩, ⟨%f18, %hf18, H18⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg19.eq_unread hf18; obtain rfl := harg20.eq_unread hfs0
    sl_exec (disch := first | exact hc0 | exact hc1)
    sl_step
    iapply Hk
    isplitl [H0 H1 H2 H3 H4 H5 H6 H7 H8 H9 H10 H11 H12 H13 H14 H15 H16]
    · isplitl [H0]; · iapply own_unread c harg1; iexact H0
      isplitl [H1]; · iapply own_unread c harg2; iexact H1
      isplitl [H2]; · iapply own_unread c harg3; iexact H2
      isplitl [H3]; · iapply own_unread c harg4; iexact H3
      isplitl [H4]; · iapply own_unread c harg5; iexact H4
      isplitl [H5]; · iapply own_unread c harg6; iexact H5
      isplitl [H6]; · iapply own_unread c harg7; iexact H6
      isplitl [H7]; · iapply own_unread c harg8; iexact H7
      isplitl [H8]; · iapply own_unread c harg9; iexact H8
      isplitl [H9]; · iapply own_unread c harg10; iexact H9
      isplitl [H10]; · iapply own_unread c harg11; iexact H10
      isplitl [H11]; · iapply own_unread c harg12; iexact H11
      isplitl [H12]; · iapply own_unread c harg13; iexact H12
      isplitl [H13]; · iapply own_unread c harg14; iexact H13
      isplitl [H14]; · iapply own_unread c harg15; iexact H14
      isplitl [H15]; · iapply own_unread c harg16; iexact H15
      iapply own_unread c harg17; iexact H16
    isplitl [H17]; · iexists _; iexact H17
    isplitl [H18]; · iapply own_unread c harg19; iexact H18
    iexists _; iexact HS0
set_option maxHeartbeats 4000000 in
noncomputable def kernelRun0_C (hc0 : ¬cond0_0 i) (hc1 : cond0_1 i)
    (x0 x1 x2 x3 x4 x5 x6 x7 x8 x9 x10 x11 x12 x13 x14 x15 x16 : Vec F S1x102400 .f32) (xs0 : Vec F S1x1 .f32) :
    Σ' (L17 : List (View.Piece (Elt F) S1x102400 .f32)) (L18 : List (View.Piece (Elt F) S1x1 .f32)), { LS0 : List (View.Piece (Elt F) S1x1 .f32) //
      ∀ (E : Set ℕ) (K : PUnit → sProp 𝕄),
        iprop(ins c arg1 arg2 arg3 arg4 arg5 arg6 arg7 arg8 arg9 arg10 arg11 arg12 arg13 arg14 arg15 arg16 arg17 x0 x1 x2 x3 x4 x5 x6 x7 x8 x9 x10 x11 x12 x13 x14 x15 x16 ∗ (∃ d, owns (c : Thread nD τ) arg18 fullShare d) ∗ (∃ d, owns (c : Thread nD τ) arg19 fullShare d) ∗ owns (c : Thread nD τ) arg20 fullShare xs0
            ∗ (iprop(ins c arg1 arg2 arg3 arg4 arg5 arg6 arg7 arg8 arg9 arg10 arg11 arg12 arg13 arg14 arg15 arg16 arg17 x0 x1 x2 x3 x4 x5 x6 x7 x8 x9 x10 x11 x12 x13 x14 x15 x16 ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f LS0)) -∗ K ⟨⟩))
          ⊢ wp frame (wpE (defs₀ (F := F)) Variants.none c none) E (cc0__combine_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, fun E K => ?run⟩
  case run =>
    simp only [cc0__combine_kernel_eq_skeleton]; unfold cc0__combine_kernel_skel
    unfold ins owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩, ⟨%d17, %f17, -, H17⟩, ⟨%d18, %f18, -, H18⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg20.eq_unread hfs0
    sl_exec (disch := first | exact hc0 | exact hc1)
    sl_step
    iapply Hk
    isplitl [H0 H1 H2 H3 H4 H5 H6 H7 H8 H9 H10 H11 H12 H13 H14 H15 H16]
    · isplitl [H0]; · iapply own_unread c harg1; iexact H0
      isplitl [H1]; · iapply own_unread c harg2; iexact H1
      isplitl [H2]; · iapply own_unread c harg3; iexact H2
      isplitl [H3]; · iapply own_unread c harg4; iexact H3
      isplitl [H4]; · iapply own_unread c harg5; iexact H4
      isplitl [H5]; · iapply own_unread c harg6; iexact H5
      isplitl [H6]; · iapply own_unread c harg7; iexact H6
      isplitl [H7]; · iapply own_unread c harg8; iexact H7
      isplitl [H8]; · iapply own_unread c harg9; iexact H8
      isplitl [H9]; · iapply own_unread c harg10; iexact H9
      isplitl [H10]; · iapply own_unread c harg11; iexact H10
      isplitl [H11]; · iapply own_unread c harg12; iexact H11
      isplitl [H12]; · iapply own_unread c harg13; iexact H12
      isplitl [H13]; · iapply own_unread c harg14; iexact H13
      isplitl [H14]; · iapply own_unread c harg15; iexact H14
      isplitl [H15]; · iapply own_unread c harg16; iexact H15
      iapply own_unread c harg17; iexact H16
    isplitl [H17]; · iexists _; iexact H17
    isplitl [H18]; · iexists _; iexact H18
    iexists _; iexact HS0
end Cert.Kernel.Hand
end
-- ==== Proof.K.Frame.lean ====
import proofs.«401436_j25331717111921_1_alg».proof.Proof.K.FrameKit
import proofs.«401436_j25331717111921_1_alg».proof.Proof.K.Runs
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
variable (m : (ℓ : Loc nD τ sig) → Buf (Elt F) ℓ) (ρ : Dev nD → PrngReg)
section Cases
variable (c : Dev nD) (i : grid0.Coords)
  (arg1 : Memref sig .tc .vmem S1x102400 .f32) (harg1 : arg1.IsWhole) (arg2 : Memref sig .tc .vmem S1x102400 .f32) (harg2 : arg2.IsWhole)
  (arg3 : Memref sig .tc .vmem S1x102400 .f32) (harg3 : arg3.IsWhole) (arg4 : Memref sig .tc .vmem S1x102400 .f32) (harg4 : arg4.IsWhole)
  (arg5 : Memref sig .tc .vmem S1x102400 .f32) (harg5 : arg5.IsWhole) (arg6 : Memref sig .tc .vmem S1x102400 .f32) (harg6 : arg6.IsWhole)
  (arg7 : Memref sig .tc .vmem S1x102400 .f32) (harg7 : arg7.IsWhole) (arg8 : Memref sig .tc .vmem S1x102400 .f32) (harg8 : arg8.IsWhole)
  (arg9 : Memref sig .tc .vmem S1x102400 .f32) (harg9 : arg9.IsWhole) (arg10 : Memref sig .tc .vmem S1x102400 .f32) (harg10 : arg10.IsWhole)
  (arg11 : Memref sig .tc .vmem S1x102400 .f32) (harg11 : arg11.IsWhole) (arg12 : Memref sig .tc .vmem S1x102400 .f32) (harg12 : arg12.IsWhole)
  (arg13 : Memref sig .tc .vmem S1x102400 .f32) (harg13 : arg13.IsWhole) (arg14 : Memref sig .tc .vmem S1x102400 .f32) (harg14 : arg14.IsWhole)
  (arg15 : Memref sig .tc .vmem S1x102400 .f32) (harg15 : arg15.IsWhole) (arg16 : Memref sig .tc .vmem S1x102400 .f32) (harg16 : arg16.IsWhole)
  (arg17 : Memref sig .tc .vmem S1x102400 .f32) (harg17 : arg17.IsWhole) (arg18 : Memref sig .tc .vmem S1x102400 .f32) (harg18 : arg18.IsWhole)
  (arg19 : Memref sig .tc .vmem S1x1 .f32) (harg19 : arg19.IsWhole) (arg20 : Memref sig .tc .vmem S1x1 .f32) (harg20 : arg20.IsWhole)
  (x0 x1 x2 x3 x4 x5 x6 x7 x8 x9 x10 x11 x12 x13 x14 x15 x16 : Vec F S1x102400 .f32) (xs0 : Vec F S1x1 .f32)
local notation "𝑟[" f ", " h0 ", " h1 "]" => f c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h0 h1 x0 x1 x2 x3 x4 x5 x6 x7 x8 x9 x10 x11 x12 x13 x14 x15 x16
theorem cover0_A_17 (hc0 : cond0_0 i) (hc1 : ¬cond0_1 i) (y : S1x102400.Idx) : ∃ pc ∈ (𝑟[kernelRun0_A, hc0, hc1]).1, y ∈ pc.1.set :=
  View.cover_of_tiledL (𝑟[kernelRun0_A, hc0, hc1]).1 S1x102400.size (by sl_kernel_rfl) y
def out0_A_17 (hc0 : cond0_0 i) (hc1 : ¬cond0_1 i) : Vec F S1x102400 .f32 :=
  VO0_17.read (Elt F) (VO0_17.writes (Elt F) VO0_17.junk (𝑟[kernelRun0_A, hc0, hc1]).1)
theorem scover0_A_0 (hc0 : cond0_0 i) (hc1 : ¬cond0_1 i) (y : S1x1.Idx) : ∃ pc ∈ (𝑟[kernelRun0_A, hc0, hc1]).2.2.1, y ∈ pc.1.set :=
  View.cover_of_tiledL (𝑟[kernelRun0_A, hc0, hc1]).2.2.1 S1x1.size (by sl_kernel_rfl) y
def sout0_A_0 (hc0 : cond0_0 i) (hc1 : ¬cond0_1 i) : Vec F S1x1 .f32 :=
  VS0_0.read (Elt F) (VS0_0.writes (Elt F) VS0_0.junk (𝑟[kernelRun0_A, hc0, hc1]).2.2.1)
theorem cover0_B_17 (hc0 : ¬cond0_0 i) (hc1 : ¬cond0_1 i) (y : S1x102400.Idx) : ∃ pc ∈ (𝑟[kernelRun0_B, hc0, hc1] xs0).1, y ∈ pc.1.set :=
  View.cover_of_tiledL (𝑟[kernelRun0_B, hc0, hc1] xs0).1 S1x102400.size (by sl_kernel_rfl) y
def out0_B_17 (hc0 : ¬cond0_0 i) (hc1 : ¬cond0_1 i) : Vec F S1x102400 .f32 :=
  VO0_17.read (Elt F) (VO0_17.writes (Elt F) VO0_17.junk (𝑟[kernelRun0_B, hc0, hc1] xs0).1)
theorem scover0_B_0 (hc0 : ¬cond0_0 i) (hc1 : ¬cond0_1 i) (y : S1x1.Idx) : ∃ pc ∈ (𝑟[kernelRun0_B, hc0, hc1] xs0).2.2.1, y ∈ pc.1.set :=
  View.cover_of_tiledL (𝑟[kernelRun0_B, hc0, hc1] xs0).2.2.1 S1x1.size (by sl_kernel_rfl) y
def sout0_B_0 (hc0 : ¬cond0_0 i) (hc1 : ¬cond0_1 i) : Vec F S1x1 .f32 :=
  VS0_0.read (Elt F) (VS0_0.writes (Elt F) VS0_0.junk (𝑟[kernelRun0_B, hc0, hc1] xs0).2.2.1)
theorem cover0_C_17 (hc0 : ¬cond0_0 i) (hc1 : cond0_1 i) (y : S1x102400.Idx) : ∃ pc ∈ (𝑟[kernelRun0_C, hc0, hc1] xs0).1, y ∈ pc.1.set :=
  View.cover_of_tiledL (𝑟[kernelRun0_C, hc0, hc1] xs0).1 S1x102400.size (by sl_kernel_rfl) y
def out0_C_17 (hc0 : ¬cond0_0 i) (hc1 : cond0_1 i) : Vec F S1x102400 .f32 :=
  VO0_17.read (Elt F) (VO0_17.writes (Elt F) VO0_17.junk (𝑟[kernelRun0_C, hc0, hc1] xs0).1)
theorem cover0_C_18 (hc0 : ¬cond0_0 i) (hc1 : cond0_1 i) (y : S1x1.Idx) : ∃ pc ∈ (𝑟[kernelRun0_C, hc0, hc1] xs0).2.1, y ∈ pc.1.set :=
  View.cover_of_tiledL (𝑟[kernelRun0_C, hc0, hc1] xs0).2.1 S1x1.size (by sl_kernel_rfl) y
def out0_C_18 (hc0 : ¬cond0_0 i) (hc1 : cond0_1 i) : Vec F S1x1 .f32 :=
  VO0_18.read (Elt F) (VO0_18.writes (Elt F) VO0_18.junk (𝑟[kernelRun0_C, hc0, hc1] xs0).2.1)
theorem scover0_C_0 (hc0 : ¬cond0_0 i) (hc1 : cond0_1 i) (y : S1x1.Idx) : ∃ pc ∈ (𝑟[kernelRun0_C, hc0, hc1] xs0).2.2.1, y ∈ pc.1.set :=
  View.cover_of_tiledL (𝑟[kernelRun0_C, hc0, hc1] xs0).2.2.1 S1x1.size (by sl_kernel_rfl) y
def sout0_C_0 (hc0 : ¬cond0_0 i) (hc1 : cond0_1 i) : Vec F S1x1 .f32 :=
  VS0_0.read (Elt F) (VS0_0.writes (Elt F) VS0_0.junk (𝑟[kernelRun0_C, hc0, hc1] xs0).2.2.1)
end Cases
def out0_idle_18 : Vec F S1x1 .f32 := VO0_18.read (Elt F) VO0_18.junk
local notation:max f:max "⟪" c ", " t "⟫" => f c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
def outsAt0 (c : Dev nD) : (n : ℕ) → n < cfg0.N → Vec F S1x102400 .f32 × Vec F S1x1 .f32 × Vec F S1x1 .f32
  | 0, hn =>
    (out0_A_17⟪c, (⟨0, hn⟩ : Fin cfg0.N)⟫ ((hcond0_0 ⟨0, hn⟩).mpr rfl) (fun h => absurd ((hcond0_1 ⟨0, hn⟩).mp h) (Nat.zero_ne_add_one 18)),
     out0_idle_18,
     sout0_A_0⟪c, (⟨0, hn⟩ : Fin cfg0.N)⟫ ((hcond0_0 ⟨0, hn⟩).mpr rfl) (fun h => absurd ((hcond0_1 ⟨0, hn⟩).mp h) (Nat.zero_ne_add_one 18)))
  | n + 1, hn =>
    if h1 : n + 1 = 19 then
      (out0_C_17⟪c, (⟨n + 1, hn⟩ : Fin cfg0.N)⟫ (outsAt0 c n (Nat.lt_of_succ_lt hn)).2.2 (fun h => Nat.succ_ne_zero n ((hcond0_0 ⟨n + 1, hn⟩).mp h)) ((hcond0_1 ⟨n + 1, hn⟩).mpr h1),
       out0_C_18⟪c, (⟨n + 1, hn⟩ : Fin cfg0.N)⟫ (outsAt0 c n (Nat.lt_of_succ_lt hn)).2.2 (fun h => Nat.succ_ne_zero n ((hcond0_0 ⟨n + 1, hn⟩).mp h)) ((hcond0_1 ⟨n + 1, hn⟩).mpr h1),
       sout0_C_0⟪c, (⟨n + 1, hn⟩ : Fin cfg0.N)⟫ (outsAt0 c n (Nat.lt_of_succ_lt hn)).2.2 (fun h => Nat.succ_ne_zero n ((hcond0_0 ⟨n + 1, hn⟩).mp h)) ((hcond0_1 ⟨n + 1, hn⟩).mpr h1))
    else
      (out0_B_17⟪c, (⟨n + 1, hn⟩ : Fin cfg0.N)⟫ (outsAt0 c n (Nat.lt_of_succ_lt hn)).2.2 (fun h => Nat.succ_ne_zero n ((hcond0_0 ⟨n + 1, hn⟩).mp h)) (fun h => h1 ((hcond0_1 ⟨n + 1, hn⟩).mp h)),
       out0_idle_18,
       sout0_B_0⟪c, (⟨n + 1, hn⟩ : Fin cfg0.N)⟫ (outsAt0 c n (Nat.lt_of_succ_lt hn)).2.2 (fun h => Nat.succ_ne_zero n ((hcond0_0 ⟨n + 1, hn⟩).mp h)) (fun h => h1 ((hcond0_1 ⟨n + 1, hn⟩).mp h)))
theorem outsAt0_A (c : Dev nD) (t : Fin cfg0.N) (h0 : t.val = 0) (h1 : t.val ≠ 19) :
    outsAt0 m c t.val t.isLt
      = (out0_A_17⟪c, t⟫ ((hcond0_0 t).mpr h0) (fun h => h1 ((hcond0_1 t).mp h)), out0_idle_18,
         sout0_A_0⟪c, t⟫ ((hcond0_0 t).mpr h0) (fun h => h1 ((hcond0_1 t).mp h))) := by
  obtain ⟨n, hn⟩ := t
  cases n with
  | zero => rfl
  | succ n => exact absurd h0 (Nat.succ_ne_zero n)
theorem outsAt0_B (c : Dev nD) (t : Fin cfg0.N) (h0 : t.val ≠ 0) (h1 : t.val ≠ 19) :
    outsAt0 m c t.val t.isLt
      = (out0_B_17⟪c, t⟫ (outsAt0 m c (t.val - 1) (Nat.lt_of_le_of_lt (Nat.sub_le _ _) t.isLt)).2.2 (fun h => h0 ((hcond0_0 t).mp h)) (fun h => h1 ((hcond0_1 t).mp h)),
         out0_idle_18,
         sout0_B_0⟪c, t⟫ (outsAt0 m c (t.val - 1) (Nat.lt_of_le_of_lt (Nat.sub_le _ _) t.isLt)).2.2 (fun h => h0 ((hcond0_0 t).mp h)) (fun h => h1 ((hcond0_1 t).mp h))) := by
  obtain ⟨n, hn⟩ := t
  cases n with
  | zero => exact absurd rfl h0
  | succ n => exact (dif_neg h1).trans rfl
theorem outsAt0_C (c : Dev nD) (t : Fin cfg0.N) (h0 : t.val ≠ 0) (h1 : t.val = 19) :
    outsAt0 m c t.val t.isLt
      = (out0_C_17⟪c, t⟫ (outsAt0 m c (t.val - 1) (Nat.lt_of_le_of_lt (Nat.sub_le _ _) t.isLt)).2.2 (fun h => h0 ((hcond0_0 t).mp h)) ((hcond0_1 t).mpr h1),
         out0_C_18⟪c, t⟫ (outsAt0 m c (t.val - 1) (Nat.lt_of_le_of_lt (Nat.sub_le _ _) t.isLt)).2.2 (fun h => h0 ((hcond0_0 t).mp h)) ((hcond0_1 t).mpr h1),
         sout0_C_0⟪c, t⟫ (outsAt0 m c (t.val - 1) (Nat.lt_of_le_of_lt (Nat.sub_le _ _) t.isLt)).2.2 (fun h => h0 ((hcond0_0 t).mp h)) ((hcond0_1 t).mpr h1)) := by
  obtain ⟨n, hn⟩ := t
  cases n with
  | zero => exact absurd rfl h0
  | succ n => exact (dif_pos h1).trans rfl
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))
theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => (outsAt0 m c t.val t.isLt).1
    | ⟨18, _⟩ => (outsAt0 m c t.val t.isLt).2.1
    | ⟨_ + 19, h⟩ => absurd h (Nat.not_lt.2 (Nat.le_add_left _ _))
  Φ t := PhiS m c t.val (Nat.le_of_lt_succ t.isLt)
  q _ := fullShare
  owed _ := 0
theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = (outsAt0 m c t.val t.isLt).1 := by dsimp only [dats]
theorem after0_18 (c : Dev nD) (t : Fin cfg0.N) : (dats m 0 c).after 18 t = (outsAt0 m c t.val t.isLt).2.1 := by dsimp only [dats]
theorem before0_0 (c : Dev nD) (t : Fin cfg0.N) (d) : (dats m 0 c).before 0 t d = iblk m c 0 t := before0_0_of m (dats m 0 c) (A_eq m c 0) t d
theorem before0_1 (c : Dev nD) (t : Fin cfg0.N) (d) : (dats m 0 c).before 1 t d = iblk m c 1 t := before0_1_of m (dats m 0 c) (A_eq m c 1) t d
theorem before0_2 (c : Dev nD) (t : Fin cfg0.N) (d) : (dats m 0 c).before 2 t d = iblk m c 2 t := before0_2_of m (dats m 0 c) (A_eq m c 2) t d
theorem before0_3 (c : Dev nD) (t : Fin cfg0.N) (d) : (dats m 0 c).before 3 t d = iblk m c 3 t := before0_3_of m (dats m 0 c) (A_eq m c 3) t d
theorem before0_4 (c : Dev nD) (t : Fin cfg0.N) (d) : (dats m 0 c).before 4 t d = iblk m c 4 t := before0_4_of m (dats m 0 c) (A_eq m c 4) t d
theorem before0_5 (c : Dev nD) (t : Fin cfg0.N) (d) : (dats m 0 c).before 5 t d = iblk m c 5 t := before0_5_of m (dats m 0 c) (A_eq m c 5) t d
theorem before0_6 (c : Dev nD) (t : Fin cfg0.N) (d) : (dats m 0 c).before 6 t d = iblk m c 6 t := before0_6_of m (dats m 0 c) (A_eq m c 6) t d
theorem before0_7 (c : Dev nD) (t : Fin cfg0.N) (d) : (dats m 0 c).before 7 t d = iblk m c 7 t := before0_7_of m (dats m 0 c) (A_eq m c 7) t d
theorem before0_8 (c : Dev nD) (t : Fin cfg0.N) (d) : (dats m 0 c).before 8 t d = iblk m c 8 t := before0_8_of m (dats m 0 c) (A_eq m c 8) t d
theorem before0_9 (c : Dev nD) (t : Fin cfg0.N) (d) : (dats m 0 c).before 9 t d = iblk m c 9 t := before0_9_of m (dats m 0 c) (A_eq m c 9) t d
theorem before0_10 (c : Dev nD) (t : Fin cfg0.N) (d) : (dats m 0 c).before 10 t d = iblk m c 10 t := before0_10_of m (dats m 0 c) (A_eq m c 10) t d
theorem before0_11 (c : Dev nD) (t : Fin cfg0.N) (d) : (dats m 0 c).before 11 t d = iblk m c 11 t := before0_11_of m (dats m 0 c) (A_eq m c 11) t d
theorem before0_12 (c : Dev nD) (t : Fin cfg0.N) (d) : (dats m 0 c).before 12 t d = iblk m c 12 t := before0_12_of m (dats m 0 c) (A_eq m c 12) t d
theorem before0_13 (c : Dev nD) (t : Fin cfg0.N) (d) : (dats m 0 c).before 13 t d = iblk m c 13 t := before0_13_of m (dats m 0 c) (A_eq m c 13) t d
theorem before0_14 (c : Dev nD) (t : Fin cfg0.N) (d) : (dats m 0 c).before 14 t d = iblk m c 14 t := before0_14_of m (dats m 0 c) (A_eq m c 14) t d
theorem before0_15 (c : Dev nD) (t : Fin cfg0.N) (d) : (dats m 0 c).before 15 t d = iblk m c 15 t := before0_15_of m (dats m 0 c) (A_eq m c 15) t d
theorem before0_16 (c : Dev nD) (t : Fin cfg0.N) (d) : (dats m 0 c).before 16 t d = iblk m c 16 t := before0_16_of m (dats m 0 c) (A_eq m c 16) t d
end Cert.Kernel.Hand
end
-- ==== Proof.K.FrameRun.lean ====
import proofs.«401436_j25331717111921_1_alg».proof.Proof.K.Frame
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen
variable {F : FTy → Type} [FloatOps F]
local notation "𝕄" => MT nD τ sig Unit (Elt F) ℕ (UR sig nD τ) ℕ
variable (m : (ℓ : Loc nD τ sig) → Buf (Elt F) ℓ) (ρ : Dev nD → PrngReg)
local notation:max f:max "⟪" c ", " t "⟫" => f c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
local notation:max r:max "⟪⟪" c ", " t ", " h0 ", " h1 "⟫⟫" => r c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
set_option maxHeartbeats 16000000 in
theorem body_obligation (c : Dev nD) : BodyObligation (dats (F := F) m 0 c) (defs₀ (F := F)) Variants.none () Set.univ := fun t => by
  rw [bigSep_W0, bigSep_W0]
  dsimp only
  simp only [before0_0, before0_1, before0_2, before0_3, before0_4, before0_5, before0_6, before0_7, before0_8, before0_9, before0_10, before0_11, before0_12, before0_13, before0_14, before0_15, before0_16]
  rw [after0_0, after0_1, after0_2, after0_3, after0_4, after0_5, after0_6, after0_7, after0_8, after0_9, after0_10, after0_11, after0_12, after0_13, after0_14, after0_15, after0_16, after0_17]
  rw [show (dats m 0 c).owesAt () t.succ = (dats m 0 c).owesAt () t.castSucc from rfl]
  rw [show (dats m 0 c).Φ t.succ = PhiS m c (t.val + 1) t.isLt from rfl, PhiS_succ]
  have hN : t.val < 20 := lt_of_lt_of_eq t.isLt (show cfg0.N = 20 from N_0)
  by_cases h0 : t.val = 0
  ·
    have h1 : t.val ≠ 19 := by omega
    simp only [idleAt0_18_A t ((hcond0_0 t).mpr h0) (fun h => h1 ((hcond0_1 t).mp h)), noFlush0_18_A t ((hcond0_0 t).mpr h0) (fun h => h1 ((hcond0_1 t).mp h))]
    rw [outsAt0_A m c t h0 h1]
    unfold out0_A_17 sout0_A_0; (try dsimp only)
    rw [PhiS_castSucc m c t, PhiS_zero m c _ _ h0, PhiA0_eq]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    iapply ((kernelRun0_A⟪⟪c, t, (hcond0_0 t).mpr h0, fun h => h1 ((hcond0_1 t).mp h)⟫⟫).2.2.2 _ Set.univ _)
    unfold ins
    iframe H0 H1 H2 H3 H4 H5 H6 H7 H8 H9 H10 H11 H12 H13 H14 H15 H16
    isplitl [H17]; · iexists _; iexact H17
    isplitl [H18]; · iexact H18
    isplitl [HS0]; · iexact HS0
    iintro ⟨⟨H0, H1, H2, H3, H4, H5, H6, H7, H8, H9, H10, H11, H12, H13, H14, H15, H16⟩, ⟨%e17, H17⟩, H18, ⟨%es0, HS0⟩⟩
    isplitl [HS0 Hg]
    · isplitl [HS0]
      · unfold owns; iexists _; isplitr
        swap; · iexact HS0
        ipureintro; exact View.read_writes_of_cover _ _ _ _ _ (scover0_A_0⟪c, t⟫ _ _)
      iexact Hg
    isplitl [Ho]; · iexact Ho
    iframe H0 H1 H2 H3 H4 H5 H6 H7 H8 H9 H10 H11 H12 H13 H14 H15 H16
    isplitl [H17]
    · unfold owns; iexists _; isplitr
      swap; · iexact H17
      ipureintro; exact View.read_writes_of_cover _ _ _ _ _ (cover0_A_17⟪c, t⟫ _ _)
    iexists _; iexact H18
  · by_cases h1 : t.val = 19
    ·
      simp only [liveAt0_18_C t (fun h => h0 ((hcond0_0 t).mp h)) ((hcond0_1 t).mpr h1)]
      rw [after0_18]
      rw [outsAt0_C m c t h0 h1]
      unfold out0_C_17 out0_C_18 sout0_C_0; (try dsimp only)
      rw [PhiS_castSucc m c t, PhiS_pos m c _ _ h0]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply ((kernelRun0_C⟪⟪c, t, fun h => h0 ((hcond0_0 t).mp h), (hcond0_1 t).mpr h1⟫⟫ _).2.2.2 Set.univ _)
      unfold ins
      iframe H0 H1 H2 H3 H4 H5 H6 H7 H8 H9 H10 H11 H12 H13 H14 H15 H16
      isplitl [H17]; · iexists _; iexact H17
      isplitl [H18]; · iexists _; iexact H18
      isplitl [HS0]; · iexact HS0
      iintro ⟨⟨H0, H1, H2, H3, H4, H5, H6, H7, H8, H9, H10, H11, H12, H13, H14, H15, H16⟩, ⟨%e17, H17⟩, ⟨%e18, H18⟩, ⟨%es0, HS0⟩⟩
      isplitl [HS0 Hg]
      · isplitl [HS0]
        · unfold owns; iexists _; isplitr
          swap; · iexact HS0
          ipureintro; exact View.read_writes_of_cover _ _ _ _ _ (scover0_C_0⟪c, t⟫ _ _ _)
        iexact Hg
      isplitl [Ho]; · iexact Ho
      iframe H0 H1 H2 H3 H4 H5 H6 H7 H8 H9 H10 H11 H12 H13 H14 H15 H16
      isplitl [H17]
      · unfold owns; iexists _; isplitr
        swap; · iexact H17
        ipureintro; exact View.read_writes_of_cover _ _ _ _ _ (cover0_C_17⟪c, t⟫ _ _ _)
      unfold owns; iexists _; isplitr
      swap; · iexact H18
      ipureintro; exact View.read_writes_of_cover _ _ _ _ _ (cover0_C_18⟪c, t⟫ _ _ _)
    ·
      simp only [idleAt0_18_B t (fun h => h0 ((hcond0_0 t).mp h)) (fun h => h1 ((hcond0_1 t).mp h)), noFlush0_18_B t (fun h => h0 ((hcond0_0 t).mp h)) (fun h => h1 ((hcond0_1 t).mp h))]
      rw [outsAt0_B m c t h0 h1]
      unfold out0_B_17 sout0_B_0; (try dsimp only)
      rw [PhiS_castSucc m c t, PhiS_pos m c _ _ h0]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply ((kernelRun0_B⟪⟪c, t, fun h => h0 ((hcond0_0 t).mp h), fun h => h1 ((hcond0_1 t).mp h)⟫⟫ _).2.2.2 _ Set.univ _)
      unfold ins
      iframe H0 H1 H2 H3 H4 H5 H6 H7 H8 H9 H10 H11 H12 H13 H14 H15 H16
      isplitl [H17]; · iexists _; iexact H17
      isplitl [H18]; · iexact H18
      isplitl [HS0]; · iexact HS0
      iintro ⟨⟨H0, H1, H2, H3, H4, H5, H6, H7, H8, H9, H10, H11, H12, H13, H14, H15, H16⟩, ⟨%e17, H17⟩, H18, ⟨%es0, HS0⟩⟩
      isplitl [HS0 Hg]
      · isplitl [HS0]
        · unfold owns; iexists _; isplitr
          swap; · iexact HS0
          ipureintro; exact View.read_writes_of_cover _ _ _ _ _ (scover0_B_0⟪c, t⟫ _ _ _)
        iexact Hg
      isplitl [Ho]; · iexact Ho
      iframe H0 H1 H2 H3 H4 H5 H6 H7 H8 H9 H10 H11 H12 H13 H14 H15 H16
      isplitl [H17]
      · unfold owns; iexists _; isplitr
        swap; · iexact H17
        ipureintro; exact View.read_writes_of_cover _ _ _ _ _ (cover0_B_17⟪c, t⟫ _ _ _)
      iexists _; iexact H18
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg
theorem hout (c : Dev nD) : (dats m 0 c).Φ (Fin.last cfg0.N) ⊢ Pipeline.ΦA spec0 c :=
  Phi_out m c _ (by rw [Fin.val_last]; have : cfg0.N = 20 := N_0; omega)
set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)
theorem frame : θ_run defs (onTc (τ := τ) (main (F := F))) ⟨m, fun _ => 0, ρ⟩ (ArgsKept m) :=
  frame_of m ρ (dats m) (run_main m ρ)
end Cert.Kernel.Hand
end
-- ==== Proof.KI.Kit.lean ====
import proofs.«401436_j25331717111921_1_alg».proof.Proof.Gen.KernelIdeal.Launch
import proofs.«401436_j25331717111921_1_alg».proof.Proof.Gen.KernelIdeal.Skeleton
import proofs.«401436_j25331717111921_1_alg».proof.Proof.Gen.KernelIdeal.Points
import Idealize.ShloMosaic.Lib.Pipeline.FrameBody
import Idealize.ShloMosaic.Lib.Pipeline.FrameSuffix
import Idealize.ShloMosaic.Lib.Tactic
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen
variable {F : FTy → Type} [FloatOps F]
variable (m : (ℓ : Loc nD τ sig) → Buf (Elt F) ℓ) (ρ : Dev nD → PrngReg)
abbrev prefixOps : List (List (HloOp τ sig (Elt F))) :=
  [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50]
abbrev V0 (c : Dev nD) : Valuation τ sig (Elt F) := StableHlo.after (List.flatten (prefixOps (F := F))) (fun b => m (c, b))
abbrev V (c : Dev nD) (b : Ref sig .tc) : Buf (Elt F) ((c : Thread nD τ).loc b) := V0 m c (Proc.devRef .tc b)
theorem prefix_sub : (prefixOps (F := F)).Forall fun ops => ops.Forall fun op => op.bufs ⊆ StableHlo.tcRefs τ sig := by
  simp only [List.Forall]
  exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub, hostOps0_36_sub, hostOps0_37_sub, hostOps0_38_sub, hostOps0_39_sub, hostOps0_40_sub, hostOps0_41_sub, hostOps0_42_sub, hostOps0_43_sub, hostOps0_44_sub, hostOps0_45_sub, hostOps0_46_sub, hostOps0_47_sub, hostOps0_48_sub, hostOps0_49_sub, hostOps0_50_sub⟩
theorem prefix_fresh : (prefixOps (F := F)).Forall fun ops => ops.Forall fun op => op.fresh = ∅ := by
  simp only [List.Forall]; repeat' constructor
theorem hostOps1_fresh : (hostOps1 : List (HloOp τ sig (Elt F))).Forall fun op => op.fresh = ∅ := by
  simp only [List.Forall]; repeat' constructor
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main (prefixOps (F := F)) [hostOps1] prefix_sub prefix_fresh main_chain
end Cert.KernelIdeal.Hand
end
-- ==== Proof.KI.VArgs.lean ====
import proofs.«401436_j25331717111921_1_alg».proof.Proof.KI.Kit
import Idealize.ShloMosaic.Lib.StableHlo.Run
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
variable (m : (ℓ : Loc nD τ sig) → Buf (Elt F) ℓ) (ρ : Dev nD → PrngReg)
abbrev IsResult (b : DevRef τ sig) : Prop := ∃ y : Ref sig .tc, b = Proc.devRef (τ := τ) .tc y ∧ 12 ≤ y.idx.val
set_option maxHeartbeats 8000000 in
theorem prefix_writes : (List.flatten (prefixOps (F := F))).Forall fun op => ∀ b ∈ op.writes, IsResult b := by
  simp only [prefixOps,
    List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, StableHlo.nary_writes,
    StableHlo.unaryIndexed_writes, Finset.mem_singleton, forall_eq]
  repeat' apply And.intro
  all_goals exact ⟨_, rfl, by decide⟩
theorem V_of_arg (c : Dev nD) (r : Ref sig .tc) (hr : r.idx.val < 12) : V m c r = m ((c : Thread nD τ).loc r) :=
  StableHlo.after_of_forall_not_mem (b := Proc.devRef .tc r) _ _ fun op hop hb => by
    obtain ⟨y, hy, h12⟩ := (List.forall_iff_forall_mem.mp (prefix_writes (F := F))) op hop _ hb
    have hry : r = y := Proc.devRef_injective _ hy
    subst hry
    omega
theorem V_main_arg2 (c : Dev nD) : V m c main_arg2 = m ((c : Thread nD τ).loc main_arg2) := V_of_arg m c main_arg2 (by decide)
theorem V_main_arg3 (c : Dev nD) : V m c main_arg3 = m ((c : Thread nD τ).loc main_arg3) := V_of_arg m c main_arg3 (by decide)
theorem V_main_arg4 (c : Dev nD) : V m c main_arg4 = m ((c : Thread nD τ).loc main_arg4) := V_of_arg m c main_arg4 (by decide)
theorem V_main_arg9 (c : Dev nD) : V m c main_arg9 = m ((c : Thread nD τ).loc main_arg9) := V_of_arg m c main_arg9 (by decide)
end Cert.KernelIdeal.Hand
end
-- ==== Proof.KI.FrameKit.lean ====
import proofs.«401436_j25331717111921_1_alg».proof.Proof.KI.VArgs
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
variable (m : (ℓ : Loc nD τ sig) → Buf (Elt F) ℓ) (ρ : Dev nD → PrngReg)
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop
theorem sfx_writes : ∀ op ∈ (hostOps1 : List (HloOp τ sig (Elt F))), ∀ b ∈ op.writes, IsResult b := by
  intro op hop
  simp only [hostOps1, List.mem_cons, List.mem_nil_iff, or_false] at hop
  rcases hop with rfl | rfl | rfl
  all_goals
    simp only [StableHlo.unary_writes, StableHlo.reshape_writes, Finset.mem_singleton, forall_eq]
    exact ⟨_, rfl, by decide⟩
theorem arr_isResult : ∀ w : Fin 19, 12 ≤ (Pipeline.arrRef spec0 w).idx.val := by decide
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl
  all_goals
    intro w
    fin_cases w <;>
      simp only [StableHlo.unary_writes, StableHlo.reshape_writes, Finset.mem_singleton] <;>
      exact StableHlo.devRef_ne_of_ne (by decide)
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))
section
variable {c : Dev nD} (dat : Dat τ (Elt F) Unit ℕ (UR sig nD τ) ℕ cfg0 c)
theorem before0_0_of (hA : dat.A 0 = V m c (Pipeline.arrRef spec0 0)) (t : Fin cfg0.N) (d) : dat.before 0 t d = iblk m c 0 t :=
  (dat.before_fetched 0 t (fetch0_0 t) d).trans (by unfold Dat.fetched Dat.blockOf iblk; rw [hA]; rfl)
theorem before0_1_of (hA : dat.A 1 = V m c (Pipeline.arrRef spec0 1)) (t : Fin cfg0.N) (d) : dat.before 1 t d = iblk m c 1 t :=
  (dat.before_fetched 1 t (fetch0_1 t) d).trans (by unfold Dat.fetched Dat.blockOf iblk; rw [hA]; rfl)
theorem before0_2_of (hA : dat.A 2 = V m c (Pipeline.arrRef spec0 2)) (t : Fin cfg0.N) (d) : dat.before 2 t d = iblk m c 2 t :=
  (dat.before_fetched 2 t (fetch0_2 t) d).trans (by unfold Dat.fetched Dat.blockOf iblk; rw [hA]; rfl)
theorem before0_3_of (hA : dat.A 3 = V m c (Pipeline.arrRef spec0 3)) (t : Fin cfg0.N) (d) : dat.before 3 t d = iblk m c 3 t :=
  (dat.before_fetched 3 t (fetch0_3 t) d).trans (by unfold Dat.fetched Dat.blockOf iblk; rw [hA]; rfl)
theorem before0_4_of (hA : dat.A 4 = V m c (Pipeline.arrRef spec0 4)) (t : Fin cfg0.N) (d) : dat.before 4 t d = iblk m c 4 t :=
  (dat.before_fetched 4 t (fetch0_4 t) d).trans (by unfold Dat.fetched Dat.blockOf iblk; rw [hA]; rfl)
theorem before0_5_of (hA : dat.A 5 = V m c (Pipeline.arrRef spec0 5)) (t : Fin cfg0.N) (d) : dat.before 5 t d = iblk m c 5 t :=
  (dat.before_fetched 5 t (fetch0_5 t) d).trans (by unfold Dat.fetched Dat.blockOf iblk; rw [hA]; rfl)
theorem before0_6_of (hA : dat.A 6 = V m c (Pipeline.arrRef spec0 6)) (t : Fin cfg0.N) (d) : dat.before 6 t d = iblk m c 6 t :=
  (dat.before_fetched 6 t (fetch0_6 t) d).trans (by unfold Dat.fetched Dat.blockOf iblk; rw [hA]; rfl)
theorem before0_7_of (hA : dat.A 7 = V m c (Pipeline.arrRef spec0 7)) (t : Fin cfg0.N) (d) : dat.before 7 t d = iblk m c 7 t :=
  (dat.before_fetched 7 t (fetch0_7 t) d).trans (by unfold Dat.fetched Dat.blockOf iblk; rw [hA]; rfl)
theorem before0_8_of (hA : dat.A 8 = V m c (Pipeline.arrRef spec0 8)) (t : Fin cfg0.N) (d) : dat.before 8 t d = iblk m c 8 t :=
  (dat.before_fetched 8 t (fetch0_8 t) d).trans (by unfold Dat.fetched Dat.blockOf iblk; rw [hA]; rfl)
theorem before0_9_of (hA : dat.A 9 = V m c (Pipeline.arrRef spec0 9)) (t : Fin cfg0.N) (d) : dat.before 9 t d = iblk m c 9 t :=
  (dat.before_fetched 9 t (fetch0_9 t) d).trans (by unfold Dat.fetched Dat.blockOf iblk; rw [hA]; rfl)
theorem before0_10_of (hA : dat.A 10 = V m c (Pipeline.arrRef spec0 10)) (t : Fin cfg0.N) (d) : dat.before 10 t d = iblk m c 10 t :=
  (dat.before_fetched 10 t (fetch0_10 t) d).trans (by unfold Dat.fetched Dat.blockOf iblk; rw [hA]; rfl)
theorem before0_11_of (hA : dat.A 11 = V m c (Pipeline.arrRef spec0 11)) (t : Fin cfg0.N) (d) : dat.before 11 t d = iblk m c 11 t :=
  (dat.before_fetched 11 t (fetch0_11 t) d).trans (by unfold Dat.fetched Dat.blockOf iblk; rw [hA]; rfl)
theorem before0_12_of (hA : dat.A 12 = V m c (Pipeline.arrRef spec0 12)) (t : Fin cfg0.N) (d) : dat.before 12 t d = iblk m c 12 t :=
  (dat.before_fetched 12 t (fetch0_12 t) d).trans (by unfold Dat.fetched Dat.blockOf iblk; rw [hA]; rfl)
theorem before0_13_of (hA : dat.A 13 = V m c (Pipeline.arrRef spec0 13)) (t : Fin cfg0.N) (d) : dat.before 13 t d = iblk m c 13 t :=
  (dat.before_fetched 13 t (fetch0_13 t) d).trans (by unfold Dat.fetched Dat.blockOf iblk; rw [hA]; rfl)
theorem before0_14_of (hA : dat.A 14 = V m c (Pipeline.arrRef spec0 14)) (t : Fin cfg0.N) (d) : dat.before 14 t d = iblk m c 14 t :=
  (dat.before_fetched 14 t (fetch0_14 t) d).trans (by unfold Dat.fetched Dat.blockOf iblk; rw [hA]; rfl)
theorem before0_15_of (hA : dat.A 15 = V m c (Pipeline.arrRef spec0 15)) (t : Fin cfg0.N) (d) : dat.before 15 t d = iblk m c 15 t :=
  (dat.before_fetched 15 t (fetch0_15 t) d).trans (by unfold Dat.fetched Dat.blockOf iblk; rw [hA]; rfl)
theorem before0_16_of (hA : dat.A 16 = V m c (Pipeline.arrRef spec0 16)) (t : Fin cfg0.N) (d) : dat.before 16 t d = iblk m c 16 t :=
  (dat.before_fetched 16 t (fetch0_16 t) d).trans (by unfold Dat.fetched Dat.blockOf iblk; rw [hA]; rfl)
end
theorem arr_ne_arg (r : Ref sig .tc) (hr : r.idx.val < 12) : ∀ w, Pipeline.arrRef spec0 w ≠ r := fun w e => by
  have h := arr_isResult w
  rw [e] at h
  omega
theorem tail_keeps (dats : (p : Fin 1) → (c : Dev nD) → Dat τ (Elt F) Unit ℕ (UR sig nD τ) ℕ (cfgs p) c) (c : Dev nD)
    (r : Ref sig .tc) (hr : r.idx.val < 12) :
    Pipeline.afterTail₀ cfgs dats 0 (V0 m) [hostOps1] c r = V m c r := by
  unfold Pipeline.afterTail₀
  rw [StableHlo.after_of_forall_not_mem (b := Proc.devRef .tc r) _ _ fun op hop hb => ?_,
    Pipeline.withArrays_of_ne _ c (V0 m c) _ r (arr_ne_arg r hr)]
  simp only [List.flatten_cons, List.flatten_nil, List.append_nil] at hop
  obtain ⟨y, hy, h12⟩ := sfx_writes op hop _ hb
  have hry : r = y := Proc.devRef_injective _ hy
  subst hry
  omega
theorem arg_kept (dats : (p : Fin 1) → (c : Dev nD) → Dat τ (Elt F) Unit ℕ (UR sig nD τ) ℕ (cfgs p) c) (c : Dev nD)
    (r : Ref sig .tc) (hr : r.idx.val < 12) (hs : r.isScoped = false) (res : PUnit × MemSt nD τ sig (Elt F))
    (h : Pipeline.FramePost cfgs dats 0 (Pipeline.afterTail₀ cfgs dats 0 (V0 m) [hostOps1]) res) :
    res.2.mem ((c.tc : Thread nD τ).loc r) = m ((c.tc : Thread nD τ).loc r) :=
  ((h c).2 r (Pipeline.mem_restRefs_of r hs (arr_ne_arg r hr))).trans ((tail_keeps m dats c r hr).trans (V_of_arg m c r hr))
abbrev ArgsKept (r : PUnit × MemSt nD τ sig (Elt F)) : Prop := ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (ArgsKept m) :=
  (θ_run defs _ _).mono (fun res h c =>
    have k := fun r hr hs => arg_kept m dats c r hr hs res h
    ⟨k main_arg0 (by decide) (by decide), k main_arg1 (by decide) (by decide), k main_arg2 (by decide) (by decide), k main_arg3 (by decide) (by decide), k main_arg4 (by decide) (by decide), k main_arg5 (by decide) (by decide), k main_arg6 (by decide) (by decide), k main_arg7 (by decide) (by decide), k main_arg8 (by decide) (by decide), k main_arg9 (by decide) (by decide), k main_arg10 (by decide) (by decide), k main_arg11 (by decide) (by decide)⟩) h
end Cert.KernelIdeal.Hand
end
-- ==== Proof.KI.Cases.lean ====
import proofs.«401436_j25331717111921_1_alg».proof.Proof.Gen.KernelIdeal.Launch
import proofs.«401436_j25331717111921_1_alg».proof.Proof.Gen.KernelIdeal.Skeleton
import proofs.«401436_j25331717111921_1_alg».proof.Proof.Gen.KernelIdeal.Points
import Idealize.ShloMosaic.Lib.Pipeline.FrameBody
import Idealize.ShloMosaic.Lib.Ring
import Idealize.ShloMosaic.Lib.Tactic
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen
variable {F : FTy → Type} [FloatOps F]
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)
abbrev cond0_1 (i : grid0.Coords) : Prop := k0_cond2 i = 1#1
theorem hcond0_1 : ∀ t : Fin cfg0.N, cond0_1 (grid0.coords t) ↔ t.val = 19 :=
  (by decide +kernel : ∀ t : Fin grid0.N, cond0_1 (grid0.coords t) ↔ t.val = 19)
theorem idleAt0_18_A : ∀ t : Fin cfg0.N, cond0_0 (grid0.coords t) → ¬cond0_1 (grid0.coords t) → idle0 18 (grid0.coords t) = true := by decide +kernel
theorem noFlush0_18_A : ∀ t : Fin cfg0.N, cond0_0 (grid0.coords t) → ¬cond0_1 (grid0.coords t) → (cfg0.win 18).flush t = false := by decide +kernel
theorem idleAt0_18_B : ∀ t : Fin cfg0.N, ¬cond0_0 (grid0.coords t) → ¬cond0_1 (grid0.coords t) → idle0 18 (grid0.coords t) = true := by decide +kernel
theorem noFlush0_18_B : ∀ t : Fin cfg0.N, ¬cond0_0 (grid0.coords t) → ¬cond0_1 (grid0.coords t) → (cfg0.win 18).flush t = false := by decide +kernel
theorem liveAt0_18_C : ∀ t : Fin cfg0.N, ¬cond0_0 (grid0.coords t) → cond0_1 (grid0.coords t) → idle0 18 (grid0.coords t) = false := by decide +kernel
abbrev VO0_17 : View sig .tc .vmem S1x102400 .f32 := (Memref.whole cc0_stg17_0 : Memref sig .tc .vmem S1x102400 .f32).view
abbrev VO0_18 : View sig .tc .vmem S1x1 .f32 := (Memref.whole cc0_stg18_0 : Memref sig .tc .vmem S1x1 .f32).view
abbrev ms0_0 (t : Fin cfg0.N) : Memref sig .tc .vmem S1x102400 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x102400 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x102400 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x102400 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x102400 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x102400 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x102400 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x102400 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x102400 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x102400 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x102400 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x102400 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x102400 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x102400 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x102400 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x102400 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x102400 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x102400 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x1 .f32 := win0_18.stage (cfg0.slots t 18)
abbrev hs0_18 (t : Fin cfg0.N) : (ms0_18 t).IsWhole := hstage0_18 ((cfg0.slots t 18).cast nbuf0_18)
abbrev scM0_0 : Memref sig .tc .vmem S1x1 .f32 := Memref.whole cc0_scratch0
abbrev VS0_0 : View sig .tc .vmem S1x1 .f32 := scM0_0.view
theorem bodyAt0_eq (t : Fin cfg0.N) :
    bodyAt0 (F := F) t = cc0__combine_kernel (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) := rfl
theorem PhiA0_eq (c : Dev nD) :
    (Pipeline.ΦA spec0 c : sProp (MT nD τ sig Unit (Elt F) ℕ (UR sig nD τ) ℕ))
      = iprop(iprop((∃ d, owns (c : Thread nD τ) scM0_0 fullShare d)) ∗ (∃ r, prngReg c r)) := by
  unfold Pipeline.ΦA; rw [scopedRest0_eq]; simp only [scM0_0, owns_whole]; try rfl
abbrev ins (c : Dev nD) (a1 a2 a3 a4 a5 a6 a7 a8 a9 a10 a11 a12 a13 a14 a15 a16 a17 : Memref sig .tc .vmem S1x102400 .f32)
    (x0 x1 x2 x3 x4 x5 x6 x7 x8 x9 x10 x11 x12 x13 x14 x15 x16 : Vec F S1x102400 .f32) : sProp (MT nD τ sig Unit (Elt F) ℕ (UR sig nD τ) ℕ) :=
  iprop(owns (c : Thread nD τ) a1 fullShare x0 ∗ owns (c : Thread nD τ) a2 fullShare x1 ∗ owns (c : Thread nD τ) a3 fullShare x2 ∗ owns (c : Thread nD τ) a4 fullShare x3 ∗ owns (c : Thread nD τ) a5 fullShare x4 ∗ owns (c : Thread nD τ) a6 fullShare x5 ∗ owns (c : Thread nD τ) a7 fullShare x6 ∗ owns (c : Thread nD τ) a8 fullShare x7 ∗ owns (c : Thread nD τ) a9 fullShare x8 ∗ owns (c : Thread nD τ) a10 fullShare x9 ∗ owns (c : Thread nD τ) a11 fullShare x10 ∗ owns (c : Thread nD τ) a12 fullShare x11 ∗ owns (c : Thread nD τ) a13 fullShare x12 ∗ owns (c : Thread nD τ) a14 fullShare x13 ∗ owns (c : Thread nD τ) a15 fullShare x14 ∗ owns (c : Thread nD τ) a16 fullShare x15 ∗ owns (c : Thread nD τ) a17 fullShare x16)
theorem own_unread (c : Dev nD) {sh : Shape} {a : Memref sig .tc .vmem sh .f32} (h : a.IsWhole) (x : Vec F sh .f32) :
    (a.view.loc (c : Thread nD τ) ↦[a.view.set]{fullShare} h.unread x)
      ⊢ (iprop(∃ f, ⌜a.view.read (Elt F) f = x⌝ ∗ (a.view.loc (c : Thread nD τ) ↦[a.view.set]{fullShare} f)) : sProp (MT nD τ sig Unit (Elt F) ℕ (UR sig nD τ) ℕ)) := by
  iintro H; iexists _; isplitr
  · ipureintro; exact h.read_unread _
  iexact H
end Cert.KernelIdeal.Hand
end
-- ==== Proof.KI.Runs.lean ====
import proofs.«401436_j25331717111921_1_alg».proof.Proof.KI.Cases
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
variable (c : Dev nD) (i : grid0.Coords) (arg1 : Memref sig .tc .vmem S1x102400 .f32) (harg1 : arg1.IsWhole) (arg2 : Memref sig .tc .vmem S1x102400 .f32) (harg2 : arg2.IsWhole) (arg3 : Memref sig .tc .vmem S1x102400 .f32) (harg3 : arg3.IsWhole) (arg4 : Memref sig .tc .vmem S1x102400 .f32) (harg4 : arg4.IsWhole) (arg5 : Memref sig .tc .vmem S1x102400 .f32) (harg5 : arg5.IsWhole) (arg6 : Memref sig .tc .vmem S1x102400 .f32) (harg6 : arg6.IsWhole) (arg7 : Memref sig .tc .vmem S1x102400 .f32) (harg7 : arg7.IsWhole) (arg8 : Memref sig .tc .vmem S1x102400 .f32) (harg8 : arg8.IsWhole) (arg9 : Memref sig .tc .vmem S1x102400 .f32) (harg9 : arg9.IsWhole) (arg10 : Memref sig .tc .vmem S1x102400 .f32) (harg10 : arg10.IsWhole) (arg11 : Memref sig .tc .vmem S1x102400 .f32) (harg11 : arg11.IsWhole) (arg12 : Memref sig .tc .vmem S1x102400 .f32) (harg12 : arg12.IsWhole) (arg13 : Memref sig .tc .vmem S1x102400 .f32) (harg13 : arg13.IsWhole) (arg14 : Memref sig .tc .vmem S1x102400 .f32) (harg14 : arg14.IsWhole) (arg15 : Memref sig .tc .vmem S1x102400 .f32) (harg15 : arg15.IsWhole) (arg16 : Memref sig .tc .vmem S1x102400 .f32) (harg16 : arg16.IsWhole) (arg17 : Memref sig .tc .vmem S1x102400 .f32) (harg17 : arg17.IsWhole) (arg18 : Memref sig .tc .vmem S1x102400 .f32) (harg18 : arg18.IsWhole) (arg19 : Memref sig .tc .vmem S1x1 .f32) (harg19 : arg19.IsWhole) (arg20 : Memref sig .tc .vmem S1x1 .f32) (harg20 : arg20.IsWhole)
set_option maxHeartbeats 4000000 in
noncomputable def kernelRun0_A (hc0 : cond0_0 i) (hc1 : ¬cond0_1 i)
    (x0 x1 x2 x3 x4 x5 x6 x7 x8 x9 x10 x11 x12 x13 x14 x15 x16 : Vec F S1x102400 .f32) :
    Σ' (L17 : List (View.Piece (Elt F) S1x102400 .f32)) (L18 : List (View.Piece (Elt F) S1x1 .f32)), { LS0 : List (View.Piece (Elt F) S1x1 .f32) //
      ∀ (xi18 : Vec F S1x1 .f32) (E : Set ℕ) (K : PUnit → sProp 𝕄),
        iprop(ins c arg1 arg2 arg3 arg4 arg5 arg6 arg7 arg8 arg9 arg10 arg11 arg12 arg13 arg14 arg15 arg16 arg17 x0 x1 x2 x3 x4 x5 x6 x7 x8 x9 x10 x11 x12 x13 x14 x15 x16 ∗ (∃ d, owns (c : Thread nD τ) arg18 fullShare d) ∗ owns (c : Thread nD τ) arg19 fullShare xi18 ∗ (∃ d, owns (c : Thread nD τ) arg20 fullShare d)
            ∗ (iprop(ins c arg1 arg2 arg3 arg4 arg5 arg6 arg7 arg8 arg9 arg10 arg11 arg12 arg13 arg14 arg15 arg16 arg17 x0 x1 x2 x3 x4 x5 x6 x7 x8 x9 x10 x11 x12 x13 x14 x15 x16 ∗ (∃ f, arg18.view.loc (c : Thread nD τ) ↦[arg18.view.set]{fullShare} arg18.view.writes (Elt F) f L17) ∗ owns (c : Thread nD τ) arg19 fullShare xi18 ∗ (∃ f, arg20.view.loc (c : Thread nD τ) ↦[arg20.view.set]{fullShare} arg20.view.writes (Elt F) f LS0)) -∗ K ⟨⟩))
          ⊢ wp frame (wpE (defs₀ (F := F)) Variants.none c none) E (cc0__combine_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, [], ?_, fun xi18 E K => ?run⟩
  case run =>
    simp only [cc0__combine_kernel_eq_skeleton]; unfold cc0__combine_kernel_skel
    unfold ins owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩, ⟨%d17, %f17, -, H17⟩, ⟨%f18, %hf18, H18⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg19.eq_unread hf18
    sl_exec (disch := first | exact hc0 | exact hc1)
    sl_step
    iapply Hk
    isplitl [H0 H1 H2 H3 H4 H5 H6 H7 H8 H9 H10 H11 H12 H13 H14 H15 H16]
    · isplitl [H0]; · iapply own_unread c harg1; iexact H0
      isplitl [H1]; · iapply own_unread c harg2; iexact H1
      isplitl [H2]; · iapply own_unread c harg3; iexact H2
      isplitl [H3]; · iapply own_unread c harg4; iexact H3
      isplitl [H4]; · iapply own_unread c harg5; iexact H4
      isplitl [H5]; · iapply own_unread c harg6; iexact H5
      isplitl [H6]; · iapply own_unread c harg7; iexact H6
      isplitl [H7]; · iapply own_unread c harg8; iexact H7
      isplitl [H8]; · iapply own_unread c harg9; iexact H8
      isplitl [H9]; · iapply own_unread c harg10; iexact H9
      isplitl [H10]; · iapply own_unread c harg11; iexact H10
      isplitl [H11]; · iapply own_unread c harg12; iexact H11
      isplitl [H12]; · iapply own_unread c harg13; iexact H12
      isplitl [H13]; · iapply own_unread c harg14; iexact H13
      isplitl [H14]; · iapply own_unread c harg15; iexact H14
      isplitl [H15]; · iapply own_unread c harg16; iexact H15
      iapply own_unread c harg17; iexact H16
    isplitl [H17]; · iexists _; iexact H17
    isplitl [H18]; · iapply own_unread c harg19; iexact H18
    iexists _; iexact HS0
set_option maxHeartbeats 4000000 in
noncomputable def kernelRun0_B (hc0 : ¬cond0_0 i) (hc1 : ¬cond0_1 i)
    (x0 x1 x2 x3 x4 x5 x6 x7 x8 x9 x10 x11 x12 x13 x14 x15 x16 : Vec F S1x102400 .f32) (xs0 : Vec F S1x1 .f32) :
    Σ' (L17 : List (View.Piece (Elt F) S1x102400 .f32)) (L18 : List (View.Piece (Elt F) S1x1 .f32)), { LS0 : List (View.Piece (Elt F) S1x1 .f32) //
      ∀ (xi18 : Vec F S1x1 .f32) (E : Set ℕ) (K : PUnit → sProp 𝕄),
        iprop(ins c arg1 arg2 arg3 arg4 arg5 arg6 arg7 arg8 arg9 arg10 arg11 arg12 arg13 arg14 arg15 arg16 arg17 x0 x1 x2 x3 x4 x5 x6 x7 x8 x9 x10 x11 x12 x13 x14 x15 x16 ∗ (∃ d, owns (c : Thread nD τ) arg18 fullShare d) ∗ owns (c : Thread nD τ) arg19 fullShare xi18 ∗ owns (c : Thread nD τ) arg20 fullShare xs0
            ∗ (iprop(ins c arg1 arg2 arg3 arg4 arg5 arg6 arg7 arg8 arg9 arg10 arg11 arg12 arg13 arg14 arg15 arg16 arg17 x0 x1 x2 x3 x4 x5 x6 x7 x8 x9 x10 x11 x12 x13 x14 x15 x16 ∗ (∃ f, arg18.view.loc (c : Thread nD τ) ↦[arg18.view.set]{fullShare} arg18.view.writes (Elt F) f L17) ∗ owns (c : Thread nD τ) arg19 fullShare xi18 ∗ (∃ f, arg20.view.loc (c : Thread nD τ) ↦[arg20.view.set]{fullShare} arg20.view.writes (Elt F) f LS0)) -∗ K ⟨⟩))
          ⊢ wp frame (wpE (defs₀ (F := F)) Variants.none c none) E (cc0__combine_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, [], ?_, fun xi18 E K => ?run⟩
  case run =>
    simp only [cc0__combine_kernel_eq_skeleton]; unfold cc0__combine_kernel_skel
    unfold ins owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩, ⟨%d17, %f17, -, H17⟩, ⟨%f18, %hf18, H18⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg19.eq_unread hf18; obtain rfl := harg20.eq_unread hfs0
    sl_exec (disch := first | exact hc0 | exact hc1)
    sl_step
    iapply Hk
    isplitl [H0 H1 H2 H3 H4 H5 H6 H7 H8 H9 H10 H11 H12 H13 H14 H15 H16]
    · isplitl [H0]; · iapply own_unread c harg1; iexact H0
      isplitl [H1]; · iapply own_unread c harg2; iexact H1
      isplitl [H2]; · iapply own_unread c harg3; iexact H2
      isplitl [H3]; · iapply own_unread c harg4; iexact H3
      isplitl [H4]; · iapply own_unread c harg5; iexact H4
      isplitl [H5]; · iapply own_unread c harg6; iexact H5
      isplitl [H6]; · iapply own_unread c harg7; iexact H6
      isplitl [H7]; · iapply own_unread c harg8; iexact H7
      isplitl [H8]; · iapply own_unread c harg9; iexact H8
      isplitl [H9]; · iapply own_unread c harg10; iexact H9
      isplitl [H10]; · iapply own_unread c harg11; iexact H10
      isplitl [H11]; · iapply own_unread c harg12; iexact H11
      isplitl [H12]; · iapply own_unread c harg13; iexact H12
      isplitl [H13]; · iapply own_unread c harg14; iexact H13
      isplitl [H14]; · iapply own_unread c harg15; iexact H14
      isplitl [H15]; · iapply own_unread c harg16; iexact H15
      iapply own_unread c harg17; iexact H16
    isplitl [H17]; · iexists _; iexact H17
    isplitl [H18]; · iapply own_unread c harg19; iexact H18
    iexists _; iexact HS0
set_option maxHeartbeats 4000000 in
noncomputable def kernelRun0_C (hc0 : ¬cond0_0 i) (hc1 : cond0_1 i)
    (x0 x1 x2 x3 x4 x5 x6 x7 x8 x9 x10 x11 x12 x13 x14 x15 x16 : Vec F S1x102400 .f32) (xs0 : Vec F S1x1 .f32) :
    Σ' (L17 : List (View.Piece (Elt F) S1x102400 .f32)) (L18 : List (View.Piece (Elt F) S1x1 .f32)), { LS0 : List (View.Piece (Elt F) S1x1 .f32) //
      ∀ (E : Set ℕ) (K : PUnit → sProp 𝕄),
        iprop(ins c arg1 arg2 arg3 arg4 arg5 arg6 arg7 arg8 arg9 arg10 arg11 arg12 arg13 arg14 arg15 arg16 arg17 x0 x1 x2 x3 x4 x5 x6 x7 x8 x9 x10 x11 x12 x13 x14 x15 x16 ∗ (∃ d, owns (c : Thread nD τ) arg18 fullShare d) ∗ (∃ d, owns (c : Thread nD τ) arg19 fullShare d) ∗ owns (c : Thread nD τ) arg20 fullShare xs0
            ∗ (iprop(ins c arg1 arg2 arg3 arg4 arg5 arg6 arg7 arg8 arg9 arg10 arg11 arg12 arg13 arg14 arg15 arg16 arg17 x0 x1 x2 x3 x4 x5 x6 x7 x8 x9 x10 x11 x12 x13 x14 x15 x16 ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f LS0)) -∗ K ⟨⟩))
          ⊢ wp frame (wpE (defs₀ (F := F)) Variants.none c none) E (cc0__combine_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, fun E K => ?run⟩
  case run =>
    simp only [cc0__combine_kernel_eq_skeleton]; unfold cc0__combine_kernel_skel
    unfold ins owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩, ⟨%d17, %f17, -, H17⟩, ⟨%d18, %f18, -, H18⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg20.eq_unread hfs0
    sl_exec (disch := first | exact hc0 | exact hc1)
    sl_step
    iapply Hk
    isplitl [H0 H1 H2 H3 H4 H5 H6 H7 H8 H9 H10 H11 H12 H13 H14 H15 H16]
    · isplitl [H0]; · iapply own_unread c harg1; iexact H0
      isplitl [H1]; · iapply own_unread c harg2; iexact H1
      isplitl [H2]; · iapply own_unread c harg3; iexact H2
      isplitl [H3]; · iapply own_unread c harg4; iexact H3
      isplitl [H4]; · iapply own_unread c harg5; iexact H4
      isplitl [H5]; · iapply own_unread c harg6; iexact H5
      isplitl [H6]; · iapply own_unread c harg7; iexact H6
      isplitl [H7]; · iapply own_unread c harg8; iexact H7
      isplitl [H8]; · iapply own_unread c harg9; iexact H8
      isplitl [H9]; · iapply own_unread c harg10; iexact H9
      isplitl [H10]; · iapply own_unread c harg11; iexact H10
      isplitl [H11]; · iapply own_unread c harg12; iexact H11
      isplitl [H12]; · iapply own_unread c harg13; iexact H12
      isplitl [H13]; · iapply own_unread c harg14; iexact H13
      isplitl [H14]; · iapply own_unread c harg15; iexact H14
      isplitl [H15]; · iapply own_unread c harg16; iexact H15
      iapply own_unread c harg17; iexact H16
    isplitl [H17]; · iexists _; iexact H17
    isplitl [H18]; · iexists _; iexact H18
    iexists _; iexact HS0
end Cert.KernelIdeal.Hand
end
-- ==== Proof.KI.Frame.lean ====
import proofs.«401436_j25331717111921_1_alg».proof.Proof.KI.FrameKit
import proofs.«401436_j25331717111921_1_alg».proof.Proof.KI.Runs
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
variable (m : (ℓ : Loc nD τ sig) → Buf (Elt F) ℓ) (ρ : Dev nD → PrngReg)
section Cases
variable (c : Dev nD) (i : grid0.Coords)
  (arg1 : Memref sig .tc .vmem S1x102400 .f32) (harg1 : arg1.IsWhole) (arg2 : Memref sig .tc .vmem S1x102400 .f32) (harg2 : arg2.IsWhole)
  (arg3 : Memref sig .tc .vmem S1x102400 .f32) (harg3 : arg3.IsWhole) (arg4 : Memref sig .tc .vmem S1x102400 .f32) (harg4 : arg4.IsWhole)
  (arg5 : Memref sig .tc .vmem S1x102400 .f32) (harg5 : arg5.IsWhole) (arg6 : Memref sig .tc .vmem S1x102400 .f32) (harg6 : arg6.IsWhole)
  (arg7 : Memref sig .tc .vmem S1x102400 .f32) (harg7 : arg7.IsWhole) (arg8 : Memref sig .tc .vmem S1x102400 .f32) (harg8 : arg8.IsWhole)
  (arg9 : Memref sig .tc .vmem S1x102400 .f32) (harg9 : arg9.IsWhole) (arg10 : Memref sig .tc .vmem S1x102400 .f32) (harg10 : arg10.IsWhole)
  (arg11 : Memref sig .tc .vmem S1x102400 .f32) (harg11 : arg11.IsWhole) (arg12 : Memref sig .tc .vmem S1x102400 .f32) (harg12 : arg12.IsWhole)
  (arg13 : Memref sig .tc .vmem S1x102400 .f32) (harg13 : arg13.IsWhole) (arg14 : Memref sig .tc .vmem S1x102400 .f32) (harg14 : arg14.IsWhole)
  (arg15 : Memref sig .tc .vmem S1x102400 .f32) (harg15 : arg15.IsWhole) (arg16 : Memref sig .tc .vmem S1x102400 .f32) (harg16 : arg16.IsWhole)
  (arg17 : Memref sig .tc .vmem S1x102400 .f32) (harg17 : arg17.IsWhole) (arg18 : Memref sig .tc .vmem S1x102400 .f32) (harg18 : arg18.IsWhole)
  (arg19 : Memref sig .tc .vmem S1x1 .f32) (harg19 : arg19.IsWhole) (arg20 : Memref sig .tc .vmem S1x1 .f32) (harg20 : arg20.IsWhole)
  (x0 x1 x2 x3 x4 x5 x6 x7 x8 x9 x10 x11 x12 x13 x14 x15 x16 : Vec F S1x102400 .f32) (xs0 : Vec F S1x1 .f32)
local notation "𝑟[" f ", " h0 ", " h1 "]" => f c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 h0 h1 x0 x1 x2 x3 x4 x5 x6 x7 x8 x9 x10 x11 x12 x13 x14 x15 x16
theorem cover0_A_17 (hc0 : cond0_0 i) (hc1 : ¬cond0_1 i) (y : S1x102400.Idx) : ∃ pc ∈ (𝑟[kernelRun0_A, hc0, hc1]).1, y ∈ pc.1.set :=
  View.cover_of_tiledL (𝑟[kernelRun0_A, hc0, hc1]).1 S1x102400.size (by sl_kernel_rfl) y
def out0_A_17 (hc0 : cond0_0 i) (hc1 : ¬cond0_1 i) : Vec F S1x102400 .f32 :=
  VO0_17.read (Elt F) (VO0_17.writes (Elt F) VO0_17.junk (𝑟[kernelRun0_A, hc0, hc1]).1)
theorem scover0_A_0 (hc0 : cond0_0 i) (hc1 : ¬cond0_1 i) (y : S1x1.Idx) : ∃ pc ∈ (𝑟[kernelRun0_A, hc0, hc1]).2.2.1, y ∈ pc.1.set :=
  View.cover_of_tiledL (𝑟[kernelRun0_A, hc0, hc1]).2.2.1 S1x1.size (by sl_kernel_rfl) y
def sout0_A_0 (hc0 : cond0_0 i) (hc1 : ¬cond0_1 i) : Vec F S1x1 .f32 :=
  VS0_0.read (Elt F) (VS0_0.writes (Elt F) VS0_0.junk (𝑟[kernelRun0_A, hc0, hc1]).2.2.1)
theorem cover0_B_17 (hc0 : ¬cond0_0 i) (hc1 : ¬cond0_1 i) (y : S1x102400.Idx) : ∃ pc ∈ (𝑟[kernelRun0_B, hc0, hc1] xs0).1, y ∈ pc.1.set :=
  View.cover_of_tiledL (𝑟[kernelRun0_B, hc0, hc1] xs0).1 S1x102400.size (by sl_kernel_rfl) y
def out0_B_17 (hc0 : ¬cond0_0 i) (hc1 : ¬cond0_1 i) : Vec F S1x102400 .f32 :=
  VO0_17.read (Elt F) (VO0_17.writes (Elt F) VO0_17.junk (𝑟[kernelRun0_B, hc0, hc1] xs0).1)
theorem scover0_B_0 (hc0 : ¬cond0_0 i) (hc1 : ¬cond0_1 i) (y : S1x1.Idx) : ∃ pc ∈ (𝑟[kernelRun0_B, hc0, hc1] xs0).2.2.1, y ∈ pc.1.set :=
  View.cover_of_tiledL (𝑟[kernelRun0_B, hc0, hc1] xs0).2.2.1 S1x1.size (by sl_kernel_rfl) y
def sout0_B_0 (hc0 : ¬cond0_0 i) (hc1 : ¬cond0_1 i) : Vec F S1x1 .f32 :=
  VS0_0.read (Elt F) (VS0_0.writes (Elt F) VS0_0.junk (𝑟[kernelRun0_B, hc0, hc1] xs0).2.2.1)
theorem cover0_C_17 (hc0 : ¬cond0_0 i) (hc1 : cond0_1 i) (y : S1x102400.Idx) : ∃ pc ∈ (𝑟[kernelRun0_C, hc0, hc1] xs0).1, y ∈ pc.1.set :=
  View.cover_of_tiledL (𝑟[kernelRun0_C, hc0, hc1] xs0).1 S1x102400.size (by sl_kernel_rfl) y
def out0_C_17 (hc0 : ¬cond0_0 i) (hc1 : cond0_1 i) : Vec F S1x102400 .f32 :=
  VO0_17.read (Elt F) (VO0_17.writes (Elt F) VO0_17.junk (𝑟[kernelRun0_C, hc0, hc1] xs0).1)
theorem cover0_C_18 (hc0 : ¬cond0_0 i) (hc1 : cond0_1 i) (y : S1x1.Idx) : ∃ pc ∈ (𝑟[kernelRun0_C, hc0, hc1] xs0).2.1, y ∈ pc.1.set :=
  View.cover_of_tiledL (𝑟[kernelRun0_C, hc0, hc1] xs0).2.1 S1x1.size (by sl_kernel_rfl) y
def out0_C_18 (hc0 : ¬cond0_0 i) (hc1 : cond0_1 i) : Vec F S1x1 .f32 :=
  VO0_18.read (Elt F) (VO0_18.writes (Elt F) VO0_18.junk (𝑟[kernelRun0_C, hc0, hc1] xs0).2.1)
theorem scover0_C_0 (hc0 : ¬cond0_0 i) (hc1 : cond0_1 i) (y : S1x1.Idx) : ∃ pc ∈ (𝑟[kernelRun0_C, hc0, hc1] xs0).2.2.1, y ∈ pc.1.set :=
  View.cover_of_tiledL (𝑟[kernelRun0_C, hc0, hc1] xs0).2.2.1 S1x1.size (by sl_kernel_rfl) y
def sout0_C_0 (hc0 : ¬cond0_0 i) (hc1 : cond0_1 i) : Vec F S1x1 .f32 :=
  VS0_0.read (Elt F) (VS0_0.writes (Elt F) VS0_0.junk (𝑟[kernelRun0_C, hc0, hc1] xs0).2.2.1)
end Cases
def out0_idle_18 : Vec F S1x1 .f32 := VO0_18.read (Elt F) VO0_18.junk
local notation:max f:max "⟪" c ", " t "⟫" => f c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
def outsAt0 (c : Dev nD) : (n : ℕ) → n < cfg0.N → Vec F S1x102400 .f32 × Vec F S1x1 .f32 × Vec F S1x1 .f32
  | 0, hn =>
    (out0_A_17⟪c, (⟨0, hn⟩ : Fin cfg0.N)⟫ ((hcond0_0 ⟨0, hn⟩).mpr rfl) (fun h => absurd ((hcond0_1 ⟨0, hn⟩).mp h) (Nat.zero_ne_add_one 18)),
     out0_idle_18,
     sout0_A_0⟪c, (⟨0, hn⟩ : Fin cfg0.N)⟫ ((hcond0_0 ⟨0, hn⟩).mpr rfl) (fun h => absurd ((hcond0_1 ⟨0, hn⟩).mp h) (Nat.zero_ne_add_one 18)))
  | n + 1, hn =>
    if h1 : n + 1 = 19 then
      (out0_C_17⟪c, (⟨n + 1, hn⟩ : Fin cfg0.N)⟫ (outsAt0 c n (Nat.lt_of_succ_lt hn)).2.2 (fun h => Nat.succ_ne_zero n ((hcond0_0 ⟨n + 1, hn⟩).mp h)) ((hcond0_1 ⟨n + 1, hn⟩).mpr h1),
       out0_C_18⟪c, (⟨n + 1, hn⟩ : Fin cfg0.N)⟫ (outsAt0 c n (Nat.lt_of_succ_lt hn)).2.2 (fun h => Nat.succ_ne_zero n ((hcond0_0 ⟨n + 1, hn⟩).mp h)) ((hcond0_1 ⟨n + 1, hn⟩).mpr h1),
       sout0_C_0⟪c, (⟨n + 1, hn⟩ : Fin cfg0.N)⟫ (outsAt0 c n (Nat.lt_of_succ_lt hn)).2.2 (fun h => Nat.succ_ne_zero n ((hcond0_0 ⟨n + 1, hn⟩).mp h)) ((hcond0_1 ⟨n + 1, hn⟩).mpr h1))
    else
      (out0_B_17⟪c, (⟨n + 1, hn⟩ : Fin cfg0.N)⟫ (outsAt0 c n (Nat.lt_of_succ_lt hn)).2.2 (fun h => Nat.succ_ne_zero n ((hcond0_0 ⟨n + 1, hn⟩).mp h)) (fun h => h1 ((hcond0_1 ⟨n + 1, hn⟩).mp h)),
       out0_idle_18,
       sout0_B_0⟪c, (⟨n + 1, hn⟩ : Fin cfg0.N)⟫ (outsAt0 c n (Nat.lt_of_succ_lt hn)).2.2 (fun h => Nat.succ_ne_zero n ((hcond0_0 ⟨n + 1, hn⟩).mp h)) (fun h => h1 ((hcond0_1 ⟨n + 1, hn⟩).mp h)))
theorem outsAt0_A (c : Dev nD) (t : Fin cfg0.N) (h0 : t.val = 0) (h1 : t.val ≠ 19) :
    outsAt0 m c t.val t.isLt
      = (out0_A_17⟪c, t⟫ ((hcond0_0 t).mpr h0) (fun h => h1 ((hcond0_1 t).mp h)), out0_idle_18,
         sout0_A_0⟪c, t⟫ ((hcond0_0 t).mpr h0) (fun h => h1 ((hcond0_1 t).mp h))) := by
  obtain ⟨n, hn⟩ := t
  cases n with
  | zero => rfl
  | succ n => exact absurd h0 (Nat.succ_ne_zero n)
theorem outsAt0_B (c : Dev nD) (t : Fin cfg0.N) (h0 : t.val ≠ 0) (h1 : t.val ≠ 19) :
    outsAt0 m c t.val t.isLt
      = (out0_B_17⟪c, t⟫ (outsAt0 m c (t.val - 1) (Nat.lt_of_le_of_lt (Nat.sub_le _ _) t.isLt)).2.2 (fun h => h0 ((hcond0_0 t).mp h)) (fun h => h1 ((hcond0_1 t).mp h)),
         out0_idle_18,
         sout0_B_0⟪c, t⟫ (outsAt0 m c (t.val - 1) (Nat.lt_of_le_of_lt (Nat.sub_le _ _) t.isLt)).2.2 (fun h => h0 ((hcond0_0 t).mp h)) (fun h => h1 ((hcond0_1 t).mp h))) := by
  obtain ⟨n, hn⟩ := t
  cases n with
  | zero => exact absurd rfl h0
  | succ n => exact (dif_neg h1).trans rfl
theorem outsAt0_C (c : Dev nD) (t : Fin cfg0.N) (h0 : t.val ≠ 0) (h1 : t.val = 19) :
    outsAt0 m c t.val t.isLt
      = (out0_C_17⟪c, t⟫ (outsAt0 m c (t.val - 1) (Nat.lt_of_le_of_lt (Nat.sub_le _ _) t.isLt)).2.2 (fun h => h0 ((hcond0_0 t).mp h)) ((hcond0_1 t).mpr h1),
         out0_C_18⟪c, t⟫ (outsAt0 m c (t.val - 1) (Nat.lt_of_le_of_lt (Nat.sub_le _ _) t.isLt)).2.2 (fun h => h0 ((hcond0_0 t).mp h)) ((hcond0_1 t).mpr h1),
         sout0_C_0⟪c, t⟫ (outsAt0 m c (t.val - 1) (Nat.lt_of_le_of_lt (Nat.sub_le _ _) t.isLt)).2.2 (fun h => h0 ((hcond0_0 t).mp h)) ((hcond0_1 t).mpr h1)) := by
  obtain ⟨n, hn⟩ := t
  cases n with
  | zero => exact absurd rfl h0
  | succ n => exact (dif_pos h1).trans rfl
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))
theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => (outsAt0 m c t.val t.isLt).1
    | ⟨18, _⟩ => (outsAt0 m c t.val t.isLt).2.1
    | ⟨_ + 19, h⟩ => absurd h (Nat.not_lt.2 (Nat.le_add_left _ _))
  Φ t := PhiS m c t.val (Nat.le_of_lt_succ t.isLt)
  q _ := fullShare
  owed _ := 0
theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = (outsAt0 m c t.val t.isLt).1 := by dsimp only [dats]
theorem after0_18 (c : Dev nD) (t : Fin cfg0.N) : (dats m 0 c).after 18 t = (outsAt0 m c t.val t.isLt).2.1 := by dsimp only [dats]
theorem before0_0 (c : Dev nD) (t : Fin cfg0.N) (d) : (dats m 0 c).before 0 t d = iblk m c 0 t := before0_0_of m (dats m 0 c) (A_eq m c 0) t d
theorem before0_1 (c : Dev nD) (t : Fin cfg0.N) (d) : (dats m 0 c).before 1 t d = iblk m c 1 t := before0_1_of m (dats m 0 c) (A_eq m c 1) t d
theorem before0_2 (c : Dev nD) (t : Fin cfg0.N) (d) : (dats m 0 c).before 2 t d = iblk m c 2 t := before0_2_of m (dats m 0 c) (A_eq m c 2) t d
theorem before0_3 (c : Dev nD) (t : Fin cfg0.N) (d) : (dats m 0 c).before 3 t d = iblk m c 3 t := before0_3_of m (dats m 0 c) (A_eq m c 3) t d
theorem before0_4 (c : Dev nD) (t : Fin cfg0.N) (d) : (dats m 0 c).before 4 t d = iblk m c 4 t := before0_4_of m (dats m 0 c) (A_eq m c 4) t d
theorem before0_5 (c : Dev nD) (t : Fin cfg0.N) (d) : (dats m 0 c).before 5 t d = iblk m c 5 t := before0_5_of m (dats m 0 c) (A_eq m c 5) t d
theorem before0_6 (c : Dev nD) (t : Fin cfg0.N) (d) : (dats m 0 c).before 6 t d = iblk m c 6 t := before0_6_of m (dats m 0 c) (A_eq m c 6) t d
theorem before0_7 (c : Dev nD) (t : Fin cfg0.N) (d) : (dats m 0 c).before 7 t d = iblk m c 7 t := before0_7_of m (dats m 0 c) (A_eq m c 7) t d
theorem before0_8 (c : Dev nD) (t : Fin cfg0.N) (d) : (dats m 0 c).before 8 t d = iblk m c 8 t := before0_8_of m (dats m 0 c) (A_eq m c 8) t d
theorem before0_9 (c : Dev nD) (t : Fin cfg0.N) (d) : (dats m 0 c).before 9 t d = iblk m c 9 t := before0_9_of m (dats m 0 c) (A_eq m c 9) t d
theorem before0_10 (c : Dev nD) (t : Fin cfg0.N) (d) : (dats m 0 c).before 10 t d = iblk m c 10 t := before0_10_of m (dats m 0 c) (A_eq m c 10) t d
theorem before0_11 (c : Dev nD) (t : Fin cfg0.N) (d) : (dats m 0 c).before 11 t d = iblk m c 11 t := before0_11_of m (dats m 0 c) (A_eq m c 11) t d
theorem before0_12 (c : Dev nD) (t : Fin cfg0.N) (d) : (dats m 0 c).before 12 t d = iblk m c 12 t := before0_12_of m (dats m 0 c) (A_eq m c 12) t d
theorem before0_13 (c : Dev nD) (t : Fin cfg0.N) (d) : (dats m 0 c).before 13 t d = iblk m c 13 t := before0_13_of m (dats m 0 c) (A_eq m c 13) t d
theorem before0_14 (c : Dev nD) (t : Fin cfg0.N) (d) : (dats m 0 c).before 14 t d = iblk m c 14 t := before0_14_of m (dats m 0 c) (A_eq m c 14) t d
theorem before0_15 (c : Dev nD) (t : Fin cfg0.N) (d) : (dats m 0 c).before 15 t d = iblk m c 15 t := before0_15_of m (dats m 0 c) (A_eq m c 15) t d
theorem before0_16 (c : Dev nD) (t : Fin cfg0.N) (d) : (dats m 0 c).before 16 t d = iblk m c 16 t := before0_16_of m (dats m 0 c) (A_eq m c 16) t d
end Cert.KernelIdeal.Hand
end
-- ==== Proof.KI.FrameRun.lean ====
import proofs.«401436_j25331717111921_1_alg».proof.Proof.KI.Frame
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen
variable {F : FTy → Type} [FloatOps F]
local notation "𝕄" => MT nD τ sig Unit (Elt F) ℕ (UR sig nD τ) ℕ
variable (m : (ℓ : Loc nD τ sig) → Buf (Elt F) ℓ) (ρ : Dev nD → PrngReg)
local notation:max f:max "⟪" c ", " t "⟫" => f c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
local notation:max r:max "⟪⟪" c ", " t ", " h0 ", " h1 "⟫⟫" => r c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) h0 h1 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t)
set_option maxHeartbeats 16000000 in
theorem body_obligation (c : Dev nD) : BodyObligation (dats (F := F) m 0 c) (defs₀ (F := F)) Variants.none () Set.univ := fun t => by
  rw [bigSep_W0, bigSep_W0]
  dsimp only
  simp only [before0_0, before0_1, before0_2, before0_3, before0_4, before0_5, before0_6, before0_7, before0_8, before0_9, before0_10, before0_11, before0_12, before0_13, before0_14, before0_15, before0_16]
  rw [after0_0, after0_1, after0_2, after0_3, after0_4, after0_5, after0_6, after0_7, after0_8, after0_9, after0_10, after0_11, after0_12, after0_13, after0_14, after0_15, after0_16, after0_17]
  rw [show (dats m 0 c).owesAt () t.succ = (dats m 0 c).owesAt () t.castSucc from rfl]
  rw [show (dats m 0 c).Φ t.succ = PhiS m c (t.val + 1) t.isLt from rfl, PhiS_succ]
  have hN : t.val < 20 := lt_of_lt_of_eq t.isLt (show cfg0.N = 20 from N_0)
  by_cases h0 : t.val = 0
  ·
    have h1 : t.val ≠ 19 := by omega
    simp only [idleAt0_18_A t ((hcond0_0 t).mpr h0) (fun h => h1 ((hcond0_1 t).mp h)), noFlush0_18_A t ((hcond0_0 t).mpr h0) (fun h => h1 ((hcond0_1 t).mp h))]
    rw [outsAt0_A m c t h0 h1]
    unfold out0_A_17 sout0_A_0; (try dsimp only)
    rw [PhiS_castSucc m c t, PhiS_zero m c _ _ h0, PhiA0_eq]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    iapply ((kernelRun0_A⟪⟪c, t, (hcond0_0 t).mpr h0, fun h => h1 ((hcond0_1 t).mp h)⟫⟫).2.2.2 _ Set.univ _)
    unfold ins
    iframe H0 H1 H2 H3 H4 H5 H6 H7 H8 H9 H10 H11 H12 H13 H14 H15 H16
    isplitl [H17]; · iexists _; iexact H17
    isplitl [H18]; · iexact H18
    isplitl [HS0]; · iexact HS0
    iintro ⟨⟨H0, H1, H2, H3, H4, H5, H6, H7, H8, H9, H10, H11, H12, H13, H14, H15, H16⟩, ⟨%e17, H17⟩, H18, ⟨%es0, HS0⟩⟩
    isplitl [HS0 Hg]
    · isplitl [HS0]
      · unfold owns; iexists _; isplitr
        swap; · iexact HS0
        ipureintro; exact View.read_writes_of_cover _ _ _ _ _ (scover0_A_0⟪c, t⟫ _ _)
      iexact Hg
    isplitl [Ho]; · iexact Ho
    iframe H0 H1 H2 H3 H4 H5 H6 H7 H8 H9 H10 H11 H12 H13 H14 H15 H16
    isplitl [H17]
    · unfold owns; iexists _; isplitr
      swap; · iexact H17
      ipureintro; exact View.read_writes_of_cover _ _ _ _ _ (cover0_A_17⟪c, t⟫ _ _)
    iexists _; iexact H18
  · by_cases h1 : t.val = 19
    ·
      simp only [liveAt0_18_C t (fun h => h0 ((hcond0_0 t).mp h)) ((hcond0_1 t).mpr h1)]
      rw [after0_18]
      rw [outsAt0_C m c t h0 h1]
      unfold out0_C_17 out0_C_18 sout0_C_0; (try dsimp only)
      rw [PhiS_castSucc m c t, PhiS_pos m c _ _ h0]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply ((kernelRun0_C⟪⟪c, t, fun h => h0 ((hcond0_0 t).mp h), (hcond0_1 t).mpr h1⟫⟫ _).2.2.2 Set.univ _)
      unfold ins
      iframe H0 H1 H2 H3 H4 H5 H6 H7 H8 H9 H10 H11 H12 H13 H14 H15 H16
      isplitl [H17]; · iexists _; iexact H17
      isplitl [H18]; · iexists _; iexact H18
      isplitl [HS0]; · iexact HS0
      iintro ⟨⟨H0, H1, H2, H3, H4, H5, H6, H7, H8, H9, H10, H11, H12, H13, H14, H15, H16⟩, ⟨%e17, H17⟩, ⟨%e18, H18⟩, ⟨%es0, HS0⟩⟩
      isplitl [HS0 Hg]
      · isplitl [HS0]
        · unfold owns; iexists _; isplitr
          swap; · iexact HS0
          ipureintro; exact View.read_writes_of_cover _ _ _ _ _ (scover0_C_0⟪c, t⟫ _ _ _)
        iexact Hg
      isplitl [Ho]; · iexact Ho
      iframe H0 H1 H2 H3 H4 H5 H6 H7 H8 H9 H10 H11 H12 H13 H14 H15 H16
      isplitl [H17]
      · unfold owns; iexists _; isplitr
        swap; · iexact H17
        ipureintro; exact View.read_writes_of_cover _ _ _ _ _ (cover0_C_17⟪c, t⟫ _ _ _)
      unfold owns; iexists _; isplitr
      swap; · iexact H18
      ipureintro; exact View.read_writes_of_cover _ _ _ _ _ (cover0_C_18⟪c, t⟫ _ _ _)
    ·
      simp only [idleAt0_18_B t (fun h => h0 ((hcond0_0 t).mp h)) (fun h => h1 ((hcond0_1 t).mp h)), noFlush0_18_B t (fun h => h0 ((hcond0_0 t).mp h)) (fun h => h1 ((hcond0_1 t).mp h))]
      rw [outsAt0_B m c t h0 h1]
      unfold out0_B_17 sout0_B_0; (try dsimp only)
      rw [PhiS_castSucc m c t, PhiS_pos m c _ _ h0]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply ((kernelRun0_B⟪⟪c, t, fun h => h0 ((hcond0_0 t).mp h), fun h => h1 ((hcond0_1 t).mp h)⟫⟫ _).2.2.2 _ Set.univ _)
      unfold ins
      iframe H0 H1 H2 H3 H4 H5 H6 H7 H8 H9 H10 H11 H12 H13 H14 H15 H16
      isplitl [H17]; · iexists _; iexact H17
      isplitl [H18]; · iexact H18
      isplitl [HS0]; · iexact HS0
      iintro ⟨⟨H0, H1, H2, H3, H4, H5, H6, H7, H8, H9, H10, H11, H12, H13, H14, H15, H16⟩, ⟨%e17, H17⟩, H18, ⟨%es0, HS0⟩⟩
      isplitl [HS0 Hg]
      · isplitl [HS0]
        · unfold owns; iexists _; isplitr
          swap; · iexact HS0
          ipureintro; exact View.read_writes_of_cover _ _ _ _ _ (scover0_B_0⟪c, t⟫ _ _ _)
        iexact Hg
      isplitl [Ho]; · iexact Ho
      iframe H0 H1 H2 H3 H4 H5 H6 H7 H8 H9 H10 H11 H12 H13 H14 H15 H16
      isplitl [H17]
      · unfold owns; iexists _; isplitr
        swap; · iexact H17
        ipureintro; exact View.read_writes_of_cover _ _ _ _ _ (cover0_B_17⟪c, t⟫ _ _ _)
      iexists _; iexact H18
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg
theorem hout (c : Dev nD) : (dats m 0 c).Φ (Fin.last cfg0.N) ⊢ Pipeline.ΦA spec0 c :=
  Phi_out m c _ (by rw [Fin.val_last]; have : cfg0.N = 20 := N_0; omega)
set_option backward.isDefEq.respectTransparency.types false in
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)
theorem frame : θ_run defs (onTc (τ := τ) (main (F := F))) ⟨m, fun _ => 0, ρ⟩ (ArgsKept m) :=
  frame_of m ρ (dats m) (run_main m ρ)
end Cert.KernelIdeal.Hand
end
-- ==== Proof.Spec.lean ====
import Idealize.ShloMosaic.PureOps.Ideal
import Idealize.ShloMosaic.PureOps.Ideal.Laws
import Mathlib.Algebra.BigOperators.Group.Finset.Basic
import Mathlib.Data.Fintype.BigOperators
noncomputable section
namespace Cert.Spec
open Idealize.ShloMosaic
abbrev E : Type := Ideal .f32
def one : E := FloatOps.ofBits (F := Ideal) .f32 0x3F800000#32
def half : E := FloatOps.ofBits (F := Ideal) .f32 0x3F000000#32
def bil (v00 v10 v01 v11 dx dy : E) : E :=
  FloatOps.addf (FloatOps.addf (FloatOps.addf
    (FloatOps.mulf (FloatOps.mulf (FloatOps.subf one dx) (FloatOps.subf one dy)) v00)
    (FloatOps.mulf (FloatOps.mulf dx (FloatOps.subf one dy)) v10))
    (FloatOps.mulf (FloatOps.mulf (FloatOps.subf one dx) dy) v01))
    (FloatOps.mulf (FloatOps.mulf dx dy) v11)
def predPt (x : Fin 17 → E) : E :=
  FloatOps.subf
    (FloatOps.addf (FloatOps.addf (x 12) (bil (x 0) (x 1) (x 2) (x 3) (x 4) (x 5))) (x 14))
    (FloatOps.addf (FloatOps.addf (x 13) (bil (x 6) (x 7) (x 8) (x 9) (x 10) (x 11))) (x 14))
def huber (d : E) : E :=
  Scalar.select (FloatOps.cmpf .olt (FloatOps.absf d) one)
    (FloatOps.mulf (FloatOps.mulf half d) d) (FloatOps.subf (FloatOps.absf d) half)
def lossPt (x : Fin 17 → E) : E :=
  FloatOps.mulf (huber (FloatOps.subf (predPt x) (x 15))) (x 16)
theorem lossPt_of_weight_zero (x : Fin 17 → E) (h : x 16 = 0) : lossPt x = 0 := by
  unfold lossPt; rw [h]; exact mul_zero _
def accLoss (w : Fin 2048000 → E) : (n : Nat) → n ≤ 20 → E
  | 0, _ => 0
  | n + 1, h => accLoss w n (Nat.le_of_succ_le h) + ∑ l : Fin 102400, w ⟨n * 102400 + l.val, by
      have := l.isLt; have : n < 20 := h; omega⟩
def ext (w : Fin 2048000 → E) (i : Nat) : E := if h : i < 2048000 then w ⟨i, h⟩ else 0
theorem ext_of_lt (w : Fin 2048000 → E) (i : Nat) (h : i < 2048000) : ext w i = w ⟨i, h⟩ := dif_pos h
theorem block_sum (w : Fin 2048000 → E) (n : Nat) (hn : n < 20) :
    (∑ l : Fin 102400, w ⟨n * 102400 + l.val, by have := l.isLt; omega⟩)
      = ∑ l ∈ Finset.range 102400, ext w (n * 102400 + l) := by
  rw [← Fin.sum_univ_eq_sum_range (fun l => ext w (n * 102400 + l)) 102400]
  refine Finset.sum_congr rfl fun l _ => ?_
  exact (ext_of_lt w _ _).symm
theorem accLoss_eq_range (w : Fin 2048000 → E) :
    ∀ (n : Nat) (h : n ≤ 20), accLoss w n h = ∑ i ∈ Finset.range (n * 102400), ext w i
  | 0, _ => by rw [accLoss, Nat.zero_mul, Finset.range_zero, Finset.sum_empty]
  | n + 1, h => by
      rw [accLoss, accLoss_eq_range w n (Nat.le_of_succ_le h), block_sum w n h, Nat.succ_mul,
        Finset.sum_range_add]
theorem accLoss_eq_sum (w : Fin 2048000 → E) (v : Fin 2000000 → E)
    (hv : ∀ j : Fin 2000000, w ⟨j.val, by have := j.isLt; omega⟩ = v j)
    (hz : ∀ j : Fin 2048000, 2000000 ≤ j.val → w j = 0) :
    accLoss w 20 (Nat.le_refl _) = ∑ j : Fin 2000000, v j := by
  rw [accLoss_eq_range w 20 (Nat.le_refl _)]
  have e : 20 * 102400 = 2000000 + 48000 := by norm_num
  rw [e, Finset.sum_range_add]
  have tail : ∑ x ∈ Finset.range 48000, ext w (2000000 + x) = 0 := by
    refine Finset.sum_eq_zero fun x hx => ?_
    have hx' : x < 48000 := Finset.mem_range.mp hx
    have hlt : 2000000 + x < 2048000 := by omega
    rw [ext_of_lt w _ hlt]
    exact hz _ (Nat.le_add_right _ _)
  rw [tail, add_zero, ← Fin.sum_univ_eq_sum_range (ext w) 2000000]
  refine Finset.sum_congr rfl fun j _ => ?_
  have hj : j.val < 2048000 := by have := j.isLt; omega
  rw [ext_of_lt w _ hj]
  exact hv j
end Cert.Spec
end
-- ==== Proof.KI.ValuePay.lean ====
import proofs.«401436_j25331717111921_1_alg».proof.Proof.Gen.KernelIdeal.Skeleton
import proofs.«401436_j25331717111921_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.HandValue

open Idealize.ShloMosaic Idealize.ShloMosaic.ValueIdx Idealize.SL.Sem
open Cert.KernelIdeal Cert.KernelIdeal.Gen

variable {F : FTy → Type} [FloatOps F]

/-- The block the body stores into the prediction window, from the loaded blocks. -/
abbrev predBlk (x0 x1 x2 x3 x4 x5 x6 x7 x8 x9 x10 x11 x12 x13 x14 : Vec F S1x102400 .f32) : FVec F S1x102400 .f32 :=
  k0_pay1 (k0_pay6 (k0_pay4 x0 x1 x2 x3 x4 x5) x12 x14) (k0_pay7 (k0_pay5 x6) x7 x8 x9 x10 x11 x13) (k0_pay8 x14)

/-- The accumulator's new content, from the loaded blocks and its old content `s`. -/
abbrev accBlk (x0 x1 x2 x3 x4 x5 x6 x7 x8 x9 x10 x11 x12 x13 x14 x15 x16 : Vec F S1x102400 .f32) (s : Vec F S1x1 .f32) : FVec F S1x1 .f32 :=
  k0_pay2 (k0_pay6 (k0_pay4 x0 x1 x2 x3 x4 x5) x12 x14) (k0_pay7 (k0_pay5 x6) x7 x8 x9 x10 x11 x13) (k0_pay8 x14) x15 x16 s

variable (x0 x1 x2 x3 x4 x5 x6 x7 x8 x9 x10 x11 x12 x13 x14 x15 x16 : Vec Ideal S1x102400 .f32)

/-- The seventeen blocks' entries at lane `l`. -/
def lanePt (l : Fin 102400) : Fin 17 → Spec.E :=
  ![x0 (ix2 0 l), x1 (ix2 0 l), x2 (ix2 0 l), x3 (ix2 0 l), x4 (ix2 0 l), x5 (ix2 0 l), x6 (ix2 0 l), x7 (ix2 0 l), x8 (ix2 0 l), x9 (ix2 0 l), x10 (ix2 0 l), x11 (ix2 0 l), x12 (ix2 0 l), x13 (ix2 0 l), x14 (ix2 0 l), x15 (ix2 0 l), x16 (ix2 0 l)]

/-- Every operation of the chain acts lane by lane, and a same-shape cast is the identity. -/
theorem predBlk_apply (l : Fin 102400) : predBlk x0 x1 x2 x3 x4 x5 x6 x7 x8 x9 x10 x11 x12 x13 x14 (ix2 0 l) = Spec.predPt (lanePt x0 x1 x2 x3 x4 x5 x6 x7 x8 x9 x10 x11 x12 x13 x14 x15 x16 l) := by
  unfold predBlk k0_pay1 k0_pay6 k0_pay7 k0_pay4 k0_pay5 k0_pay8
  simp only [shapeCast_self]
  rfl

/-- The lane reduction reads lane `k` of the one row. -/
theorem lift_lane (b : Fin 1) (k : Fin 102400) : reduces_S1x102400_S1.lift (ix1 b) k = ix2 0 k := by
  obtain rfl : b = 0 := Subsingleton.elim _ _
  funext a
  match a with
  | ⟨0, _⟩ => rfl
  | ⟨1, _⟩ => rfl

/-- The lane reduction is the sum over the lanes, and its summand at a lane is the one-pick loss there. -/
theorem accBlk_apply (s : Vec Ideal S1x1 .f32) (a b : Fin 1) :
    accBlk x0 x1 x2 x3 x4 x5 x6 x7 x8 x9 x10 x11 x12 x13 x14 x15 x16 s (ix2 a b) = (s (ix2 a b) : Spec.E) + ∑ l : Fin 102400, Spec.lossPt (lanePt x0 x1 x2 x3 x4 x5 x6 x7 x8 x9 x10 x11 x12 x13 x14 x15 x16 l) := by
  unfold accBlk k0_pay2
  simp only [shapeCast_self]
  refine (addf_apply _ _ _).trans (congrArg (s (ix2 a b) + ·) ?_)
  refine (shapeCast_a_1a_apply _ shapeCasts_S1_S1x1 a b).trans ?_
  refine (Ideal.multiReduction_add_single _ _ reduces_S1x102400_S1 _ _ (ix1 b)).trans ?_
  refine Finset.sum_congr rfl fun l _ => (congrArg _ (lift_lane b l)).trans ?_
  rw [Spec.lossPt, ← predBlk_apply x0 x1 x2 x3 x4 x5 x6 x7 x8 x9 x10 x11 x12 x13 x14 x15 x16 l]
  rfl

end Cert.KernelIdeal.HandValue

end
-- ==== Proof.KI.ValuePieces.lean ====
import proofs.«401436_j25331717111921_1_alg».proof.Proof.KI.Frame
import proofs.«401436_j25331717111921_1_alg».proof.Proof.KI.ValuePay

set_option maxRecDepth 16384

noncomputable section

namespace Cert.KernelIdeal.HandValue

open Idealize.ShloMosaic Idealize.ShloMosaic.TcCoe Idealize.ShloMosaic.Tactic Idealize.SL.Sem
open Cert.KernelIdeal Cert.KernelIdeal.Gen Cert.KernelIdeal.Hand

variable {F : FTy → Type} [FloatOps F]

theorem hz : (![0, 0] : Fin 2 → Nat) = fun _ => 0 := funext fun a => by fin_cases a <;> rfl

/-- Stores into a buffer the last of which is of the whole block leave that store's payload, whatever came before. -/
theorem read_last {S : Shape} (V : View sig .tc .vmem S .f32) {off : Fin S.rank → ℕ} (h : off = fun _ => 0) {inb}
    (f : V.ty.Contents (Elt F)) (w : FVec F S .f32) (L : List (View.Piece (Elt F) S .f32)) :
    V.read (Elt F) (V.writes (Elt F) f (⟨Rect.unit off S.size inb, w⟩ :: L)) = w :=
  (View.read_writes_eq_canon V f _ fun y => ⟨_, List.mem_cons_self, View.mem_set_unit_zero h inb y⟩).trans
    (View.canon_cons_unit_zero h inb w L)

variable {c : Dev nD} {i : grid0.Coords}
  {arg1 arg2 arg3 arg4 arg5 arg6 arg7 arg8 arg9 arg10 arg11 arg12 arg13 arg14 arg15 arg16 arg17 arg18 : Memref sig .tc .vmem S1x102400 .f32} {arg19 arg20 : Memref sig .tc .vmem S1x1 .f32}
  {harg1 : arg1.IsWhole} {harg2 : arg2.IsWhole} {harg3 : arg3.IsWhole} {harg4 : arg4.IsWhole} {harg5 : arg5.IsWhole} {harg6 : arg6.IsWhole} {harg7 : arg7.IsWhole} {harg8 : arg8.IsWhole} {harg9 : arg9.IsWhole} {harg10 : arg10.IsWhole} {harg11 : arg11.IsWhole} {harg12 : arg12.IsWhole} {harg13 : arg13.IsWhole} {harg14 : arg14.IsWhole} {harg15 : arg15.IsWhole} {harg16 : arg16.IsWhole} {harg17 : arg17.IsWhole} {harg18 : arg18.IsWhole} {harg19 : arg19.IsWhole} {harg20 : arg20.IsWhole}
  {x0 x1 x2 x3 x4 x5 x6 x7 x8 x9 x10 x11 x12 x13 x14 x15 x16 : Vec F S1x102400 .f32} {xs0 : Vec F S1x1 .f32}

theorem out17_A (hc0 : cond0_0 i) (hc1 : ¬cond0_1 i) :
    out0_A_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 hc0 hc1 = predBlk x0 x1 x2 x3 x4 x5 x6 x7 x8 x9 x10 x11 x12 x13 x14 := by
  unfold out0_A_17 kernelRun0_A
  dsimp only
  sl_unfold_words
  rw [read_last _ hz]
  simp only [View.readAt_eq_ld, Memref.IsWhole.read_unread, View.ld_unit_zero (S := S1x102400) hz]

/-- The first point's accumulator is the zero it stores, read back, plus the block's loss sum. -/
theorem sout_A (hc0 : cond0_0 i) (hc1 : ¬cond0_1 i) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 hc0 hc1 = accBlk x0 x1 x2 x3 x4 x5 x6 x7 x8 x9 x10 x11 x12 x13 x14 x15 x16 k0_pay3 := by
  unfold sout0_A_0 kernelRun0_A
  dsimp only
  sl_unfold_words
  rw [read_last _ hz]
  rw [View.readCov_unit_zero (S := S1x1) _ hz]
  simp only [View.readAt_eq_ld, Memref.IsWhole.read_unread, View.ld_unit_zero (S := S1x102400) hz]

theorem out17_B (hc0 : ¬cond0_0 i) (hc1 : ¬cond0_1 i) :
    out0_B_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 xs0 hc0 hc1 = predBlk x0 x1 x2 x3 x4 x5 x6 x7 x8 x9 x10 x11 x12 x13 x14 := by
  unfold out0_B_17 kernelRun0_B
  dsimp only
  sl_unfold_words
  rw [read_last _ hz]
  simp only [View.readAt_eq_ld, Memref.IsWhole.read_unread, View.ld_unit_zero (S := S1x102400) hz]

theorem sout_B (hc0 : ¬cond0_0 i) (hc1 : ¬cond0_1 i) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 xs0 hc0 hc1 = accBlk x0 x1 x2 x3 x4 x5 x6 x7 x8 x9 x10 x11 x12 x13 x14 x15 x16 xs0 := by
  unfold sout0_B_0 kernelRun0_B
  dsimp only
  sl_unfold_words
  rw [read_last _ hz]
  simp only [View.readAt_eq_ld, Memref.IsWhole.read_unread, View.ld_unit_zero (S := S1x102400) hz, View.ld_unit_zero (S := S1x1) hz]

theorem out17_C (hc0 : ¬cond0_0 i) (hc1 : cond0_1 i) :
    out0_C_17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 xs0 hc0 hc1 = predBlk x0 x1 x2 x3 x4 x5 x6 x7 x8 x9 x10 x11 x12 x13 x14 := by
  unfold out0_C_17 kernelRun0_C
  dsimp only
  sl_unfold_words
  rw [read_last _ hz]
  simp only [View.readAt_eq_ld, Memref.IsWhole.read_unread, View.ld_unit_zero (S := S1x102400) hz]

theorem sout_C (hc0 : ¬cond0_0 i) (hc1 : cond0_1 i) :
    sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 xs0 hc0 hc1 = accBlk x0 x1 x2 x3 x4 x5 x6 x7 x8 x9 x10 x11 x12 x13 x14 x15 x16 xs0 := by
  unfold sout0_C_0 kernelRun0_C
  dsimp only
  sl_unfold_words
  rw [read_last _ hz]
  simp only [View.readAt_eq_ld, Memref.IsWhole.read_unread, View.ld_unit_zero (S := S1x102400) hz, View.ld_unit_zero (S := S1x1) hz]

/-- The last point copies the accumulator's new contents, read back, into the loss window. -/
theorem out18_C (hc0 : ¬cond0_0 i) (hc1 : cond0_1 i) :
    out0_C_18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 x12 x13 x14 x15 x16 xs0 hc0 hc1 = accBlk x0 x1 x2 x3 x4 x5 x6 x7 x8 x9 x10 x11 x12 x13 x14 x15 x16 xs0 := by
  unfold out0_C_18 kernelRun0_C
  dsimp only
  sl_unfold_words
  rw [read_last _ hz]
  rw [View.readCov_unit_zero (S := S1x1) _ hz]
  simp only [View.readAt_eq_ld, Memref.IsWhole.read_unread, View.ld_unit_zero (S := S1x102400) hz, View.ld_unit_zero (S := S1x1) hz]

end Cert.KernelIdeal.HandValue

end
-- ==== Proof.KI.Pts.lean ====
import proofs.«401436_j25331717111921_1_alg».proof.Proof.KI.Kit
import proofs.«401436_j25331717111921_1_alg».proof.Proof.Spec
import Idealize.ShloMosaic.Lib.ValueIdx

noncomputable section

namespace Cert.KernelIdeal.Hand

open Idealize.ShloMosaic Idealize.ShloMosaic.ValueIdx Idealize.SL.Sem
open Cert.KernelIdeal Cert.KernelIdeal.Gen

variable (m : (ℓ : Loc nD τ sig) → Buf (Elt Ideal) ℓ)

/-- The seventeen numbers of one place of the padded pick axis: the input windows' arrays, in the kernel's order, at row 0. -/
def kPt (c : Dev nD) (j : Fin 2048000) : Fin 17 → Spec.E :=
  ![ (V m c main_v269 (ix2 (0 : Fin 1) j) : Spec.E),
     (V m c main_v271 (ix2 (0 : Fin 1) j) : Spec.E),
     (V m c main_v273 (ix2 (0 : Fin 1) j) : Spec.E),
     (V m c main_v275 (ix2 (0 : Fin 1) j) : Spec.E),
     (V m c main_v277 (ix2 (0 : Fin 1) j) : Spec.E),
     (V m c main_v279 (ix2 (0 : Fin 1) j) : Spec.E),
     (V m c main_v281 (ix2 (0 : Fin 1) j) : Spec.E),
     (V m c main_v283 (ix2 (0 : Fin 1) j) : Spec.E),
     (V m c main_v285 (ix2 (0 : Fin 1) j) : Spec.E),
     (V m c main_v287 (ix2 (0 : Fin 1) j) : Spec.E),
     (V m c main_v289 (ix2 (0 : Fin 1) j) : Spec.E),
     (V m c main_v291 (ix2 (0 : Fin 1) j) : Spec.E),
     (V m c main_v293 (ix2 (0 : Fin 1) j) : Spec.E),
     (V m c main_v295 (ix2 (0 : Fin 1) j) : Spec.E),
     (V m c main_v297 (ix2 (0 : Fin 1) j) : Spec.E),
     (V m c main_v299 (ix2 (0 : Fin 1) j) : Spec.E),
     (V m c main_v301 (ix2 (0 : Fin 1) j) : Spec.E) ]

end Cert.KernelIdeal.Hand

end
-- ==== Proof.KI.ValueBlk.lean ====
import proofs.«401436_j25331717111921_1_alg».proof.Proof.KI.Pts
import Idealize.ShloMosaic.Lib.Pipeline.Value

noncomputable section

namespace Cert.KernelIdeal.HandValue

open Idealize.ShloMosaic Idealize.ShloMosaic.ValueIdx Idealize.ShloMosaic.TcCoe Idealize.SL.Sem
open Cert.KernelIdeal Cert.KernelIdeal.Gen Cert.KernelIdeal.Hand

theorem N_eq : cfg0.N = 20 := rfl

/-- The place of lane `l` of the block at point `t`. -/
def place (t : Fin cfg0.N) (l : Fin 102400) : Fin 2048000 :=
  ⟨t.val * 102400 + l.val, by have := lt_of_lt_of_eq t.isLt N_eq; have := l.isLt; omega⟩

/-- Every window but the loss window is at block (0, t) at point `t`. -/
theorem idx : ∀ w : Fin 19, w.val < 18 → ∀ (t : Fin grid0.N) (a : Fin (win0 w).shape.rank),
    (win0 w).index t a = a.val * t.val := by decide +kernel

/-- An index of the row at block (0, t), offset (0, l), is the place of lane `l` at point `t`. -/
theorem lane_eq (t : Fin cfg0.N) (l : Fin 102400) (j : S1x2048000.Idx) {ix : Fin 2 → ℕ} (e : ∀ a, ix a = a.val * t.val)
    (h0 : (j 0).val = ix 0 * 1 + 1 * 0) (h1 : (j 1).val = ix 1 * 102400 + 1 * l.val) : j = ix2 0 (place t l) :=
  Shape.idx_ext₂ (h0.trans (show ix 0 * 1 + 1 * 0 = 0 by rw [e, Fin.val_zero, Nat.zero_mul]))
    (h1.trans (show ix 1 * 102400 + 1 * l.val = t.val * 102400 + l.val by rw [e, Fin.val_one, Nat.one_mul, Nat.one_mul]))

section Read
variable (t : Fin cfg0.N) (l : Fin 102400) (A : Vec Ideal S1x2048000 .f32)

/-! Each window's block at point `t`, read at lane `l`, is its array at the lane's place: the cast is between one type. -/
theorem rd0 : (((cfg0.win 0).blk t).view.read (Elt Ideal) A : Vec Ideal S1x102400 .f32) (ix2 0 l) = A (ix2 0 (place t l)) :=
  (View.read_apply _ _).trans (congrArg A (lane_eq t l _ (idx 0 (by decide) t) (by rfl) (by rfl)))
theorem rd1 : (((cfg0.win 1).blk t).view.read (Elt Ideal) A : Vec Ideal S1x102400 .f32) (ix2 0 l) = A (ix2 0 (place t l)) :=
  (View.read_apply _ _).trans (congrArg A (lane_eq t l _ (idx 1 (by decide) t) (by rfl) (by rfl)))
theorem rd2 : (((cfg0.win 2).blk t).view.read (Elt Ideal) A : Vec Ideal S1x102400 .f32) (ix2 0 l) = A (ix2 0 (place t l)) :=
  (View.read_apply _ _).trans (congrArg A (lane_eq t l _ (idx 2 (by decide) t) (by rfl) (by rfl)))
theorem rd3 : (((cfg0.win 3).blk t).view.read (Elt Ideal) A : Vec Ideal S1x102400 .f32) (ix2 0 l) = A (ix2 0 (place t l)) :=
  (View.read_apply _ _).trans (congrArg A (lane_eq t l _ (idx 3 (by decide) t) (by rfl) (by rfl)))
theorem rd4 : (((cfg0.win 4).blk t).view.read (Elt Ideal) A : Vec Ideal S1x102400 .f32) (ix2 0 l) = A (ix2 0 (place t l)) :=
  (View.read_apply _ _).trans (congrArg A (lane_eq t l _ (idx 4 (by decide) t) (by rfl) (by rfl)))
theorem rd5 : (((cfg0.win 5).blk t).view.read (Elt Ideal) A : Vec Ideal S1x102400 .f32) (ix2 0 l) = A (ix2 0 (place t l)) :=
  (View.read_apply _ _).trans (congrArg A (lane_eq t l _ (idx 5 (by decide) t) (by rfl) (by rfl)))
theorem rd6 : (((cfg0.win 6).blk t).view.read (Elt Ideal) A : Vec Ideal S1x102400 .f32) (ix2 0 l) = A (ix2 0 (place t l)) :=
  (View.read_apply _ _).trans (congrArg A (lane_eq t l _ (idx 6 (by decide) t) (by rfl) (by rfl)))
theorem rd7 : (((cfg0.win 7).blk t).view.read (Elt Ideal) A : Vec Ideal S1x102400 .f32) (ix2 0 l) = A (ix2 0 (place t l)) :=
  (View.read_apply _ _).trans (congrArg A (lane_eq t l _ (idx 7 (by decide) t) (by rfl) (by rfl)))
theorem rd8 : (((cfg0.win 8).blk t).view.read (Elt Ideal) A : Vec Ideal S1x102400 .f32) (ix2 0 l) = A (ix2 0 (place t l)) :=
  (View.read_apply _ _).trans (congrArg A (lane_eq t l _ (idx 8 (by decide) t) (by rfl) (by rfl)))
theorem rd9 : (((cfg0.win 9).blk t).view.read (Elt Ideal) A : Vec Ideal S1x102400 .f32) (ix2 0 l) = A (ix2 0 (place t l)) :=
  (View.read_apply _ _).trans (congrArg A (lane_eq t l _ (idx 9 (by decide) t) (by rfl) (by rfl)))
theorem rd10 : (((cfg0.win 10).blk t).view.read (Elt Ideal) A : Vec Ideal S1x102400 .f32) (ix2 0 l) = A (ix2 0 (place t l)) :=
  (View.read_apply _ _).trans (congrArg A (lane_eq t l _ (idx 10 (by decide) t) (by rfl) (by rfl)))
theorem rd11 : (((cfg0.win 11).blk t).view.read (Elt Ideal) A : Vec Ideal S1x102400 .f32) (ix2 0 l) = A (ix2 0 (place t l)) :=
  (View.read_apply _ _).trans (congrArg A (lane_eq t l _ (idx 11 (by decide) t) (by rfl) (by rfl)))
theorem rd12 : (((cfg0.win 12).blk t).view.read (Elt Ideal) A : Vec Ideal S1x102400 .f32) (ix2 0 l) = A (ix2 0 (place t l)) :=
  (View.read_apply _ _).trans (congrArg A (lane_eq t l _ (idx 12 (by decide) t) (by rfl) (by rfl)))
theorem rd13 : (((cfg0.win 13).blk t).view.read (Elt Ideal) A : Vec Ideal S1x102400 .f32) (ix2 0 l) = A (ix2 0 (place t l)) :=
  (View.read_apply _ _).trans (congrArg A (lane_eq t l _ (idx 13 (by decide) t) (by rfl) (by rfl)))
theorem rd14 : (((cfg0.win 14).blk t).view.read (Elt Ideal) A : Vec Ideal S1x102400 .f32) (ix2 0 l) = A (ix2 0 (place t l)) :=
  (View.read_apply _ _).trans (congrArg A (lane_eq t l _ (idx 14 (by decide) t) (by rfl) (by rfl)))
theorem rd15 : (((cfg0.win 15).blk t).view.read (Elt Ideal) A : Vec Ideal S1x102400 .f32) (ix2 0 l) = A (ix2 0 (place t l)) :=
  (View.read_apply _ _).trans (congrArg A (lane_eq t l _ (idx 15 (by decide) t) (by rfl) (by rfl)))
theorem rd16 : (((cfg0.win 16).blk t).view.read (Elt Ideal) A : Vec Ideal S1x102400 .f32) (ix2 0 l) = A (ix2 0 (place t l)) :=
  (View.read_apply _ _).trans (congrArg A (lane_eq t l _ (idx 16 (by decide) t) (by rfl) (by rfl)))
theorem rd17 : (((cfg0.win 17).blk t).view.read (Elt Ideal) A : Vec Ideal S1x102400 .f32) (ix2 0 l) = A (ix2 0 (place t l)) :=
  (View.read_apply _ _).trans (congrArg A (lane_eq t l _ (idx 17 (by decide) t) (by rfl) (by rfl)))
end Read

/-- Place `p` lies in the block of point `p / 102400`. -/
theorem cover17 (i : S1x2048000.Idx) : ∃ t : Fin cfg0.N, (cfg0.win 17).flush t = true ∧ i ∈ ((cfg0.win 17).blk t).view.set := by
  have hi0 := idx2_lt0 i
  have hi1 := idx2_lt1 i
  obtain ⟨t, ht⟩ : ∃ t : Fin cfg0.N, t.val = (i 1).val / 102400 := ⟨⟨_, by rw [N_eq]; omega⟩, rfl⟩
  refine ⟨t, flush0_17 t, ?_⟩
  show i ∈ ((View.whole main_v302_0).slice (win0_17.rect t)).set
  rw [View.set_slice_whole, Rect.mem_set_unit]
  intro a
  match a with
  | ⟨0, _⟩ => show win0_17.index t 0 * 1 ≤ (i 0).val ∧ (i 0).val < win0_17.index t 0 * 1 + 1
              rw [show win0_17.index t 0 = 0 * t.val from idx 17 (by decide) t 0]; omega
  | ⟨1, _⟩ => show win0_17.index t 1 * 102400 ≤ (i 1).val ∧ (i 1).val < win0_17.index t 1 * 102400 + 102400
              rw [show win0_17.index t 1 = 1 * t.val from idx 17 (by decide) t 1]; omega

end Cert.KernelIdeal.HandValue

end
-- ==== Proof.KI.ValueAcc.lean ====
import proofs.«401436_j25331717111921_1_alg».proof.Proof.KI.ValuePieces
import proofs.«401436_j25331717111921_1_alg».proof.Proof.KI.ValueBlk

set_option maxRecDepth 16384

noncomputable section

namespace Cert.KernelIdeal.HandValue

open Idealize.ShloMosaic Idealize.ShloMosaic.ValueIdx Idealize.ShloMosaic.TcCoe Idealize.SL.Sem
open Cert.KernelIdeal Cert.KernelIdeal.Gen Cert.KernelIdeal.Hand

variable (m : (ℓ : Loc nD τ sig) → Buf (Elt Ideal) ℓ)

/-- Lane `l` of each block at point `t` is the block's array at the lane's place. -/
theorem lanePt_blocks (c : Dev nD) (t : Fin cfg0.N) (l : Fin 102400) :
    lanePt (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) l = kPt m c (place t l) := by
  unfold lanePt kPt
  exact congrArg₂ Matrix.vecCons (rd0 t l (V m c main_v269))
    (congrArg₂ Matrix.vecCons (rd1 t l (V m c main_v271))
    (congrArg₂ Matrix.vecCons (rd2 t l (V m c main_v273))
    (congrArg₂ Matrix.vecCons (rd3 t l (V m c main_v275))
    (congrArg₂ Matrix.vecCons (rd4 t l (V m c main_v277))
    (congrArg₂ Matrix.vecCons (rd5 t l (V m c main_v279))
    (congrArg₂ Matrix.vecCons (rd6 t l (V m c main_v281))
    (congrArg₂ Matrix.vecCons (rd7 t l (V m c main_v283))
    (congrArg₂ Matrix.vecCons (rd8 t l (V m c main_v285))
    (congrArg₂ Matrix.vecCons (rd9 t l (V m c main_v287))
    (congrArg₂ Matrix.vecCons (rd10 t l (V m c main_v289))
    (congrArg₂ Matrix.vecCons (rd11 t l (V m c main_v291))
    (congrArg₂ Matrix.vecCons (rd12 t l (V m c main_v293))
    (congrArg₂ Matrix.vecCons (rd13 t l (V m c main_v295))
    (congrArg₂ Matrix.vecCons (rd14 t l (V m c main_v297))
    (congrArg₂ Matrix.vecCons (rd15 t l (V m c main_v299))
    (congrArg₂ Matrix.vecCons (rd16 t l (V m c main_v301))
    (rfl)))))))))))))))))

/-- The weighted loss at a padded place. -/
abbrev lossAt (c : Dev nD) (j : Fin 2048000) : Spec.E := Spec.lossPt (kPt m c j)

theorem accLoss_congr (w : Fin 2048000 → Spec.E) {a b : Nat} (e : a = b) (ha : a ≤ 20) (hb : b ≤ 20) :
    Spec.accLoss w a ha = Spec.accLoss w b hb := by subst e; rfl

/-- One point's step: the blocked sum over the first `t` blocks plus block `t`'s losses is the blocked sum over `t + 1`. -/
theorem acc_fold (c : Dev nD) (t : Fin cfg0.N) (s : Vec Ideal S1x1 .f32)
    (hs : ∀ a b : Fin 1, (s (ix2 a b) : Spec.E) = Spec.accLoss (lossAt m c) t.val (Nat.le_of_lt (lt_of_lt_of_eq t.isLt N_eq))) :
    accBlk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) s
      = fun _ => Spec.accLoss (lossAt m c) (t.val + 1) (Nat.succ_le_of_lt (lt_of_lt_of_eq t.isLt N_eq)) := by
  funext y
  obtain ⟨a, b, rfl⟩ : ∃ a b : Fin 1, y = ix2 a b := ⟨y 0, y 1, eq_ix2 y⟩
  rw [accBlk_apply, hs, Spec.accLoss]
  exact congrArg (_ + ·) (Finset.sum_congr rfl fun l _ => congrArg Spec.lossPt (lanePt_blocks m c t l))

/-- After point `t` the prediction window holds the prediction payload of the point's blocks, whichever case the point is. -/
theorem out17_eq (c : Dev nD) (t : Fin cfg0.N) :
    (outsAt0 m c t.val t.isLt).1 = predBlk (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) := by
  by_cases h0 : t.val = 0
  · rw [outsAt0_A m c t h0 (by omega)]
    dsimp only
    exact out17_A _ _
  · by_cases h1 : t.val = 19
    · rw [outsAt0_C m c t h0 h1]
      dsimp only
      exact out17_C _ _
    · rw [outsAt0_B m c t h0 h1]
      dsimp only
      exact out17_B _ _

/-- The zero block the first point stores reads zero. -/
theorem pay3_apply (a b : Fin 1) : (k0_pay3 (F := Ideal) (ix2 a b) : Spec.E) = 0 := by
  unfold k0_pay3
  simp only [shapeCast_self]
  exact Ideal.ofBits_zero_f32

/-- By induction on the point: the first starts from the zero it stores, each later one from what the point before left. -/
theorem acc_eq (c : Dev nD) : ∀ (n : ℕ) (t : Fin cfg0.N), t.val = n →
    (outsAt0 m c t.val t.isLt).2.2
      = fun _ => Spec.accLoss (lossAt m c) (t.val + 1) (Nat.succ_le_of_lt (lt_of_lt_of_eq t.isLt N_eq))
  | 0, t, h0 => by
    rw [outsAt0_A m c t h0 (by omega)]
    dsimp only
    exact (sout_A _ _).trans (acc_fold m c t _ fun a b =>
      (pay3_apply a b).trans (accLoss_congr (lossAt m c) h0.symm (Nat.zero_le _) _))
  | n + 1, t, hn => by
    have h0 : t.val ≠ 0 := by omega
    have hlt : t.val - 1 < cfg0.N := Nat.lt_of_le_of_lt (Nat.sub_le _ _) t.isLt
    have hp : ∀ a b : Fin 1, ((outsAt0 m c (t.val - 1) hlt).2.2 (ix2 a b) : Spec.E)
        = Spec.accLoss (lossAt m c) t.val (Nat.le_of_lt (lt_of_lt_of_eq t.isLt N_eq)) := fun a b =>
      (congrFun (acc_eq c n ⟨t.val - 1, hlt⟩ (by show t.val - 1 = n; omega)) (ix2 a b)).trans
        (accLoss_congr (lossAt m c) (by show t.val - 1 + 1 = t.val; omega) _ _)
    by_cases h19 : t.val = 19
    · rw [outsAt0_C m c t h0 h19]
      dsimp only
      exact (sout_C _ _).trans (acc_fold m c t _ hp)
    · rw [outsAt0_B m c t h0 h19]
      dsimp only
      exact (sout_B _ _).trans (acc_fold m c t _ hp)

/-- The last point's loss block equals its accumulator. -/
theorem out18_last (c : Dev nD) (t : Fin cfg0.N) (h19 : t.val = 19) :
    (outsAt0 m c t.val t.isLt).2.1 = fun _ => Spec.accLoss (lossAt m c) 20 (Nat.le_refl _) := by
  have e : (outsAt0 m c t.val t.isLt).2.1 = (outsAt0 m c t.val t.isLt).2.2 := by
    rw [outsAt0_C m c t (by omega) h19]
    dsimp only
    exact (out18_C _ _).trans (sout_C _ _).symm
  rw [e, acc_eq m c t.val t rfl]
  funext _
  exact accLoss_congr (lossAt m c) (by omega) _ _

end Cert.KernelIdeal.HandValue

end
-- ==== Proof.KI.ValueTail.lean ====
import proofs.«401436_j25331717111921_1_alg».proof.Proof.KI.Kit
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.HandValue

open Idealize.ShloMosaic Idealize.ShloMosaic.ValueIdx Idealize.ShloMosaic.TcCoe Idealize.ShloMosaic.Tactic Idealize.SL.Sem
open Idealize.ShloMosaic.Pipeline (Dat)
open Cert.KernelIdeal Cert.KernelIdeal.Gen Cert.KernelIdeal.Hand

variable {F : FTy → Type} [FloatOps F]
variable (m : (ℓ : Loc nD τ sig) → Buf (Elt F) ℓ)

theorem pad_lt (i : S2000000.Idx) : (i 0).val < 2048000 :=
  Nat.lt_trans (show (i 0).val < 2000000 from (i 0).isLt) (by norm_num)

/-- The first result is the slice and reshape of the final prediction array. -/
theorem tail_pred (dats : (p : Fin 1) → (c : Dev nD) → Dat τ (Elt F) Unit ℕ (UR sig nD τ) ℕ (cfgs p) c) (c : Dev nD) :
    Pipeline.afterTail₀ cfgs dats 0 (V0 m) [hostOps1] c main_v304
      = shapeCast S2000000 (extractStridedSlice S1x2000000 ![0, 0] ((dats 0 c).arrAt 17 cfg0.N : Vec F S1x2048000 .f32)
          slices_S1x2048000_S1x2000000_0_0) shapeCasts_S1x2000000_S2000000 := by
  have e : Pipeline.withArrays spec0 c (V0 m c) (fun w => (dats 0 c).arrAt w cfg0.N) (Proc.devRef .tc main_v302_0)
      = (dats 0 c).arrAt 17 cfg0.N := Pipeline.withArrays_arr spec0 launch0.win.arr_inj c _ _ 17
  unfold Pipeline.afterTail₀
  show StableHlo.after hostOps1 _ (Proc.devRef .tc main_v304) = _
  after_results
  funext i
  show shapeCast S2000000 (extractStridedSlice S1x2000000 ![0, 0]
    (Pipeline.withArrays spec0 c (V0 m c) (fun w => (dats 0 c).arrAt w cfg0.N) (Proc.devRef .tc main_v302_0))
    slices_S1x2048000_S1x2000000_0_0) shapeCasts_S1x2000000_S2000000 i = _
  rw [e]

/-- The second result is the reshape of the final loss array. -/
theorem tail_loss (dats : (p : Fin 1) → (c : Dev nD) → Dat τ (Elt F) Unit ℕ (UR sig nD τ) ℕ (cfgs p) c) (c : Dev nD) :
    Pipeline.afterTail₀ cfgs dats 0 (V0 m) [hostOps1] c main_v305
      = shapeCast S_ ((dats 0 c).arrAt 18 cfg0.N : Vec F S1x1 .f32) shapeCasts_S1x1_S_ := by
  have e : Pipeline.withArrays spec0 c (V0 m c) (fun w => (dats 0 c).arrAt w cfg0.N) (Proc.devRef .tc main_v302_1)
      = (dats 0 c).arrAt 18 cfg0.N := Pipeline.withArrays_arr spec0 launch0.win.arr_inj c _ _ 18
  unfold Pipeline.afterTail₀
  show StableHlo.after hostOps1 _ (Proc.devRef .tc main_v305) = _
  after_results
  funext i
  show shapeCast S_ (Pipeline.withArrays spec0 c (V0 m c) (fun w => (dats 0 c).arrAt w cfg0.N) (Proc.devRef .tc main_v302_1))
    shapeCasts_S1x1_S_ i = _
  rw [e]

/-- Entry `p` of the first 2,000,000 places of the one row, read as a vector, is the row at place `p`. -/
theorem slice_row_apply {α : Type} (G : S1x2048000.Idx → α) (i : S2000000.Idx) :
    shapeCast S2000000 (extractStridedSlice S1x2000000 ![0, 0] G slices_S1x2048000_S1x2000000_0_0) shapeCasts_S1x2000000_S2000000 i
      = G (ix2 (0 : Fin 1) (⟨(i 0).val, pad_lt i⟩ : Fin 2048000)) := by
  obtain ⟨a, rfl⟩ : ∃ a : Fin 2000000, i = ix1 a := ⟨i 0, eq_ix1 i⟩
  exact (shapeCast_1a_a_apply _ shapeCasts_S1x2000000_S2000000 a).trans
    (slice2_axis1_apply 0 G slices_S1x2048000_S1x2000000_0_0 (0 : Fin 1) a ⟨a.val, pad_lt (ix1 a)⟩ (Nat.zero_add _).symm)

end Cert.KernelIdeal.HandValue

end
-- ==== Proof.KI.ValueRun.lean ====
import proofs.«401436_j25331717111921_1_alg».proof.Proof.KI.ValueAcc
import proofs.«401436_j25331717111921_1_alg».proof.Proof.KI.ValueTail
import proofs.«401436_j25331717111921_1_alg».proof.Proof.KI.FrameRun

set_option maxRecDepth 16384

noncomputable section

namespace Cert.KernelIdeal.HandValue

open Idealize.ShloMosaic Idealize.ShloMosaic.ValueIdx Idealize.ShloMosaic.TcCoe Idealize.SL.Sem
open Cert.KernelIdeal Cert.KernelIdeal.Gen Cert.KernelIdeal.Hand

variable (m : (ℓ : Loc nD τ sig) → Buf (Elt Ideal) ℓ) (ρ : Dev nD → PrngReg)

/-- What the prediction array ends holding: at each place the one-pick prediction of the pick data there. -/
def predArr (c : Dev nD) : Vec Ideal S1x2048000 .f32 := fun i => Spec.predPt (kPt m c ⟨(i 1).val, idx2_lt1 i⟩)

/-- Lane `l` of the block at point `t` is the prediction at the lane's place. -/
theorem flushed17_eq (c : Dev nD) (t : Fin cfg0.N) :
    (dats m 0 c).flushed 17 t = ((cfg0.win 17).blk t).view.read (Elt Ideal) (predArr m c) := by
  show (cfg0.win 17).cut (grid0.coords t) ((dats m 0 c).after 17 t) = _
  rw [after0_17, out17_eq]
  funext y
  obtain ⟨a, l, rfl⟩ : ∃ (a : Fin 1) (l : Fin 102400), y = ix2 a l := ⟨y 0, y 1, eq_ix2 y⟩
  obtain rfl : a = 0 := Subsingleton.elim _ _
  refine (predBlk_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) l).trans (Eq.trans ?_
    (rd17 t l (predArr m c)).symm)
  exact congrArg Spec.predPt (lanePt_blocks m c t l)

/-- The blocks tile the array, so it ends holding `predArr`. -/
theorem final17 (c : Dev nD) : (dats m 0 c).arrAt 17 cfg0.N = predArr m c :=
  (dats m 0 c).arrAt_eq_of_cover 17 (predArr m c) (fun t _ => flushed17_eq m c t) cover17

/-- What the loss array ends holding: the blocked sum of the one-pick losses over all twenty blocks. -/
def lossArr (c : Dev nD) : Vec Ideal S1x1 .f32 := fun _ => Spec.accLoss (lossAt m c) 20 (Nat.le_refl _)

/-- The loss window's one block is its whole array, at every point. -/
theorem idx_facts18 : ∀ (t : Fin cfg0.N) (a : Fin 2), win0_18.index t a = 0 :=
  (by decide +kernel : ∀ (t : Fin grid0.N) (a : Fin 2), win0_18.index t a = 0)

/-- At the last point the loss block holds the blocked sum. -/
theorem flushed18_eq (c : Dev nD) (t : Fin cfg0.N) (hf : (cfg0.win 18).flush t = true) :
    (dats m 0 c).flushed 18 t = ((cfg0.win 18).blk t).view.read (Elt Ideal) (lossArr m c) := by
  have h19 : t.val = 19 := by
    have h1 := (flush0_18 t).mp hf
    have h2 : t.val < 20 := lt_of_lt_of_eq t.isLt N_eq
    omega
  show (cfg0.win 18).cut (grid0.coords t) ((dats m 0 c).after 18 t) = _
  rw [after0_18, out18_last m c t h19]
  rfl

/-- The last point's block covers the 1 × 1 array. -/
theorem cover18 (i : S1x1.Idx) : ∃ t : Fin cfg0.N, (cfg0.win 18).flush t = true ∧ i ∈ ((cfg0.win 18).blk t).view.set := by
  have hi0 := idx2_lt0 i
  have hi1 := idx2_lt1 i
  obtain ⟨t, ht⟩ : ∃ t : Fin cfg0.N, t.val = 19 := ⟨⟨19, by rw [N_eq]; decide⟩, rfl⟩
  refine ⟨t, (flush0_18 t).mpr (by rw [ht]), ?_⟩
  show i ∈ ((View.whole main_v302_1).slice (win0_18.rect t)).set
  rw [View.set_slice_whole, Rect.mem_set_unit]
  intro a
  match a with
  | ⟨0, _⟩ => show win0_18.index t 0 * 1 ≤ (i 0).val ∧ (i 0).val < win0_18.index t 0 * 1 + 1
              rw [idx_facts18 t 0]; omega
  | ⟨1, _⟩ => show win0_18.index t 1 * 1 ≤ (i 1).val ∧ (i 1).val < win0_18.index t 1 * 1 + 1
              rw [idx_facts18 t 1]; omega

theorem final18 (c : Dev nD) : (dats m 0 c).arrAt 18 cfg0.N = lossArr m c :=
  (dats m 0 c).arrAt_eq_of_cover 18 (lossArr m c) (flushed18_eq m c) cover18

/-- No array of the pipeline is one of the two results. -/
theorem arr_ne_res : ∀ w : Fin 19, (Pipeline.arrRef spec0 w).idx.val ≠ 477 ∧ (Pipeline.arrRef spec0 w).idx.val ≠ 478 := by decide

/-- The first result: at pick `p` the one-pick prediction of the pick data at place `p`. -/
theorem res_pred (c : Dev nD) :
    Pipeline.afterTail₀ cfgs (dats m) 0 (V0 m) [hostOps1] c main_v304
      = (fun i => Spec.predPt (kPt m c ⟨(i 0).val, pad_lt i⟩)) := by
  rw [tail_pred m (dats m) c, final17]
  funext i
  exact slice_row_apply (predArr m c) i

/-- The second result: the blocked sum of the one-pick losses. -/
theorem res_loss (c : Dev nD) :
    Pipeline.afterTail₀ cfgs (dats m) 0 (V0 m) [hostOps1] c main_v305
      = (fun _ => Spec.accLoss (fun j => Spec.lossPt (kPt m c j)) 20 (Nat.le_refl _)) := by
  rw [tail_loss m (dats m) c, final18]
  rfl

/-- The two results are read off the final arrays; the arguments are kept by the frame. -/
theorem run : θ_run (defs (F := Ideal)) (onTc (τ := τ) (main (F := Ideal))) ⟨m, fun _ => 0, ρ⟩ (fun r => ∀ c : Dev nD,
      r.2.mem ((c.tc : Thread nD τ).loc main_v304) = (fun i => Spec.predPt (kPt m c ⟨(i 0).val, pad_lt i⟩))
      ∧ r.2.mem ((c.tc : Thread nD τ).loc main_v305) = (fun _ => Spec.accLoss (fun j => Spec.lossPt (kPt m c j)) 20 (Nat.le_refl _))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun res h c =>
    have k := fun r h1 h2 => arg_kept m (dats m) c r h1 h2 res h
    ⟨((h c).2 main_v304 (Pipeline.mem_restRefs_of main_v304 (by decide)
        (fun w e => (arr_ne_res w).1 (congrArg (fun r : Ref sig .tc => r.idx.val) e)))).trans (res_pred m c),
     ((h c).2 main_v305 (Pipeline.mem_restRefs_of main_v305 (by decide)
        (fun w e => (arr_ne_res w).2 (congrArg (fun r : Ref sig .tc => r.idx.val) e)))).trans (res_loss m c),
     k main_arg0 (by decide) (by decide), k main_arg1 (by decide) (by decide), k main_arg2 (by decide) (by decide), k main_arg3 (by decide) (by decide), k main_arg4 (by decide) (by decide), k main_arg5 (by decide) (by decide), k main_arg6 (by decide) (by decide), k main_arg7 (by decide) (by decide), k main_arg8 (by decide) (by decide), k main_arg9 (by decide) (by decide), k main_arg10 (by decide) (by decide), k main_arg11 (by decide) (by decide)⟩) (run_main m ρ)

end Cert.KernelIdeal.HandValue

end
-- ==== Proof.Bridge.Stages.lean ====
import proofs.«401436_j25331717111921_1_alg».proof.Proof.Ref.ReadP
import proofs.«401436_j25331717111921_1_alg».proof.Proof.Spec
import Idealize.ShloMosaic.Lib.ValueIdx

noncomputable section

namespace Cert.Bridge

open Idealize.ShloMosaic Idealize.ShloMosaic.ValueIdx
open Cert.ReferenceIdeal Cert.ReferenceIdeal.ReadP

variable (x0 : (⟨S2000000, .i32⟩ : BufTy).Contents (Elt Ideal)) (x1 : (⟨S2000000x2, .i32⟩ : BufTy).Contents (Elt Ideal))
  (x2 : (⟨S2000000, .i32⟩ : BufTy).Contents (Elt Ideal)) (x3 x4 : (⟨S2000000, .f32⟩ : BufTy).Contents (Elt Ideal))
  (x5 : (⟨S50000x3, .f32⟩ : BufTy).Contents (Elt Ideal)) (x6 : (⟨S50000x1, .f32⟩ : BufTy).Contents (Elt Ideal))
  (x7 : (⟨S500x3, .f32⟩ : BufTy).Contents (Elt Ideal)) (x8 : (⟨S500x1, .f32⟩ : BufTy).Contents (Elt Ideal))
  (x9 : (⟨S2x1000x100, .f32⟩ : BufTy).Contents (Elt Ideal))

def cornerPt (j : Fin 2000000) (e : Fin 2) : Fin 6 → Spec.E :=
  ![ (val_main_v86 (F := Ideal) x0 x1 x2 x5 x7 x9 (ix2 j e) : Spec.E),
     (val_main_v109 (F := Ideal) x0 x1 x2 x5 x7 x9 (ix2 j e) : Spec.E),
     (val_main_v132 (F := Ideal) x0 x1 x2 x5 x7 x9 (ix2 j e) : Spec.E),
     (val_main_v157 (F := Ideal) x0 x1 x2 x5 x7 x9 (ix2 j e) : Spec.E),
     (val_main_v62 (F := Ideal) x0 x1 x5 x7 (ix2 j e) : Spec.E),
     (val_main_v65 (F := Ideal) x0 x1 x5 x7 (ix2 j e) : Spec.E) ]

def refPt (j : Fin 2000000) : Fin 17 → Spec.E :=
  ![ cornerPt x0 x1 x2 x5 x7 x9 j 0 0, cornerPt x0 x1 x2 x5 x7 x9 j 0 1, cornerPt x0 x1 x2 x5 x7 x9 j 0 2,
     cornerPt x0 x1 x2 x5 x7 x9 j 0 3, cornerPt x0 x1 x2 x5 x7 x9 j 0 4, cornerPt x0 x1 x2 x5 x7 x9 j 0 5,
     cornerPt x0 x1 x2 x5 x7 x9 j 1 0, cornerPt x0 x1 x2 x5 x7 x9 j 1 1, cornerPt x0 x1 x2 x5 x7 x9 j 1 2,
     cornerPt x0 x1 x2 x5 x7 x9 j 1 3, cornerPt x0 x1 x2 x5 x7 x9 j 1 4, cornerPt x0 x1 x2 x5 x7 x9 j 1 5,
     (val_main_v30 (F := Ideal) x1 x6 (ix2 j 0) : Spec.E), (val_main_v30 (F := Ideal) x1 x6 (ix2 j 1) : Spec.E),
     (val_main_v15 (F := Ideal) x0 x8 (ix1 j) : Spec.E), (x3 (ix1 j) : Spec.E), (x4 (ix1 j) : Spec.E) ]

end Cert.Bridge

end
-- ==== Proof.Ref.ValueP.lean ====
import proofs.«401436_j25331717111921_1_alg».proof.Proof.Ref.ReadP
import proofs.«401436_j25331717111921_1_alg».proof.Proof.Bridge.Stages
import proofs.«401436_j25331717111921_1_alg».proof.Proof.Spec
import Idealize.ShloMosaic.Lib.ValueIdx
import Idealize.ShloMosaic.Lib.ValueIdxRank1
import Idealize.ShloMosaic.PureOps.Ideal.Laws

noncomputable section

namespace Cert.RefValue

open Cert.ReferenceIdeal Cert.ReferenceIdeal.Gen Idealize.ShloMosaic Idealize.ShloMosaic.TcCoe Idealize.SL.Sem Idealize.ShloMosaic.StableHlo
open Idealize.ShloMosaic.ValueIdx Cert.ReferenceIdeal.ReadP

variable (x0 : (⟨S2000000, .i32⟩ : BufTy).Contents (Elt Ideal)) (x1 : (⟨S2000000x2, .i32⟩ : BufTy).Contents (Elt Ideal))
  (x2 : (⟨S2000000, .i32⟩ : BufTy).Contents (Elt Ideal)) (x3 x4 : (⟨S2000000, .f32⟩ : BufTy).Contents (Elt Ideal)) (x5 : (⟨S50000x3, .f32⟩ : BufTy).Contents (Elt Ideal))
  (x6 : (⟨S50000x1, .f32⟩ : BufTy).Contents (Elt Ideal)) (x7 : (⟨S500x3, .f32⟩ : BufTy).Contents (Elt Ideal))
  (x8 : (⟨S500x1, .f32⟩ : BufTy).Contents (Elt Ideal)) (x9 : (⟨S2x1000x100, .f32⟩ : BufTy).Contents (Elt Ideal))

/-- The bilinear interpolation of six numbers given as a family. -/
def bil6 (c : Fin 6 → Spec.E) : Spec.E := Spec.bil (c 0) (c 1) (c 2) (c 3) (c 4) (c 5)

/-- Every stage from the corners to the travel time is elementwise, and a literal is its scalar at every index. -/
theorem v176_at (j : Fin 2000000) (e : Fin 2) :
    (val_main_v176 (F := Ideal) x0 x1 x2 x5 x7 x9 (ix2 j e) : Spec.E) = bil6 (Bridge.cornerPt x0 x1 x2 x5 x7 x9 j e) := by
  simp only [val_main_v176_apply, val_main_v175_apply, val_main_v174_apply, val_main_v173_apply, val_main_v172_apply,
    val_main_v171_apply, val_main_v170_apply, val_main_v169_apply, val_main_cst_50_apply, val_main_v168_apply,
    val_main_v167_apply, val_main_v166_apply, val_main_v165_apply, val_main_v164_apply, val_main_cst_49_apply,
    val_main_v163_apply, val_main_v162_apply, val_main_v161_apply, val_main_v160_apply, val_main_cst_48_apply,
    val_main_v159_apply, val_main_v158_apply, val_main_cst_47_apply]
  rfl

/-- The station delay is one number a pick, broadcast over both event columns. -/
theorem v180_at (j : Fin 2000000) (e : Fin 2) :
    (val_main_v180 (F := Ideal) x0 x1 x2 x5 x6 x7 x8 x9 (ix2 j e) : Spec.E)
      = FloatOps.addf (FloatOps.addf (val_main_v30 (F := Ideal) x1 x6 (ix2 j e)) (bil6 (Bridge.cornerPt x0 x1 x2 x5 x7 x9 j e)))
          (val_main_v15 (F := Ideal) x0 x8 (ix1 j)) := by
  have hb : idx_main_v178 (idx_main_v179 (ix2 j e)) = ix1 j := by
    funext a; match a with | ⟨0, _⟩ => rfl
  rw [val_main_v180_apply, val_main_v177_apply, val_main_v179_apply, val_main_v178_apply, hb,
    v176_at x0 x1 x2 x5 x7 x9 j e]

/-- The slice of column `e` followed by the reshape to one axis reads the two-column array at (`j`, `e`). -/
theorem v185_at (j : Fin 2000000) :
    (val_main_v185 (F := Ideal) x0 x1 x2 x5 x6 x7 x8 x9 (ix1 j) : Spec.E)
      = Spec.predPt (Bridge.refPt x0 x1 x2 x3 x4 x5 x6 x7 x8 x9 j) := by
  have h0 : idx_main_v181 (idx_main_v182 (ix1 j)) = ix2 j 0 := by
    funext a; match a with
    | ⟨0, _⟩ => exact Fin.ext (Nat.div_one _)
    | ⟨1, _⟩ => rfl
  have h1 : idx_main_v183 (idx_main_v184 (ix1 j)) = ix2 j 1 := by
    funext a; match a with
    | ⟨0, _⟩ => exact Fin.ext (Nat.div_one _)
    | ⟨1, _⟩ => rfl
  rw [val_main_v185_apply, val_main_v182_apply, val_main_v181_apply, h0, val_main_v184_apply, val_main_v183_apply, h1,
    v180_at x0 x1 x2 x5 x6 x7 x8 x9 j 0, v180_at x0 x1 x2 x5 x6 x7 x8 x9 j 1]
  simp only [Spec.predPt, Bridge.refPt, Matrix.cons_val, bil6]

/-- On the extended reals the host's absolute value is the absolute value. -/
theorem v196_at (j : Fin 2000000) :
    (val_main_v196 (F := Ideal) x0 x1 x2 x3 x4 x5 x6 x7 x8 x9 (ix1 j) : Spec.E)
      = Spec.lossPt (Bridge.refPt x0 x1 x2 x3 x4 x5 x6 x7 x8 x9 j) := by
  simp only [val_main_v196_apply, val_main_v195_apply, val_main_v194_apply, val_main_v193_apply, val_main_cst_53_apply,
    val_main_v192_apply, val_main_v191_apply, val_main_v190_apply, val_main_cst_52_apply, val_main_v189_apply,
    val_main_v188_apply, val_main_cst_51_apply, val_main_v187_apply, val_main_v186_apply, Ideal.hostAbsf_def]
  rw [v185_at x0 x1 x2 x3 x4 x5 x6 x7 x8 x9 j]
  rfl

theorem out0_val :
    val_main_v185 (F := Ideal) x0 x1 x2 x5 x6 x7 x8 x9
      = fun i => Spec.predPt (Bridge.refPt x0 x1 x2 x3 x4 x5 x6 x7 x8 x9 (i 0)) := by
  funext i
  obtain ⟨j, rfl⟩ : ∃ j, i = ix1 j := ⟨i 0, eq_ix1 i⟩
  exact v185_at x0 x1 x2 x3 x4 x5 x6 x7 x8 x9 j

/-- The reduction starts from the literal zero, and a sum over the one-axis index set is the sum over its coordinate. -/
theorem out1_val :
    val_main_v197 (F := Ideal) x0 x1 x2 x3 x4 x5 x6 x7 x8 x9
      = fun _ => ∑ j : Fin 2000000, Spec.lossPt (Bridge.refPt x0 x1 x2 x3 x4 x5 x6 x7 x8 x9 j) := by
  funext i
  rw [val_main_v197_apply, val_main_cst_54_apply, Ideal.ofBits_def, Ideal.ofBits_zero_f32, zero_add]
  exact Fintype.sum_equiv idxEquiv1 _ _ fun q => by
    obtain ⟨j, rfl⟩ : ∃ j, q = ix1 j := ⟨q 0, eq_ix1 q⟩
    exact v196_at x0 x1 x2 x3 x4 x5 x6 x7 x8 x9 j

end Cert.RefValue

end
-- ==== Proof.Ref.Cut.lean ====
import Idealize.ShloMosaic.Lib.Pipeline.Frame

noncomputable section

namespace Cert.RefRun

open Idealize.ShloMosaic Idealize.ShloMosaic.StableHlo

variable {τ : Topo} {sig : RefSig} {Val : EltTy → Type}

/-- No operation of the line allocates, each touches TensorCore buffers only and writes only buffers numbered `lo` or more. -/
def WritesFrom (lo : Nat) (ops : List (HloOp τ sig Val)) : Prop :=
  ops.Forall fun op => op.fresh = ∅ ∧ op.bufs ⊆ tcRefs τ sig ∧
    ∀ b ∈ op.writes, ∃ y : Ref sig .tc, b = Proc.devRef (τ := τ) .tc y ∧ lo ≤ y.idx.val

/-- The line cut into stretches, each with a number from which it writes. -/
abbrev flat (cs : List (Nat × List (HloOp τ sig Val))) : List (HloOp τ sig Val) := (cs.map Prod.snd).flatten

def Cut (cs : List (Nat × List (HloOp τ sig Val))) : Prop := ∀ p ∈ cs, WritesFrom p.1 p.2

variable {cs : List (Nat × List (HloOp τ sig Val))}

theorem Cut.mem (h : Cut cs) {op : HloOp τ sig Val} (hop : op ∈ flat cs) :
    ∃ p ∈ cs, op.fresh = ∅ ∧ op.bufs ⊆ tcRefs τ sig ∧
      ∀ b ∈ op.writes, ∃ y : Ref sig .tc, b = Proc.devRef (τ := τ) .tc y ∧ p.1 ≤ y.idx.val := by
  obtain ⟨l, hl, hop⟩ := List.mem_flatten.mp hop
  obtain ⟨p, hp, rfl⟩ := List.mem_map.mp hl
  exact ⟨p, hp, List.forall_iff_forall_mem.mp (h p hp) op hop⟩

theorem Cut.fresh (h : Cut cs) : ∀ op ∈ flat cs, op.fresh = ∅ := fun _ hop => let ⟨_, _, hf, _⟩ := h.mem hop; hf

theorem Cut.sub (h : Cut cs) : (flat cs).Forall fun op => op.bufs ⊆ tcRefs τ sig :=
  List.forall_iff_forall_mem.mpr fun _ hop => let ⟨_, _, _, hs, _⟩ := h.mem hop; hs

/-- A buffer numbered below every stretch's number is written by no operation, so it keeps its contents. -/
theorem Cut.keep (h : Cut cs) (Y : Valuation τ sig Val) {r : Ref sig .tc} (hr : ∀ l ∈ cs.map Prod.fst, r.idx.val < l) :
    after (flat cs) Y (Proc.devRef .tc r) = Y (Proc.devRef .tc r) :=
  after_of_forall_not_mem _ Y fun op hop hb => by
    obtain ⟨p, hp, -, -, hw⟩ := h.mem hop
    obtain ⟨y, hy, hlo⟩ := hw _ hb
    cases Proc.devRef_injective _ hy
    exact absurd (hr _ (List.mem_map_of_mem hp)) (Nat.not_lt.mpr hlo)

/-- `Z` is `Y` on the buffers below `lo`, and the stretch `c` run from `Y` on those below `hi`. -/
def Step (lo hi : Nat) (c : List (HloOp τ sig Val)) (Y Z : Valuation τ sig Val) : Prop :=
  (∀ r : Ref sig .tc, r.idx.val < lo → Y (Proc.devRef .tc r) = Z (Proc.devRef .tc r)) ∧
    ∀ r : Ref sig .tc, r.idx.val < hi → Z (Proc.devRef .tc r) = after c Y (Proc.devRef .tc r)

/-- The whole run against the run up to stretch `k`: later stretches write neither what stretch `k` reads nor what it wrote. -/
theorem Cut.step (h : Cut cs) {ls : List Nat} (hl : cs.map Prod.fst = ls) (k : Nat) (hk : k < ls.length) {lo hi : Nat}
    (hlo : ∀ l ∈ ls.drop k, lo ≤ l) (hhi : ∀ l ∈ ls.drop (k + 1), hi ≤ l) (Y0 : Valuation τ sig Val) :
    Step lo hi (cs[k]'(by rw [← hl, List.length_map] at hk; exact hk)).2 (after (flat (cs.take k)) Y0) (after (flat cs) Y0) := by
  subst hl
  rw [List.length_map] at hk
  have e1 : flat cs = flat (cs.take k) ++ flat (cs.drop k) := by
    rw [← List.flatten_append, ← List.map_append, List.take_append_drop]
  have e2 : flat (cs.drop k) = cs[k].2 ++ flat (cs.drop (k + 1)) := by
    rw [List.drop_eq_getElem_cons hk]; rfl
  have hd : ∀ j, Cut (cs.drop j) := fun j p hp => h p (List.mem_of_mem_drop hp)
  refine ⟨fun r hr => ?_, fun r hr => ?_⟩
  · rw [e1, after_append, (hd k).keep _ fun l hl => Nat.lt_of_lt_of_le hr (hlo l (List.map_drop ▸ hl))]
  · rw [e1, after_append, e2, after_append, (hd (k + 1)).keep _ fun l hl => Nat.lt_of_lt_of_le hr (hhi l (List.map_drop ▸ hl))]

end Cert.RefRun

end
-- ==== Proof.Ref.Chunks.lean ====
import proofs.«401436_j25331717111921_1_alg».proof.Proof.Ref.RunOps1
import proofs.«401436_j25331717111921_1_alg».proof.Proof.Ref.RunOps2
import proofs.«401436_j25331717111921_1_alg».proof.Proof.Ref.Cut

noncomputable section

namespace Cert.RefRun

open Cert.ReferenceIdeal Cert.ReferenceIdeal.Gen Cert.ReferenceIdeal.RunP
open Idealize.ShloMosaic Idealize.ShloMosaic.TcCoe Idealize.SL.Sem Idealize.ShloMosaic.StableHlo

variable {F : FTy → Type} [FloatOps F]

/-- @main's 275 operations in twelve stretches, each with the number of the first buffer it writes: the twelve arguments
    come first and every operation writes the next buffer. -/
def cs : List (Nat × List (HloOp τ sig (Elt F))) :=
  [(12, opsA), (51, opsB), (72, opsC), (119, opsD), (144, opsE), (152, opsF), (174, opsG), (204, opsH), (212, opsI),
    (237, opsJ), (262, opsK), (272, opsL)]

def los : List Nat := [12, 51, 72, 119, 144, 152, 174, 204, 212, 237, 262, 272]

theorem los_eq : (cs (F := F)).map Prod.fst = los := rfl

theorem cut : Cut (cs (F := F)) := by
  refine List.forall_iff_forall_mem.mp ?_
  simp only [cs, WritesFrom, List.Forall, nullary_writes, unary_writes, binary_writes, ternary_writes, reshape_writes,
    nary_writes, nullary_bufs_sub, unary_bufs_sub, binary_bufs_sub, ternary_bufs_sub, reshape_bufs_sub, nary_bufs_sub,
    Finset.mem_singleton, forall_eq, true_and]
  repeat' apply And.intro
  all_goals first | rfl | exact ⟨_, rfl, by decide⟩

end Cert.RefRun

end
-- ==== Proof.LibNary3.lean ====
import Idealize.ShloMosaic.Lib.StableHlo.Run
noncomputable section
namespace Idealize.ShloMosaic.StableHlo
variable {τ : Topo} {sig : RefSig} {Val : EltTy → Type}
variable {x a b y : Ref sig .tc}
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F
macro "after_results_simp3" : tactic =>
  `(tactic| (
      (simp (disch := decide) only [after_cons, after_nil,
      nullary_result', unary_result', binary_result', ternary_result', quaternary_result', reshape_result', nary3_result', nary4_result',
      unaryIndexed_result', binaryIndexed_result',
      nullary_result_ne', unary_result_ne', binary_result_ne', ternary_result_ne', quaternary_result_ne', reshape_result_ne',
      nary_result_ne', unaryIndexed_result_ne', binaryIndexed_result_ne'])
      try (simp (disch := decide) only [
      nullary_result', unary_result', binary_result', ternary_result', quaternary_result', reshape_result', nary3_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne'])))
end Idealize.ShloMosaic.StableHlo
end
-- ==== Proof.Ref.Stage.lean ====
import proofs.«401436_j25331717111921_1_alg».proof.Proof.Ref.RunOps1
import proofs.«401436_j25331717111921_1_alg».proof.Proof.Ref.RunOps2
import proofs.«401436_j25331717111921_1_alg».proof.Proof.Ref.ReadP
import proofs.«401436_j25331717111921_1_alg».proof.Proof.LibNary3
import proofs.«401436_j25331717111921_1_alg».proof.Proof.Ref.Cut

set_option maxHeartbeats 4000000

noncomputable section

namespace Cert.RefRun

open Cert.ReferenceIdeal Cert.ReferenceIdeal.Gen Cert.ReferenceIdeal.RunP Cert.ReferenceIdeal.ReadP
open Idealize.ShloMosaic Idealize.ShloMosaic.TcCoe Idealize.SL.Sem Idealize.ShloMosaic.StableHlo

variable {F : FTy → Type} [FloatOps F] {Y Z : Valuation τ sig (Elt F)}
  {x0 x2 : (⟨S2000000, .i32⟩ : BufTy).Contents (Elt F)} {x1 : (⟨S2000000x2, .i32⟩ : BufTy).Contents (Elt F)}
  {x3 x4 : (⟨S2000000, .f32⟩ : BufTy).Contents (Elt F)} {x5 : (⟨S50000x3, .f32⟩ : BufTy).Contents (Elt F)}
  {x6 : (⟨S50000x1, .f32⟩ : BufTy).Contents (Elt F)} {x7 : (⟨S500x3, .f32⟩ : BufTy).Contents (Elt F)}
  {x8 : (⟨S500x1, .f32⟩ : BufTy).Contents (Elt F)} {x9 : (⟨S2x1000x100, .f32⟩ : BufTy).Contents (Elt F)}

/-! Each stretch, run from `Y`, leaves in the buffers later stretches read the stages of @main's arguments, given the
stages in the buffers it reads: an operation's result is its function of its operands' contents, and the stages are
defined by the same operations in the same order. -/

theorem stageA (s : Step 12 51 opsA Y Z) (h0 : Z main_arg0 = x0) (h1 : Z main_arg1 = x1) (h2 : Z main_arg2 = x2) (h5 : Z main_arg5 = x5) (h6 : Z main_arg6 = x6) (h7 : Z main_arg7 = x7) (h8 : Z main_arg8 = x8) :
    Z main_v0 = val_main_v0 x2 ∧ Z main_v7 = val_main_v7 x0 x7 ∧ Z main_v15 = val_main_v15 x0 x8 ∧ Z main_v22 = val_main_v22 x1 x5 ∧ Z main_v30 = val_main_v30 x1 x6 := by
  refine ⟨?_, ?_, ?_, ?_, ?_⟩ <;>
    (rw [s.2 _ (by decide)]; after_results_simp3; (try simp (disch := decide) only [s.1, h0, h1, h2, h5, h6, h7, h8]); rfl)

theorem stageB (s : Step 51 72 opsB Y Z) (v7 : Z main_v7 = val_main_v7 x0 x7) (v22 : Z main_v22 = val_main_v22 x1 x5) :
    Z main_v45 = val_main_v45 x0 x1 x5 x7 ∧ Z main_v47 = val_main_v47 x0 x1 x5 x7 ∧ Z main_v48 = val_main_v48 (F := F) := by
  refine ⟨?_, ?_, ?_⟩ <;>
    (rw [s.2 _ (by decide)]; after_results_simp3; (try simp (disch := decide) only [s.1, v7, v22]); rfl)

theorem stageC (s : Step 72 119 opsC Y Z) (v45 : Z main_v45 = val_main_v45 x0 x1 x5 x7) (v47 : Z main_v47 = val_main_v47 x0 x1 x5 x7) (v48 : Z main_v48 = val_main_v48 (F := F)) :
    Z main_v56 = val_main_v56 x0 x1 x5 x7 ∧ Z main_v59 = val_main_v59 x0 x1 x5 x7 ∧ Z main_v62 = val_main_v62 x0 x1 x5 x7 ∧ Z main_v65 = val_main_v65 x0 x1 x5 x7 := by
  refine ⟨?_, ?_, ?_, ?_⟩ <;>
    (rw [s.2 _ (by decide)]; after_results_simp3; (try simp (disch := decide) only [s.1, v45, v47, v48]); rfl)

theorem stageD (s : Step 119 144 opsD Y Z) (v0 : Z main_v0 = val_main_v0 x2) (v56 : Z main_v56 = val_main_v56 x0 x1 x5 x7) (v59 : Z main_v59 = val_main_v59 x0 x1 x5 x7) :
    Z main_v82 = val_main_v82 x2 ∧ Z main_v83 = val_main_v83 x0 x1 x5 x7 ∧ Z main_v84 = val_main_v84 x0 x1 x5 x7 := by
  refine ⟨?_, ?_, ?_⟩ <;>
    (rw [s.2 _ (by decide)]; after_results_simp3; (try simp (disch := decide) only [s.1, v0, v56, v59]); rfl)

theorem stageE (s : Step 144 152 opsE Y Z) (h9 : Z main_arg9 = x9) (v0 : Z main_v0 = val_main_v0 x2) (v56 : Z main_v56 = val_main_v56 x0 x1 x5 x7) (v82 : Z main_v82 = val_main_v82 x2) (v83 : Z main_v83 = val_main_v83 x0 x1 x5 x7) (v84 : Z main_v84 = val_main_v84 x0 x1 x5 x7) :
    Z main_v86 = val_main_v86 x0 x1 x2 x5 x7 x9 ∧ Z main_v88 = val_main_v88 x0 x1 x5 x7 ∧ Z main_v90 = val_main_v90 x2 := by
  refine ⟨?_, ?_, ?_⟩ <;>
    (rw [s.2 _ (by decide)]; after_results_simp3; (try simp (disch := decide) only [s.1, h9, v0, v56, v82, v83, v84]);
      (try rw [s.1 main_v82 (by decide), s.1 main_v83 (by decide), s.1 main_v84 (by decide), v82, v83, v84]); rfl)

theorem stageF (s : Step 152 174 opsF Y Z) (v0 : Z main_v0 = val_main_v0 x2) (v59 : Z main_v59 = val_main_v59 x0 x1 x5 x7) (v88 : Z main_v88 = val_main_v88 x0 x1 x5 x7) (v90 : Z main_v90 = val_main_v90 x2) :
    Z main_v105 = val_main_v105 x2 ∧ Z main_v106 = val_main_v106 x0 x1 x5 x7 ∧ Z main_v107 = val_main_v107 x0 x1 x5 x7 := by
  refine ⟨?_, ?_, ?_⟩ <;>
    (rw [s.2 _ (by decide)]; after_results_simp3; (try simp (disch := decide) only [s.1, v0, v59, v88, v90]); rfl)

theorem stageG (s : Step 174 204 opsG Y Z) (h9 : Z main_arg9 = x9) (v0 : Z main_v0 = val_main_v0 x2) (v56 : Z main_v56 = val_main_v56 x0 x1 x5 x7) (v59 : Z main_v59 = val_main_v59 x0 x1 x5 x7) (v105 : Z main_v105 = val_main_v105 x2) (v106 : Z main_v106 = val_main_v106 x0 x1 x5 x7) (v107 : Z main_v107 = val_main_v107 x0 x1 x5 x7) :
    Z main_v109 = val_main_v109 x0 x1 x2 x5 x7 x9 ∧ Z main_v128 = val_main_v128 x2 ∧ Z main_v129 = val_main_v129 x0 x1 x5 x7 ∧ Z main_v130 = val_main_v130 x0 x1 x5 x7 := by
  refine ⟨?_, ?_, ?_, ?_⟩ <;>
    (rw [s.2 _ (by decide)]; after_results_simp3; (try simp (disch := decide) only [s.1, h9, v0, v56, v59, v105, v106, v107]);
      (try rw [s.1 main_v105 (by decide), s.1 main_v106 (by decide), s.1 main_v107 (by decide), v105, v106, v107]); rfl)

theorem stageH (s : Step 204 212 opsH Y Z) (h9 : Z main_arg9 = x9) (v56 : Z main_v56 = val_main_v56 x0 x1 x5 x7) (v59 : Z main_v59 = val_main_v59 x0 x1 x5 x7) (v128 : Z main_v128 = val_main_v128 x2) (v129 : Z main_v129 = val_main_v129 x0 x1 x5 x7) (v130 : Z main_v130 = val_main_v130 x0 x1 x5 x7) :
    Z main_v132 = val_main_v132 x0 x1 x2 x5 x7 x9 ∧ Z main_v134 = val_main_v134 x0 x1 x5 x7 ∧ Z main_v136 = val_main_v136 x0 x1 x5 x7 := by
  refine ⟨?_, ?_, ?_⟩ <;>
    (rw [s.2 _ (by decide)]; after_results_simp3; (try simp (disch := decide) only [s.1, h9, v56, v59, v128, v129, v130]);
      (try rw [s.1 main_v128 (by decide), s.1 main_v129 (by decide), s.1 main_v130 (by decide), v128, v129, v130]); rfl)

theorem stageI (s : Step 212 237 opsI Y Z) (v0 : Z main_v0 = val_main_v0 x2) (v134 : Z main_v134 = val_main_v134 x0 x1 x5 x7) (v136 : Z main_v136 = val_main_v136 x0 x1 x5 x7) :
    Z main_v153 = val_main_v153 x2 ∧ Z main_v154 = val_main_v154 x0 x1 x5 x7 ∧ Z main_v155 = val_main_v155 x0 x1 x5 x7 := by
  refine ⟨?_, ?_, ?_⟩ <;>
    (rw [s.2 _ (by decide)]; after_results_simp3; (try simp (disch := decide) only [s.1, v0, v134, v136]); rfl)

theorem stageJ (s : Step 237 262 opsJ Y Z) (h9 : Z main_arg9 = x9) (v62 : Z main_v62 = val_main_v62 x0 x1 x5 x7) (v65 : Z main_v65 = val_main_v65 x0 x1 x5 x7) (v86 : Z main_v86 = val_main_v86 x0 x1 x2 x5 x7 x9) (v109 : Z main_v109 = val_main_v109 x0 x1 x2 x5 x7 x9) (v132 : Z main_v132 = val_main_v132 x0 x1 x2 x5 x7 x9) (v153 : Z main_v153 = val_main_v153 x2) (v154 : Z main_v154 = val_main_v154 x0 x1 x5 x7) (v155 : Z main_v155 = val_main_v155 x0 x1 x5 x7) :
    Z main_v176 = val_main_v176 x0 x1 x2 x5 x7 x9 := by
  (rw [s.2 _ (by decide)]; after_results_simp3; (try simp (disch := decide) only [s.1, h9, v62, v65, v86, v109, v132, v153, v154, v155]);
      (try rw [s.1 main_v153 (by decide), s.1 main_v154 (by decide), s.1 main_v155 (by decide), v153, v154, v155]); rfl)

theorem stageK (s : Step 262 272 opsK Y Z) (h3 : Z main_arg3 = x3) (v15 : Z main_v15 = val_main_v15 x0 x8) (v30 : Z main_v30 = val_main_v30 x1 x6) (v176 : Z main_v176 = val_main_v176 x0 x1 x2 x5 x7 x9) :
    Z main_v185 = val_main_v185 x0 x1 x2 x5 x6 x7 x8 x9 ∧ Z main_v186 = val_main_v186 x0 x1 x2 x3 x5 x6 x7 x8 x9 := by
  refine ⟨?_, ?_⟩ <;>
    (rw [s.2 _ (by decide)]; after_results_simp3; (try simp (disch := decide) only [s.1, h3, v15, v30, v176]); rfl)

theorem stageL (s : Step 272 287 opsL Y Z) (h4 : Z main_arg4 = x4) (v186 : Z main_v186 = val_main_v186 x0 x1 x2 x3 x5 x6 x7 x8 x9) :
    Z main_v197 = val_main_v197 x0 x1 x2 x3 x4 x5 x6 x7 x8 x9 := by
  (rw [s.2 _ (by decide)]; after_results_simp3; (try simp (disch := decide) only [s.1, h4, v186]); rfl)

end Cert.RefRun

end
-- ==== Proof.Ref.Run.lean ====
import proofs.«401436_j25331717111921_1_alg».proof.Proof.Ref.Chunks
import proofs.«401436_j25331717111921_1_alg».proof.Proof.Ref.Stage

noncomputable section

namespace Cert.RefRun

open Cert.ReferenceIdeal Cert.ReferenceIdeal.Gen Cert.ReferenceIdeal.RunP Cert.ReferenceIdeal.ReadP
open Idealize.ShloMosaic Idealize.ShloMosaic.TcCoe Idealize.SL.Sem Idealize.ShloMosaic.StableHlo

variable {F : FTy → Type} [FloatOps F]

/-- @main is the line of its operations: each of its five windows is the line of its stretches, and lines run in a row are
    their concatenation run as one. -/
theorem main_eq (c : Dev nD) : main (F := F) c = seq (flat cs) := by
  rw [show flat (cs (F := F)) = (opsA ++ opsB) ++ ((opsC ++ (opsD ++ opsE)) ++ ((opsF ++ (opsG ++ opsH)) ++ ((opsI ++ (opsJ ++ opsK)) ++ opsL))) by
      simp only [cs, flat, List.map_cons, List.map_nil, List.flatten_cons, List.flatten_nil, List.append_assoc, List.append_nil],
    seq_append (opsA ++ opsB), seq_append (opsC ++ (opsD ++ opsE)), seq_append (opsF ++ (opsG ++ opsH)),
    seq_append (opsI ++ (opsJ ++ opsK))]
  rfl

/-- The arguments are numbered below every stretch, so no operation writes them. -/
theorem keep (Y0 : Valuation τ sig (Elt F)) (r : Ref sig .tc) (hr : ∀ l ∈ los, r.idx.val < l) :
    after (flat cs) Y0 r = Y0 r :=
  cut.keep Y0 (los_eq (F := F) ▸ hr)

/-- The line ends with the two result buffers at their stages of the arguments' contents before it: stretch by stretch. -/
theorem results (Y0 : Valuation τ sig (Elt F)) :
    after (flat cs) Y0 main_v185 = val_main_v185 (Y0 main_arg0) (Y0 main_arg1) (Y0 main_arg2) (Y0 main_arg5) (Y0 main_arg6) (Y0 main_arg7) (Y0 main_arg8) (Y0 main_arg9)
      ∧ after (flat cs) Y0 main_v197 = val_main_v197 (Y0 main_arg0) (Y0 main_arg1) (Y0 main_arg2) (Y0 main_arg3) (Y0 main_arg4) (Y0 main_arg5) (Y0 main_arg6) (Y0 main_arg7) (Y0 main_arg8) (Y0 main_arg9) := by
  have S := fun k hk lo hi h1 h2 => (cut (F := F)).step los_eq k hk (lo := lo) (hi := hi) h1 h2 Y0
  obtain ⟨v0, v7, v15, v22, v30⟩ := stageA (S 0 (by decide) 12 51 (by decide) (by decide)) (keep Y0 main_arg0 (by decide)) (keep Y0 main_arg1 (by decide)) (keep Y0 main_arg2 (by decide)) (keep Y0 main_arg5 (by decide)) (keep Y0 main_arg6 (by decide)) (keep Y0 main_arg7 (by decide)) (keep Y0 main_arg8 (by decide))
  obtain ⟨v45, v47, v48⟩ := stageB (S 1 (by decide) 51 72 (by decide) (by decide)) v7 v22
  obtain ⟨v56, v59, v62, v65⟩ := stageC (S 2 (by decide) 72 119 (by decide) (by decide)) v45 v47 v48
  obtain ⟨v82, v83, v84⟩ := stageD (S 3 (by decide) 119 144 (by decide) (by decide)) v0 v56 v59
  obtain ⟨v86, v88, v90⟩ := stageE (S 4 (by decide) 144 152 (by decide) (by decide)) (keep Y0 main_arg9 (by decide)) v0 v56 v82 v83 v84
  obtain ⟨v105, v106, v107⟩ := stageF (S 5 (by decide) 152 174 (by decide) (by decide)) v0 v59 v88 v90
  obtain ⟨v109, v128, v129, v130⟩ := stageG (S 6 (by decide) 174 204 (by decide) (by decide)) (keep Y0 main_arg9 (by decide)) v0 v56 v59 v105 v106 v107
  obtain ⟨v132, v134, v136⟩ := stageH (S 7 (by decide) 204 212 (by decide) (by decide)) (keep Y0 main_arg9 (by decide)) v56 v59 v128 v129 v130
  obtain ⟨v153, v154, v155⟩ := stageI (S 8 (by decide) 212 237 (by decide) (by decide)) v0 v134 v136
  have v176 := stageJ (S 9 (by decide) 237 262 (by decide) (by decide)) (keep Y0 main_arg9 (by decide)) v62 v65 v86 v109 v132 v153 v154 v155
  obtain ⟨v185, v186⟩ := stageK (S 10 (by decide) 262 272 (by decide) (by decide)) (keep Y0 main_arg3 (by decide)) v15 v30 v176
  exact ⟨v185, stageL (S 11 (by decide) 272 287 (by decide) (by decide)) (keep Y0 main_arg4 (by decide)) v186⟩

theorem run (m' : (ℓ : Loc nD τ sig) → Buf (Elt F) ℓ) (ρ' : Dev nD → PrngReg) :
    θ_run defs (onTc (τ := τ) (main (F := F))) ⟨m', fun _ => 0, ρ'⟩ fun r => ∀ c : Dev nD,
      r.2.mem ((c.tc : Thread nD τ).loc main_v185) = val_main_v185 (F := F) (m' ((c.tc : Thread nD τ).loc main_arg0)) (m' ((c.tc : Thread nD τ).loc main_arg1)) (m' ((c.tc : Thread nD τ).loc main_arg2)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9))
      ∧ r.2.mem ((c.tc : Thread nD τ).loc main_v197) = val_main_v197 (F := F) (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) (m' ((c.tc : Thread nD τ).loc main_arg8)) (m' ((c.tc : Thread nD τ).loc main_arg9))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11) :=
  (θ_run defs _ _).mono (fun s h c =>
      have hr := results (launchContents m' c)
      have k : ∀ r : Ref sig .tc, (∀ l ∈ los, r.idx.val < l) →
          s.2.mem ((c.tc : Thread nD τ).loc r) = m' ((c.tc : Thread nD τ).loc r) :=
        fun r hr => (h c r).trans (keep _ r hr)
      ⟨(h c _).trans hr.1, (h c _).trans hr.2, k main_arg0 (by decide), k main_arg1 (by decide), k main_arg2 (by decide),
        k main_arg3 (by decide), k main_arg4 (by decide), k main_arg5 (by decide), k main_arg6 (by decide),
        k main_arg7 (by decide), k main_arg8 (by decide), k main_arg9 (by decide), k main_arg10 (by decide),
        k main_arg11 (by decide)⟩)
    (run_seq (by decide) (by decide) defs main (fun _ => flat cs) main_eq (fun _ => cut.sub) m' ρ' (fun _ => cut.fresh))

end Cert.RefRun

end
-- ==== Proof.Bridge.PrefixC0.lean ====
import proofs.«401436_j25331717111921_1_alg».proof.Proof.KI.Kit
import Idealize.ShloMosaic.Lib.StableHlo.Run
import Idealize.ShloMosaic.Lib.KernelVsHost
import Idealize.ShloMosaic.Lib.ValueLayout
import Idealize.ShloMosaic.PureOps.Ideal.Laws

set_option maxRecDepth 16384

noncomputable section

namespace Cert.Bridge

open Idealize.ShloMosaic Idealize.ShloMosaic.ValueIdx Idealize.ShloMosaic.TcCoe Idealize.SL.Sem
open Cert.KernelIdeal Cert.KernelIdeal.Gen Cert.KernelIdeal.Hand

def padRow (x : S2000000.Idx → Ideal .f32) : S1x2048000.Idx → Ideal .f32 :=
  fun i => shapeCast S1x2048000
    (pad S2048000 ![0] ![48000] ![0] x (sitofp (F := Ideal) .f32 (constantI S_ 32 0#32)) pads_S2000000_S2048000_0480000 h_S_)
    shapeCasts_S2048000_S1x2048000 i

-- Place `j` of the row is place `j` of the padded vector, which lies inside the operand.
theorem padRow_lo (x : S2000000.Idx → Ideal .f32) (j : Fin 2000000) :
    padRow x (ix2 (0 : Fin 1) (⟨j.val, by have := j.isLt; omega⟩ : Fin 2048000)) = x (ix1 j) :=
  (shapeCast_a_1a_apply _ _ _ _).trans (pad_apply_of_inside _ _ _ x _ _ _ _ (ix1 j) fun a => by
    match a with
    | ⟨0, _⟩ => show j.val = 0 + j.val * (0 + 1); omega)

-- Past the operand's end the padded vector holds the padding value, the float of the integer zero.
theorem padRow_hi (x : S2000000.Idx → Ideal .f32) (j : Fin 2048000) (hj : 2000000 ≤ j.val) :
    padRow x (ix2 (0 : Fin 1) j) = 0 := by
  refine ((shapeCast_a_1a_apply _ _ _ _).trans (pad_apply_of_not_inside _ _ _ x _ _ _ _ (0 : Fin 1) ?_)).trans ?_
  · show ¬(0 ≤ j.val ∧ (j.val - 0) % (0 + 1) = 0 ∧ (j.val - 0) / (0 + 1) < 2000000)
    rw [Nat.sub_zero, Nat.div_one]; omega
  · show (((0#32 : BitVec 32).toInt : ℝ) : EReal) = 0
    rw [BitVec.toInt_zero, Int.cast_zero, EReal.coe_zero]

variable (m : (ℓ : Loc nD τ sig) → Buf (Elt Ideal) ℓ) (c : Dev nD)

def upTo (k : Nat) : Valuation τ sig (Elt Ideal) :=
  StableHlo.after ((prefixOps (F := Ideal)).take k).flatten fun b => m (c, b)

-- The contents after the prefix are the contents after its first `k` stretches run through the remaining ones.
theorem V0_from (k : Nat) : V0 m c = StableHlo.after ((prefixOps (F := Ideal)).drop k).flatten (upTo m c k) := by
  rw [upTo, ← StableHlo.after_append, ← List.flatten_append, List.take_append_drop]

macro "run_tail" k:num : tactic =>
  `(tactic|
    (dsimp only [V]; rw [V0_from _ _ $k]
     simp only [prefixOps, List.drop_succ_cons, List.drop_zero,
        hostOps0_16, hostOps0_17, hostOps0_18, hostOps0_19, hostOps0_20, hostOps0_21, hostOps0_22, hostOps0_23, hostOps0_24,
        hostOps0_25, hostOps0_26, hostOps0_27, hostOps0_28, hostOps0_29, hostOps0_30, hostOps0_31, hostOps0_32, hostOps0_33,
        hostOps0_34, hostOps0_35, hostOps0_36, hostOps0_37, hostOps0_38, hostOps0_39, hostOps0_40, hostOps0_41, hostOps0_42,
        hostOps0_43, hostOps0_44, hostOps0_45, hostOps0_46, hostOps0_47, hostOps0_48, hostOps0_49, hostOps0_50,
        List.flatten_cons, List.flatten_nil, List.append_nil, List.cons_append, List.nil_append]
     after_results_simp; rfl))

-- Row `k`'s zero, padding and layout are stretches `16 + 2k` to `18 + 2k`, and nothing later writes the row, the padded vector or the vector.
set_option maxHeartbeats 4000000 in
theorem row_0 : V m c main_v269 = padRow (V m c main_v78) := by run_tail 16

end Cert.Bridge

end
-- ==== Proof.Bridge.PrefixC1.lean ====
import proofs.«401436_j25331717111921_1_alg».proof.Proof.Bridge.PrefixC0

set_option maxRecDepth 16384

noncomputable section

namespace Cert.Bridge

open Idealize.ShloMosaic Idealize.ShloMosaic.ValueIdx Idealize.ShloMosaic.TcCoe Idealize.SL.Sem
open Cert.KernelIdeal Cert.KernelIdeal.Gen Cert.KernelIdeal.Hand

variable (m : (ℓ : Loc nD τ sig) → Buf (Elt Ideal) ℓ) (c : Dev nD)

theorem row_1 : V m c main_v271 = padRow (V m c main_v100) := by run_tail 18
theorem row_2 : V m c main_v273 = padRow (V m c main_v122) := by run_tail 20
theorem row_3 : V m c main_v275 = padRow (V m c main_v146) := by run_tail 22
theorem row_4 : V m c main_v277 = padRow (V m c main_v55) := by run_tail 24
theorem row_5 : V m c main_v279 = padRow (V m c main_v58) := by run_tail 26
theorem row_6 : V m c main_v281 = padRow (V m c main_v195) := by run_tail 28
theorem row_7 : V m c main_v283 = padRow (V m c main_v217) := by run_tail 30
theorem row_8 : V m c main_v285 = padRow (V m c main_v239) := by run_tail 32

end Cert.Bridge

end
-- ==== Proof.Bridge.PrefixC2.lean ====
import proofs.«401436_j25331717111921_1_alg».proof.Proof.Bridge.PrefixC0

set_option maxRecDepth 16384

noncomputable section

namespace Cert.Bridge

open Idealize.ShloMosaic Idealize.ShloMosaic.ValueIdx Idealize.ShloMosaic.TcCoe Idealize.SL.Sem
open Cert.KernelIdeal Cert.KernelIdeal.Gen Cert.KernelIdeal.Hand

variable (m : (ℓ : Loc nD τ sig) → Buf (Elt Ideal) ℓ) (c : Dev nD)

theorem row_9 : V m c main_v287 = padRow (V m c main_v263) := by run_tail 34
theorem row_10 : V m c main_v289 = padRow (V m c main_v172) := by run_tail 36
theorem row_11 : V m c main_v291 = padRow (V m c main_v175) := by run_tail 38
theorem row_12 : V m c main_v293 = padRow (V m c main_v265) := by run_tail 40
theorem row_13 : V m c main_v295 = padRow (V m c main_v267) := by run_tail 42
theorem row_14 : V m c main_v297 = padRow (V m c main_v14) := by run_tail 44
theorem row_15 : V m c main_v299 = padRow (V m c main_arg3) := by run_tail 46
theorem row_16 : V m c main_v301 = padRow (V m c main_arg4) := by run_tail 48

end Cert.Bridge

end
-- ==== Proof.Bridge.PrefixSplit.lean ====
import proofs.«401436_j25331717111921_1_alg».proof.Proof.KI.Kit
import Idealize.ShloMosaic.Lib.StableHlo.Run

set_option maxRecDepth 16384

noncomputable section

namespace Cert.KernelIdeal.Hand

open Idealize.ShloMosaic Idealize.ShloMosaic.TcCoe Idealize.SL.Sem
open Cert.KernelIdeal Cert.KernelIdeal.Gen

variable {F : FTy → Type} [FloatOps F]

def WritesFrom (lo : Nat) (ops : List (HloOp τ sig (Elt F))) : Prop :=
  ops.Forall fun op => ∀ b ∈ op.writes, ∃ y : Ref sig .tc, b = Proc.devRef (τ := τ) .tc y ∧ lo ≤ y.idx.val

theorem WritesFrom.mono {lo lo' : Nat} {ops : List (HloOp τ sig (Elt F))} (h : WritesFrom lo ops) (hle : lo' ≤ lo) :
    WritesFrom lo' ops :=
  List.Forall.imp (fun _ hop b hb => (hop b hb).imp fun _ hy => ⟨hy.1, Nat.le_trans hle hy.2⟩) h

theorem WritesFrom.append {lo : Nat} {l₁ l₂ : List (HloOp τ sig (Elt F))} (h₁ : WritesFrom lo l₁) (h₂ : WritesFrom lo l₂) :
    WritesFrom lo (l₁ ++ l₂) :=
  List.forall_append.mpr ⟨h₁, h₂⟩

theorem after_of_writesFrom {lo : Nat} {ops : List (HloOp τ sig (Elt F))} (h : WritesFrom lo ops)
    (Y : Valuation τ sig (Elt F)) (r : Ref sig .tc) (hr : r.idx.val < lo) :
    StableHlo.after ops Y (Proc.devRef .tc r) = Y (Proc.devRef .tc r) :=
  StableHlo.after_of_forall_not_mem (b := Proc.devRef .tc r) _ _ fun op hop hb => by
    obtain ⟨y, hy, hlo⟩ := (List.forall_iff_forall_mem.mp h) op hop _ hb
    have hry : r = y := Proc.devRef_injective _ hy
    subst hry
    omega

abbrev pre8 : List (List (HloOp τ sig (Elt F))) := [hostOps0, hostOps0_1, hostOps0_2, hostOps0_3, hostOps0_4, hostOps0_5, hostOps0_6, hostOps0_7]
abbrev mid : List (List (HloOp τ sig (Elt F))) := [hostOps0_9, hostOps0_10, hostOps0_11, hostOps0_12, hostOps0_13, hostOps0_14, hostOps0_15]
abbrev post16 : List (List (HloOp τ sig (Elt F))) := [hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50]

set_option maxHeartbeats 4000000 in
theorem stretch_writes : WritesFrom 110 (hostOps0_8 (F := F)) ∧ WritesFrom 250 (List.flatten (mid (F := F)))
    ∧ WritesFrom 286 (hostOps0_16 (F := F)) ∧ WritesFrom 407 (List.flatten (post16 (F := F))) := by
  simp only [WritesFrom, mid, post16, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50,
    List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, StableHlo.nary_writes,
    StableHlo.unaryIndexed_writes, Finset.mem_singleton, forall_eq]
  repeat' apply And.intro
  all_goals exact ⟨_, rfl, by decide⟩

variable (m : (ℓ : Loc nD τ sig) → Buf (Elt F) ℓ)

abbrev X8 (c : Dev nD) : Valuation τ sig (Elt F) := StableHlo.after (List.flatten (pre8 (F := F))) (fun b => m (c, b))
abbrev Y8 (c : Dev nD) : Valuation τ sig (Elt F) := StableHlo.after hostOps0_8 (X8 m c)
abbrev X16 (c : Dev nD) : Valuation τ sig (Elt F) := StableHlo.after (List.flatten (mid (F := F))) (Y8 m c)
abbrev Y16 (c : Dev nD) : Valuation τ sig (Elt F) := StableHlo.after hostOps0_16 (X16 m c)

theorem V_eq_Y16 (c : Dev nD) (r : Ref sig .tc) (hr : r.idx.val < 407) : V m c r = Y16 m c (Proc.devRef .tc r) := by
  show StableHlo.after (List.flatten (pre8 ++ hostOps0_8 :: (mid ++ hostOps0_16 :: post16))) (fun b => m (c, b)) _ = _
  rw [List.flatten_append, StableHlo.after_append, List.flatten_cons, StableHlo.after_append, List.flatten_append,
    StableHlo.after_append, List.flatten_cons, StableHlo.after_append]
  exact after_of_writesFrom stretch_writes.2.2.2 _ r hr
theorem V_eq_X16 (c : Dev nD) (r : Ref sig .tc) (hr : r.idx.val < 286) : V m c r = X16 m c (Proc.devRef .tc r) :=
  (V_eq_Y16 m c r (by omega)).trans (after_of_writesFrom stretch_writes.2.2.1 _ r hr)
theorem V_eq_Y8 (c : Dev nD) (r : Ref sig .tc) (hr : r.idx.val < 250) : V m c r = Y8 m c (Proc.devRef .tc r) :=
  (V_eq_X16 m c r (by omega)).trans (after_of_writesFrom stretch_writes.2.1 _ r hr)
theorem V_eq_X8 (c : Dev nD) (r : Ref sig .tc) (hr : r.idx.val < 110) : V m c r = X8 m c (Proc.devRef .tc r) :=
  (V_eq_Y8 m c r (by omega)).trans (after_of_writesFrom stretch_writes.1 _ r hr)

end Cert.KernelIdeal.Hand

end
-- ==== Proof.Bridge.PrefixAsm.lean ====
import proofs.«401436_j25331717111921_1_alg».proof.Proof.Bridge.PrefixC1
import proofs.«401436_j25331717111921_1_alg».proof.Proof.Bridge.PrefixC2
import proofs.«401436_j25331717111921_1_alg».proof.Proof.Bridge.PrefixSplit
import proofs.«401436_j25331717111921_1_alg».proof.Proof.Bridge.Stages
import proofs.«401436_j25331717111921_1_alg».proof.Proof.KI.Pts
import proofs.«401436_j25331717111921_1_alg».proof.Proof.KI.VArgs

noncomputable section

namespace Cert.Bridge

open Idealize.ShloMosaic Idealize.ShloMosaic.ValueIdx Idealize.ShloMosaic.TcCoe Idealize.SL.Sem
open Cert.KernelIdeal Cert.KernelIdeal.Gen Cert.KernelIdeal.Hand
open Cert.ReferenceIdeal.ReadP (val_main_v86 val_main_v109 val_main_v132 val_main_v157 val_main_v62 val_main_v65 val_main_v30 val_main_v15)

variable (m : (ℓ : Loc nD τ sig) → Buf (Elt Ideal) ℓ) (c : Dev nD)

-- Place `j` of the vector and place `(j, 0)` of the slice share a row-major position; the slice is the array shifted by `e`.
theorem column_apply {α : Type} (y : S2000000x2.Idx → α) (e : Fin 2) (hs : S2000000x2.Slices ![0, e.val] S2000000x1)
    (hc : S2000000x1.ShapeCasts S2000000) (j : Fin 2000000) :
    shapeCast S2000000 (extractStridedSlice S2000000x1 ![0, e.val] y hs) hc (ix1 j) = y (ix2 j e) :=
  (shapeCast_apply _ hc (ix1 j) (ix2 j (0 : Fin 1)) (by
    rw [Shape.rowMajor_val_two, Shape.rowMajor_val_one]; show j.val * 1 + 0 = j.val; omega)).trans
    (slice2_axis1_apply e.val y hs j 0 e rfl)

-- Both arrays are written in the first stretch and by nothing later, from the launch memory, by the reference's own operations.
theorem gathered :
    (V m c main_v29 : S2000000x2.Idx → Ideal .f32) = val_main_v30 (F := Ideal) (m ((c : Thread nD τ).loc main_arg1)) (m ((c : Thread nD τ).loc main_arg6))
      ∧ (V m c main_v14 : S2000000.Idx → Ideal .f32) = val_main_v15 (F := Ideal) (m ((c : Thread nD τ).loc main_arg0)) (m ((c : Thread nD τ).loc main_arg8)) := by
  rw [V_eq_X8 m c main_v29 (by decide), V_eq_X8 m c main_v14 (by decide)]
  dsimp only [X8, pre8]
  simp only [hostOps0, hostOps0_1, hostOps0_2, hostOps0_3, hostOps0_4, hostOps0_5, hostOps0_6, hostOps0_7,
    List.flatten_cons, List.flatten_nil, List.append_nil, List.cons_append, List.nil_append]
  after_results_simp
  exact ⟨rfl, rfl⟩

-- The two origin-time vectors are columns 0 and 1 of the origin-time array, cut near the end of the last long stretch.
theorem evt (j : Fin 2000000) :
    (V m c main_v265 (ix1 j) : Ideal .f32) = V m c main_v29 (ix2 j (0 : Fin 2))
      ∧ (V m c main_v267 (ix1 j) : Ideal .f32) = V m c main_v29 (ix2 j (1 : Fin 2)) := by
  rw [V_eq_Y16 m c main_v265 (by decide), V_eq_Y16 m c main_v267 (by decide), V_eq_X16 m c main_v29 (by decide)]
  dsimp only [Y16]
  generalize X16 m c = W
  simp only [hostOps0_16]
  after_results_simp
  exact ⟨column_apply _ 0 _ _ j, column_apply _ 1 _ _ j⟩

-- Each row at the pick's place is its vector at the pick, and the vector at the pick is the reference's stage there.
theorem kPt_pick_of (j : Fin 2000000)
    (h00_0 : (V m c main_v78 (ix1 j) : Ideal .f32) = val_main_v86 (F := Ideal) (m ((c : Thread nD τ).loc main_arg0)) (m ((c : Thread nD τ).loc main_arg1)) (m ((c : Thread nD τ).loc main_arg2)) (m ((c : Thread nD τ).loc main_arg5)) (m ((c : Thread nD τ).loc main_arg7)) (m ((c : Thread nD τ).loc main_arg9)) (ix2 j (0 : Fin 2)))
    (h10_0 : (V m c main_v100 (ix1 j) : Ideal .f32) = val_main_v109 (F := Ideal) (m ((c : Thread nD τ).loc main_arg0)) (m ((c : Thread nD τ).loc main_arg1)) (m ((c : Thread nD τ).loc main_arg2)) (m ((c : Thread nD τ).loc main_arg5)) (m ((c : Thread nD τ).loc main_arg7)) (m ((c : Thread nD τ).loc main_arg9)) (ix2 j (0 : Fin 2)))
    (h01_0 : (V m c main_v122 (ix1 j) : Ideal .f32) = val_main_v132 (F := Ideal) (m ((c : Thread nD τ).loc main_arg0)) (m ((c : Thread nD τ).loc main_arg1)) (m ((c : Thread nD τ).loc main_arg2)) (m ((c : Thread nD τ).loc main_arg5)) (m ((c : Thread nD τ).loc main_arg7)) (m ((c : Thread nD τ).loc main_arg9)) (ix2 j (0 : Fin 2)))
    (h11_0 : (V m c main_v146 (ix1 j) : Ideal .f32) = val_main_v157 (F := Ideal) (m ((c : Thread nD τ).loc main_arg0)) (m ((c : Thread nD τ).loc main_arg1)) (m ((c : Thread nD τ).loc main_arg2)) (m ((c : Thread nD τ).loc main_arg5)) (m ((c : Thread nD τ).loc main_arg7)) (m ((c : Thread nD τ).loc main_arg9)) (ix2 j (0 : Fin 2)))
    (hdx0 : (V m c main_v55 (ix1 j) : Ideal .f32) = val_main_v62 (F := Ideal) (m ((c : Thread nD τ).loc main_arg0)) (m ((c : Thread nD τ).loc main_arg1)) (m ((c : Thread nD τ).loc main_arg5)) (m ((c : Thread nD τ).loc main_arg7)) (ix2 j (0 : Fin 2)))
    (hdy0 : (V m c main_v58 (ix1 j) : Ideal .f32) = val_main_v65 (F := Ideal) (m ((c : Thread nD τ).loc main_arg0)) (m ((c : Thread nD τ).loc main_arg1)) (m ((c : Thread nD τ).loc main_arg5)) (m ((c : Thread nD τ).loc main_arg7)) (ix2 j (0 : Fin 2)))
    (h00_1 : (V m c main_v195 (ix1 j) : Ideal .f32) = val_main_v86 (F := Ideal) (m ((c : Thread nD τ).loc main_arg0)) (m ((c : Thread nD τ).loc main_arg1)) (m ((c : Thread nD τ).loc main_arg2)) (m ((c : Thread nD τ).loc main_arg5)) (m ((c : Thread nD τ).loc main_arg7)) (m ((c : Thread nD τ).loc main_arg9)) (ix2 j (1 : Fin 2)))
    (h10_1 : (V m c main_v217 (ix1 j) : Ideal .f32) = val_main_v109 (F := Ideal) (m ((c : Thread nD τ).loc main_arg0)) (m ((c : Thread nD τ).loc main_arg1)) (m ((c : Thread nD τ).loc main_arg2)) (m ((c : Thread nD τ).loc main_arg5)) (m ((c : Thread nD τ).loc main_arg7)) (m ((c : Thread nD τ).loc main_arg9)) (ix2 j (1 : Fin 2)))
    (h01_1 : (V m c main_v239 (ix1 j) : Ideal .f32) = val_main_v132 (F := Ideal) (m ((c : Thread nD τ).loc main_arg0)) (m ((c : Thread nD τ).loc main_arg1)) (m ((c : Thread nD τ).loc main_arg2)) (m ((c : Thread nD τ).loc main_arg5)) (m ((c : Thread nD τ).loc main_arg7)) (m ((c : Thread nD τ).loc main_arg9)) (ix2 j (1 : Fin 2)))
    (h11_1 : (V m c main_v263 (ix1 j) : Ideal .f32) = val_main_v157 (F := Ideal) (m ((c : Thread nD τ).loc main_arg0)) (m ((c : Thread nD τ).loc main_arg1)) (m ((c : Thread nD τ).loc main_arg2)) (m ((c : Thread nD τ).loc main_arg5)) (m ((c : Thread nD τ).loc main_arg7)) (m ((c : Thread nD τ).loc main_arg9)) (ix2 j (1 : Fin 2)))
    (hdx1 : (V m c main_v172 (ix1 j) : Ideal .f32) = val_main_v62 (F := Ideal) (m ((c : Thread nD τ).loc main_arg0)) (m ((c : Thread nD τ).loc main_arg1)) (m ((c : Thread nD τ).loc main_arg5)) (m ((c : Thread nD τ).loc main_arg7)) (ix2 j (1 : Fin 2)))
    (hdy1 : (V m c main_v175 (ix1 j) : Ideal .f32) = val_main_v65 (F := Ideal) (m ((c : Thread nD τ).loc main_arg0)) (m ((c : Thread nD τ).loc main_arg1)) (m ((c : Thread nD τ).loc main_arg5)) (m ((c : Thread nD τ).loc main_arg7)) (ix2 j (1 : Fin 2))) :
    kPt m c (⟨j.val, by have := j.isLt; omega⟩ : Fin 2048000)
      = refPt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) j := by
  unfold kPt refPt cornerPt
  simp only [Matrix.cons_val]
  rw [row_0 m c, row_1 m c, row_2 m c, row_3 m c, row_4 m c, row_5 m c, row_6 m c, row_7 m c, row_8 m c,
    row_9 m c, row_10 m c, row_11 m c, row_12 m c, row_13 m c, row_14 m c, row_15 m c, row_16 m c]
  simp only [padRow_lo]
  rw [h00_0, h10_0, h01_0, h11_0, hdx0, hdy0, h00_1, h10_1, h01_1, h11_1, hdx1, hdy1, (evt m c j).1, (evt m c j).2,
    (gathered m c).1, (gathered m c).2, V_main_arg3 m c, V_main_arg4 m c]

theorem kPt_pad_weight (j : Fin 2048000) (h : 2000000 ≤ j.val) : kPt m c j 16 = 0 := by
  unfold kPt
  simp only [Matrix.cons_val]
  rw [row_16 m c]; exact padRow_hi _ j h

end Cert.Bridge

end
-- ==== Proof.Bridge.PrefixChain.lean ====
import proofs.«401436_j25331717111921_1_alg».proof.Proof.Gen.KernelIdeal
import Idealize.ShloMosaic.Lib.ValueLayout
import Idealize.ShloMosaic.PureOps.Ideal.Laws

noncomputable section

namespace Cert.Bridge.Chain

open Idealize.ShloMosaic Idealize.ShloMosaic.ValueIdx
open Cert.KernelIdeal Cert.KernelIdeal.Gen

abbrev zeroW : EReal := Ideal.ofBits .f32 0x00000000#32
abbrev oneW : EReal := Ideal.ofBits .f32 0x3F800000#32

def ptCell (hi : BitVec 32) (x : EReal) : BitVec 32 :=
  IntOp.minsi hi (IntOp.maxsi 0#32
    (FloatOps.fptosi (F := Ideal) (φ := .f32) 32 (FloatOps.hostUnary (F := Ideal) (φ := .f32) .floor x)))
def ptW (hi : BitVec 32) (x : EReal) : EReal :=
  FloatOps.minimumf (F := Ideal) (φ := .f32) oneW
    (FloatOps.maximumf (F := Ideal) (φ := .f32) zeroW
      (FloatOps.subf (F := Ideal) (φ := .f32) x (FloatOps.sitofp (F := Ideal) .f32 (ptCell hi x))))

section Arrays

variable {F : FTy → Type} [FloatOps F]

def horiz (x : FVec F S2000000x3 .f32) : FVec F S2000000x2 .f32 :=
  extractStridedSlice S2000000x2 ![0, 0] x slices_S2000000x3_S2000000x2_0_0
def deep (x : FVec F S2000000x3 .f32) : FVec F S2000000 .f32 :=
  shapeCast _ (extractStridedSlice S2000000x1 ![0, 2] x slices_S2000000x3_S2000000x1_0_2) shapeCasts_S2000000x1_S2000000
def eventRow (o : Nat) (h : S2000000x2x3.Slices ![0, o, 0] S2000000x1x3) (ev : FVec F S2000000x2x3 .f32) : FVec F S2000000x3 .f32 :=
  shapeCast _ (extractStridedSlice S2000000x1x3 ![0, o, 0] ev h) shapeCasts_S2000000x1x3_S2000000x3

theorem horiz_apply (x : FVec F S2000000x3 .f32) (j : Fin 2000000) (k : Fin 2) :
    horiz x (ix2 j k) = x (ix2 j ⟨k.val, by have := k.isLt; omega⟩) :=
  slice2_axis1_apply 0 x _ j k _ (Nat.zero_add _).symm

theorem deep_apply (x : FVec F S2000000x3 .f32) (j : Fin 2000000) : deep x (ix1 j) = x (ix2 j (2 : Fin 3)) := by
  unfold deep
  rw [shapeCast_apply _ shapeCasts_S2000000x1_S2000000 (ix1 j) (ix2 j (0 : Fin 1))
    (by rewrite [Shape.rowMajor_val_two, Shape.rowMajor_val_one]; show j.val * 1 + 0 = j.val; omega)]
  exact slice2_axis1_apply 2 x _ j 0 2 rfl

theorem eventRow_apply (e : Fin 2) (h) (ev : FVec F S2000000x2x3 .f32) (j : Fin 2000000) (k : Fin 3) :
    eventRow e.val h ev (ix2 j k) = ev (ix3 j e k) := by
  unfold eventRow
  rw [shapeCast_apply _ shapeCasts_S2000000x1x3_S2000000x3 (ix2 j k) (ix3 j (0 : Fin 1) k)
    (by rewrite [Shape.rowMajor_val_three, Shape.rowMajor_val_two]; show (j.val * 1 + 0) * 3 + k.val = j.val * 3 + k.val; omega)]
  exact slice3_axis1_apply e.val ev h j 0 k e rfl

variable {s : Shape} (hb : S_.BroadcastsInDim s (![] : Fin 0 → Fin s.rank))

theorem splat_apply {α : Type} (x : S_.Idx → α) (i : s.Idx) : broadcastInDim s ![] hb x i = x ix0 :=
  broadcastInDim_apply _ hb x i _ (fun a => a.elim0)

def cell (hi : BitVec 32) (g : FVec F s .f32) : IVec s 32 :=
  minsi (broadcastInDim s ![] hb (constantI S_ 32 hi)) (maxsi (broadcastInDim s ![] hb (constantI S_ 32 0#32)) (fptosi 32 (Host.floor g)))
def weight (hi : BitVec 32) (g : FVec F s .f32) : FVec F s .f32 :=
  minimumf (broadcastInDim s ![] hb (constant S_ .f32 0x3F800000#32))
    (maximumf (broadcastInDim s ![] hb (constant S_ .f32 0x00000000#32)) (subf g (sitofp .f32 (cell hb hi g))))

variable (row st : FVec F S2000000x3 .f32)

def sq : FVec F S2000000x2 .f32 := mulf (subf (horiz row) (horiz st)) (subf (horiz row) (horiz st))
def sumsq : FVec F S2000000 .f32 := Host.reduceAdd (sq row st) (constant S_ .f32 0x00000000#32) reducesTo_S2000000x2_S2000000_d1 h_S_
def gx : FVec F S2000000 .f32 :=
  Host.divf (Host.sqrt (sumsq row st)) (broadcastInDim S2000000 ![] bcast_S_S2000000 (constant S_ .f32 0x3E99999A#32))
def gy : FVec F S2000000 .f32 :=
  Host.divf (subf (deep row) (deep st)) (broadcastInDim S2000000 ![] bcast_S_S2000000 (constant S_ .f32 0x3E99999A#32))

theorem sq_apply (i : S2000000x2.Idx) :
    sq row st i = FloatOps.mulf (FloatOps.subf (horiz row i) (horiz st i)) (FloatOps.subf (horiz row i) (horiz st i)) := rfl

theorem gx_apply (i : S2000000.Idx) : gx row st i
    = FloatOps.hostDivf (FloatOps.hostUnary .sqrt (sumsq row st i)) (broadcastInDim S2000000 ![] bcast_S_S2000000 (constant S_ .f32 0x3E99999A#32) i) := rfl

theorem gy_apply (i : S2000000.Idx) : gy row st i
    = FloatOps.hostDivf (FloatOps.subf (deep row i) (deep st i)) (broadcastInDim S2000000 ![] bcast_S_S2000000 (constant S_ .f32 0x3E99999A#32) i) := rfl

/-- An event's four buffers: the cell index and the weight along the distance axis and along the depth axis. -/
def EvFacts (vx vy : IVec S2000000 32) (wx wy : FVec F S2000000 .f32) : Prop :=
  vx = cell bcast_S_S2000000 998#32 (gx row st) ∧ vy = cell bcast_S_S2000000 98#32 (gy row st)
    ∧ wx = weight bcast_S_S2000000 998#32 (gx row st) ∧ wy = weight bcast_S_S2000000 98#32 (gy row st)

end Arrays

variable {s : Shape} (hb : S_.BroadcastsInDim s (![] : Fin 0 → Fin s.rank)) (hi : BitVec 32) (g : FVec Ideal s .f32) (i : s.Idx)

theorem cell_pick : cell hb hi g i = ptCell hi (g i) := by
  show IntOp.minsi (broadcastInDim s ![] hb (constantI S_ 32 hi) i) (IntOp.maxsi (broadcastInDim s ![] hb (constantI S_ 32 0#32) i) _) = _
  rw [splat_apply, splat_apply]
  rfl

theorem weight_pick : weight hb hi g i = ptW hi (g i) := by
  show FloatOps.minimumf (broadcastInDim s ![] hb (constant S_ .f32 0x3F800000#32) i)
    (FloatOps.maximumf (broadcastInDim s ![] hb (constant S_ .f32 0x00000000#32) i) (FloatOps.subf (g i) (FloatOps.sitofp .f32 (cell hb hi g i)))) = _
  rw [splat_apply, splat_apply, cell_pick]
  rfl

theorem sumsq_pick (row st : FVec Ideal S2000000x3 .f32) (j : Fin 2000000) :
    sumsq row st (ix1 j) = zeroW + (sq row st (ix2 j (0 : Fin 2)) + sq row st (ix2 j (1 : Fin 2))) := by
  unfold sumsq
  simp only [Host.reduceAdd, Ideal.hostReduceAdd_def]
  rw [Ideal.hostReduceAdd_single reducesTo_S2000000x2_S2000000_d1 (by decide)]
  refine congrArg (_ + ·) (Eq.trans (Finset.sum_congr rfl fun k _ => ?_) (Fin.sum_univ_two (fun k : Fin 2 => sq row st (ix2 j k))))
  exact congrArg (sq row st) (funext fun a => Fin.ext (by match a with | ⟨0, _⟩ => rfl | ⟨1, _⟩ => rfl))

end Cert.Bridge.Chain

end
-- ==== Proof.Bridge.PrefixV.lean ====
import proofs.«401436_j25331717111921_1_alg».proof.Proof.Bridge.PrefixSplit
import proofs.«401436_j25331717111921_1_alg».proof.Proof.Bridge.PrefixChain
import proofs.«401436_j25331717111921_1_alg».proof.Proof.Ref.ReadP

set_option maxRecDepth 16384

noncomputable section

namespace Cert.Bridge

open Idealize.ShloMosaic Idealize.ShloMosaic.TcCoe Idealize.SL.Sem Idealize.ShloMosaic.StableHlo
open Cert.KernelIdeal Cert.KernelIdeal.Gen Cert.KernelIdeal.Hand Cert.Bridge.Chain
open Cert.ReferenceIdeal.ReadP (val_main_v7 val_main_v22)

variable {F : FTy → Type} [FloatOps F]
variable (m : (ℓ : Loc nD τ sig) → Buf (Elt F) ℓ) (c : Dev nD)

abbrev stR : FVec F S2000000x3 .f32 :=
  val_main_v7 (F := F) (m ((c : Thread nD τ).loc main_arg0)) (m ((c : Thread nD τ).loc main_arg7))
abbrev evR (o : Nat) (h : S2000000x2x3.Slices ![0, o, 0] S2000000x1x3) : FVec F S2000000x3 .f32 :=
  eventRow o h (val_main_v22 (F := F) (m ((c : Thread nD τ).loc main_arg1)) (m ((c : Thread nD τ).loc main_arg5)))

set_option maxHeartbeats 4000000 in
theorem V_ev0 : EvFacts (evR m c 0 slices_S2000000x2x3_S2000000x1x3_0_0_0) (stR m c)
    (V m c main_v49) (V m c main_v52) (V m c main_v55) (V m c main_v58) := by
  unfold EvFacts
  rw [V_eq_X8 m c main_v49 (by decide), V_eq_X8 m c main_v52 (by decide), V_eq_X8 m c main_v55 (by decide), V_eq_X8 m c main_v58 (by decide)]
  dsimp only [X8, pre8]
  simp only [hostOps0, hostOps0_1, hostOps0_2, hostOps0_3, hostOps0_4, hostOps0_5, hostOps0_6, hostOps0_7, List.flatten_cons, List.flatten_nil, List.append_nil, List.cons_append, List.nil_append]
  after_results_simp
  exact ⟨rfl, rfl, rfl, rfl⟩

set_option maxHeartbeats 8000000 in
theorem V_ev1 : EvFacts (evR m c 1 slices_S2000000x2x3_S2000000x1x3_0_1_0) (stR m c)
    (V m c main_v166) (V m c main_v169) (V m c main_v172) (V m c main_v175) := by
  unfold EvFacts
  rw [V_eq_X16 m c main_v166 (by decide), V_eq_X16 m c main_v169 (by decide), V_eq_X16 m c main_v172 (by decide), V_eq_X16 m c main_v175 (by decide)]
  dsimp only [X16, Y8, X8, mid, pre8]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, List.flatten_cons, List.flatten_nil, List.append_nil, List.cons_append, List.nil_append]
  after_results_simp
  exact ⟨rfl, rfl, rfl, rfl⟩

end Cert.Bridge

end
-- ==== Proof.Bridge.PrefixRef.lean ====
import proofs.«401436_j25331717111921_1_alg».proof.Proof.Ref.ReadP
import proofs.«401436_j25331717111921_1_alg».proof.Proof.Bridge.PrefixChain

noncomputable section

namespace Cert.Bridge

open Idealize.ShloMosaic Idealize.ShloMosaic.ValueIdx
open Cert.ReferenceIdeal Cert.ReferenceIdeal.ReadP Cert.Bridge.Chain

theorem subf_zeroW (a : EReal) :
    FloatOps.subf (F := Ideal) (φ := .f32) a (FloatOps.ofBits (F := Ideal) .f32 0x00000000#32) = a := by
  rw [Ideal.subf_def, Ideal.ofBits_def, Ideal.ofBits_zero_f32, sub_zero]

section
variable {F : FTy → Type} [FloatOps F] (a0 : (⟨S2000000, .i32⟩ : BufTy).Contents (Elt F)) (a1 : (⟨S2000000x2, .i32⟩ : BufTy).Contents (Elt F))
  (a5 : (⟨S50000x3, .f32⟩ : BufTy).Contents (Elt F)) (a7 : (⟨S500x3, .f32⟩ : BufTy).Contents (Elt F))
theorem ref_cellx : val_main_v56 a0 a1 a5 a7 = cell Gen.bcast_S_S2000000x2 998#32 (val_main_v49 a0 a1 a5 a7) := rfl
theorem ref_celly : val_main_v59 a0 a1 a5 a7 = cell Gen.bcast_S_S2000000x2 98#32 (val_main_v53 a0 a1 a5 a7) := rfl
theorem ref_wx : val_main_v62 a0 a1 a5 a7 = weight Gen.bcast_S_S2000000x2 998#32 (val_main_v49 a0 a1 a5 a7) := rfl
theorem ref_wy : val_main_v65 a0 a1 a5 a7 = weight Gen.bcast_S_S2000000x2 98#32 (val_main_v53 a0 a1 a5 a7) := rfl
end

variable (x0 : (⟨S2000000, .i32⟩ : BufTy).Contents (Elt Ideal)) (x1 : (⟨S2000000x2, .i32⟩ : BufTy).Contents (Elt Ideal))
  (x5 : (⟨S50000x3, .f32⟩ : BufTy).Contents (Elt Ideal)) (x7 : (⟨S500x3, .f32⟩ : BufTy).Contents (Elt Ideal))

theorem idx_ev_h (j : Fin 2000000) (e : Fin 2) (k : Fin 2) :
    idx_main_v31 (idx_main_v37 (ix2 j e) k) = ix3 j e (⟨k.val, by have := k.isLt; omega⟩ : Fin 3) :=
  funext fun a => Fin.ext (by match a with | ⟨0, _⟩ => rfl | ⟨1, _⟩ => rfl | ⟨2, _⟩ => rfl)
theorem idx_st_h (j : Fin 2000000) (e : Fin 2) (k : Fin 2) :
    idx_main_v32 (idx_main_v33 (idx_main_v34 (idx_main_v37 (ix2 j e) k))) = ix2 j (⟨k.val, by have := k.isLt; omega⟩ : Fin 3) :=
  funext fun a => Fin.ext (by match a with | ⟨0, _⟩ => rfl | ⟨1, _⟩ => rfl)
theorem idx_ev_d (j : Fin 2000000) (e : Fin 2) :
    idx_main_v39 (idx_main_v40 (ix2 j e)) = ix3 j e (2 : Fin 3) :=
  funext fun a => Fin.ext (by
    have hj := j.isLt; have he := e.isLt
    match a with
    | ⟨0, _⟩ => show (j.val * 2 + e.val) / 2 = j.val; omega
    | ⟨1, _⟩ => show (j.val * 2 + e.val) / 1 % 2 = e.val; omega
    | ⟨2, _⟩ => rfl)
theorem idx_st_d (j : Fin 2000000) (e : Fin 2) :
    idx_main_v41 (idx_main_v42 (idx_main_v43 (idx_main_v44 (ix2 j e)))) = ix2 j (2 : Fin 3) :=
  funext fun a => Fin.ext (by
    match a with
    | ⟨0, _⟩ => show j.val / 1 = j.val; omega
    | ⟨1, _⟩ => rfl)

variable (row : FVec Ideal S2000000x3 .f32) (e : Fin 2) (j : Fin 2000000) (hrow : ∀ k, row (ix2 j k) = val_main_v22 x1 x5 (ix3 j e k))
include hrow

/-- The reference subtracts the grid origin 0 before dividing by the step; at the exact values that changes nothing. -/
theorem gx_ref : gx row (val_main_v7 x0 x7) (ix1 j) = val_main_v49 x0 x1 x5 x7 (ix2 j e) := by
  rw [val_main_v49_apply, val_main_v47_apply, val_main_v38_apply, val_main_v37_apply, Fin.sum_univ_two, val_main_cst_apply,
    val_main_v36_apply, val_main_v36_apply, val_main_v35_apply, val_main_v35_apply,
    val_main_v31_apply, val_main_v31_apply, val_main_v34_apply, val_main_v34_apply,
    val_main_v33_apply, val_main_v33_apply, val_main_v32_apply, val_main_v32_apply,
    idx_ev_h, idx_ev_h, idx_st_h, idx_st_h, val_main_v46_apply, val_main_cst_7_apply, subf_zeroW, val_main_v48_apply, val_main_cst_8_apply,
    gx_apply, sumsq_pick, sq_apply, sq_apply, horiz_apply, horiz_apply, horiz_apply, horiz_apply, hrow, hrow, splat_apply]
  rfl

theorem gy_ref : gy row (val_main_v7 x0 x7) (ix1 j) = val_main_v53 x0 x1 x5 x7 (ix2 j e) := by
  rw [val_main_v53_apply, val_main_v51_apply, val_main_v45_apply, val_main_v50_apply, val_main_cst_9_apply, subf_zeroW,
    val_main_v40_apply, val_main_v39_apply, val_main_v44_apply, val_main_v43_apply, val_main_v42_apply, val_main_v41_apply,
    idx_ev_d, idx_st_d, val_main_v52_apply, val_main_cst_10_apply, gy_apply, deep_apply, deep_apply, hrow, splat_apply]
  rfl

/-- Both programs compute an event's cell indices and weights from the same six numbers of the pick. -/
theorem k_event {ix iy : IVec S2000000 32} {wx wy : FVec Ideal S2000000 .f32} (h : EvFacts row (val_main_v7 x0 x7) ix iy wx wy) :
    ix (ix1 j) = val_main_v56 x0 x1 x5 x7 (ix2 j e) ∧ iy (ix1 j) = val_main_v59 x0 x1 x5 x7 (ix2 j e)
      ∧ wx (ix1 j) = val_main_v62 x0 x1 x5 x7 (ix2 j e) ∧ wy (ix1 j) = val_main_v65 x0 x1 x5 x7 (ix2 j e) := by
  obtain ⟨rfl, rfl, rfl, rfl⟩ := h
  have hx := gx_ref x0 x1 x5 x7 row e j hrow
  have hy := gy_ref x0 x1 x5 x7 row e j hrow
  exact ⟨by rw [ref_cellx, cell_pick, cell_pick, hx], by rw [ref_celly, cell_pick, cell_pick, hy],
    by rw [ref_wx, weight_pick, weight_pick, hx], by rw [ref_wy, weight_pick, weight_pick, hy]⟩

end Cert.Bridge

end
-- ==== Proof.Bridge.CornerLib.lean ====
import Idealize.ShloMosaic.Lib.ValueIdx
import Idealize.ShloMosaic.Lib.Pipeline.Value

noncomputable section

namespace Cert.Bridge

open Idealize.ShloMosaic Idealize.ShloMosaic.ValueIdx

variable {α : Type} {A B C N M w iv : Nat} {si t s s1 s3 : Shape}

theorem fin3_mem (a : Fin 3) : a ∈ ([0, 1, 2] : List (Fin 3)) := by fin_cases a <;> decide

/-- Dimension numbers of the gather of single elements of a rank-3 table: every axis collapsed, slice sizes 1. -/
abbrev pointDims (A B C : Nat) (si t : Shape) (iv : Nat)
    (wf : GatherDims.WF ⟨3, ![A, B, C]⟩ si t [] [0, 1, 2] [] [0, 1, 2] [] iv ![1, 1, 1]) : GatherDims ⟨3, ![A, B, C]⟩ si t :=
  ⟨[], [0, 1, 2], [], [], [0, 1, 2], iv, ![1, 1, 1], wf⟩

/-- No batching and no offset axes: coordinate `a` of the element read is start-index component `a`, signed and clamped. -/
theorem pointDims_operandIdx (wf) (idx : IVec si w) (j : t.Idx) (a : Fin 3) :
    ((pointDims A B C si t iv wf).operandIdx j idx a).val
      = min (idx ((pointDims A B C si t iv wf).siIdx j ⟨a, a.isLt⟩)).toInt.toNat ((![A, B, C] : Fin 3 → Nat) a - 1) := by
  change _ + _ + _ = _
  rw [GatherDims.batchCoord_eq_zero _ _ _ List.not_mem_nil,
    GatherDims.offCoord_eq_zero _ _ _ (fun h => ((GatherDims.mem_sKept _ _).mp h).1 (fin3_mem a)), GatherDims.start,
    dif_pos (fin3_mem a)]
  fin_cases a <;> rfl

/-- Two such gathers of one table read the same element where their start indices agree componentwise. -/
theorem pointGather_agree {si' t' : Shape} {iv' : Nat} (wf wf') (x : (⟨3, ![A, B, C]⟩ : Shape).Idx → α)
    (idx : IVec si w) (idx' : IVec si' w) (j : t.Idx) (j' : t'.Idx)
    (h : ∀ a : Fin 3, idx ((pointDims A B C si t iv wf).siIdx j ⟨a, a.isLt⟩)
      = idx' ((pointDims A B C si' t' iv' wf').siIdx j' ⟨a, a.isLt⟩)) :
    Host.gather (pointDims A B C si t iv wf) x idx j = Host.gather (pointDims A B C si' t' iv' wf') x idx' j' :=
  congrArg x (funext fun a => Fin.ext (by rw [pointDims_operandIdx, pointDims_operandIdx, h a]))

/-- A table index made non-negative: `c + size` when `c` is negative. -/
def wrapW (size c : BitVec 32) : BitVec 32 := Scalar.select (IntOp.cmpi .slt c 0#32) (IntOp.addi c size) c

variable (h0 : (⟨0, ![]⟩ : Shape).BroadcastsInDim s ![])

def splat (b : BitVec 32) : IVec s 32 := broadcastInDim s ![] h0 (constantI ⟨0, ![]⟩ 32 b)

def wrapV (size : BitVec 32) (v : IVec s 32) : IVec s 32 := select (cmpi .slt v (splat h0 0#32)) (addi v (splat h0 size)) v

def inc1V (v : IVec s 32) : IVec s 32 := addi v (splat h0 1#32)

variable (dims : Fin s.rank → Fin s1.rank) (hb : s.BroadcastsInDim s1 dims) (a : Fin s3.rank)
  (hc : Shape.Concatenates [s1, s1, s1] s3 a)

/-- Three arrays, each given the unit axis `a`, joined along it. -/
def join3 (u0 u1 u2 : IVec s 32) : IVec s3 32 :=
  concatenate s3 a [⟨s1, broadcastInDim s1 dims hb u0⟩, ⟨s1, broadcastInDim s1 dims hb u1⟩, ⟨s1, broadcastInDim s1 dims hb u2⟩] hc

theorem join3_apply (u0 u1 u2 : IVec s 32) (hr : s1.rank = s3.rank) (h1 : s1.size (a.cast hr.symm) = 1) (i : s3.Idx)
    (i1 : s1.Idx) (hi1 : ∀ b : Fin s1.rank, b.cast hr ≠ a → (i1 b).val = (i (b.cast hr)).val) (i0 : s.Idx)
    (hi0 : ∀ b : Fin s.rank, (i0 b).val = if s.size b = 1 then 0 else (i1 (dims b)).val) (k : Fin 3) (hk : (i a).val = k.val) :
    join3 dims hb a hc u0 u1 u2 i = (![u0, u1, u2] : Fin 3 → IVec s 32) k i0 :=
  (concatenate_ofFn_unit_apply a (fun n => broadcastInDim s1 dims hb (![u0, u1, u2] n)) hc hr h1 i k hk i1 hi1).trans
    (broadcastInDim_apply dims hb _ i1 i0 hi0)

variable {T r : Shape} (d : GatherDims T s3 r) (tb : T.Idx → α)

/-- One table corner: the table gathered at (phase, distance cell, depth cell), the cells made non-negative. -/
def cornerAt (wp x y : IVec s 32) : r.Idx → α :=
  Host.gather d tb (join3 dims hb a hc wp (wrapV h0 1000#32 x) (wrapV h0 100#32 y))

/-- The four corners `f` of one look-up: each cell as it is or advanced by one. -/
def Corners (f : IVec s 32 → IVec s 32 → r.Idx → α) (ix iy : IVec s 32) (v00 v10 v01 v11 : r.Idx → α) : Prop :=
  v00 = f ix iy ∧ v10 = f (inc1V h0 ix) iy ∧ v01 = f ix (inc1V h0 iy) ∧ v11 = f (inc1V h0 ix) (inc1V h0 iy)

variable {h0} in
/-- Two look-ups whose corners agree wherever their cells do have all four corners agreeing: advancing keeps agreement. -/
theorem Corners.agree {s' r' : Shape} {h0' : (⟨0, ![]⟩ : Shape).BroadcastsInDim s' ![]} {f : IVec s 32 → IVec s 32 → r.Idx → α}
    {g : IVec s' 32 → IVec s' 32 → r'.Idx → α} {ix iy ix' iy' a00 a10 a01 a11 b00 b10 b01 b11}
    (HK : Corners h0 f ix iy a00 a10 a01 a11) (HR : Corners h0' g ix' iy' b00 b10 b01 b11) {i : s.Idx} {i' : s'.Idx}
    {j : r.Idx} {j' : r'.Idx} (A : ∀ x y x' y', x i = x' i' → y i = y' i' → f x y j = g x' y' j')
    (hx : ix i = ix' i') (hy : iy i = iy' i') : a00 j = b00 j' ∧ a10 j = b10 j' ∧ a01 j = b01 j' ∧ a11 j = b11 j' := by
  obtain ⟨rfl, rfl, rfl, rfl⟩ := HK
  obtain ⟨rfl, rfl, rfl, rfl⟩ := HR
  have hx' := congrArg (IntOp.addi · 1#32) hx
  have hy' := congrArg (IntOp.addi · 1#32) hy
  exact ⟨A _ _ _ _ hx hy, A _ _ _ _ hx' hy, A _ _ _ _ hx hy', A _ _ _ _ hx' hy'⟩

/-- The corner over the picks at `j` and the one over picks × events at `(j, e)` agree when phase and cells do. -/
theorem corner_agree (hN : N ≠ 1) (hM : M ≠ 1) (wfK wfR) (h0 hb hcK h01 h02 hb12 hb23 hcR)
    (tb : (⟨3, ![A, B, C]⟩ : Shape).Idx → α) (pK : IVec ⟨1, ![N]⟩ 32) (pR : IVec ⟨2, ![N, 1]⟩ 32) (j : Fin N) (e : Fin M)
    (hp : pR (ix2 j 0) = pK (ix1 j)) (xK yK : IVec ⟨1, ![N]⟩ 32) (xR yR : IVec ⟨2, ![N, M]⟩ 32)
    (hx : xK (ix1 j) = xR (ix2 j e)) (hy : yK (ix1 j) = yR (ix2 j e)) :
    cornerAt (s1 := ⟨2, ![N, 1]⟩) h0 ![0] hb 1 hcK (pointDims A B C ⟨2, ![N, 3]⟩ ⟨1, ![N]⟩ 1 wfK) tb (wrapV h0 2#32 pK) xK yK (ix1 j)
      = cornerAt (s1 := ⟨3, ![N, M, 1]⟩) h02 ![0, 1] hb23 2 hcR (pointDims A B C ⟨3, ![N, M, 3]⟩ ⟨2, ![N, M]⟩ 2 wfR) tb
          (broadcastInDim ⟨2, ![N, M]⟩ ![0, 1] hb12 (wrapV h01 2#32 pR)) xR yR (ix2 j e) := by
  refine pointGather_agree wfK wfR tb _ _ (ix1 j) (ix2 j e) fun k => ?_
  have hK : (pointDims A B C ⟨2, ![N, 3]⟩ ⟨1, ![N]⟩ 1 wfK).siIdx (ix1 j) ⟨k, k.isLt⟩ = ix2 j k :=
    funext fun b => Fin.ext (match b with | ⟨0, _⟩ => rfl | ⟨1, _⟩ => rfl)
  have hR : (pointDims A B C ⟨3, ![N, M, 3]⟩ ⟨2, ![N, M]⟩ 2 wfR).siIdx (ix2 j e) ⟨k, k.isLt⟩ = ix3 j e k :=
    funext fun b => Fin.ext (match b with | ⟨0, _⟩ => rfl | ⟨1, _⟩ => rfl | ⟨2, _⟩ => rfl)
  rw [hK, hR]
  refine (join3_apply (![0] : Fin 1 → Fin 2) hb 1 hcK _ _ _ rfl rfl (ix2 j k) (ix2 j 0) (fun b h => match b with | ⟨0, _⟩ => rfl | ⟨1, _⟩ => absurd rfl h)
    (ix1 j) (fun b => match b with | ⟨0, _⟩ => (if_neg hN).symm) k rfl).trans (Eq.trans ?_
    (join3_apply (![0, 1] : Fin 2 → Fin 3) hb23 2 hcR _ _ _ rfl rfl (ix3 j e k) (ix3 j e 0)
      (fun b h => match b with | ⟨0, _⟩ => rfl | ⟨1, _⟩ => rfl | ⟨2, _⟩ => absurd rfl h) (ix2 j e)
      (fun b => match b with | ⟨0, _⟩ => (if_neg hN).symm | ⟨1, _⟩ => (if_neg hM).symm) k rfl).symm)
  fin_cases k
  · exact (congrArg (wrapW 2#32) hp.symm).trans (broadcastInDim_apply (![0, 1] : Fin 2 → Fin 2) hb12 (wrapV h01 2#32 pR) (ix2 j e) (ix2 j 0) fun b => match b with
      | ⟨0, _⟩ => (if_neg hN).symm
      | ⟨1, _⟩ => (if_pos rfl).symm).symm
  · exact congrArg (wrapW 1000#32) hx
  · exact congrArg (wrapW 100#32) hy

end Cert.Bridge

end
-- ==== Proof.Bridge.PrefixB0.lean ====
import proofs.«401436_j25331717111921_1_alg».proof.Proof.Bridge.PrefixSplit
import proofs.«401436_j25331717111921_1_alg».proof.Proof.Bridge.CornerLib
import proofs.«401436_j25331717111921_1_alg».proof.Proof.LibNary3
import proofs.«401436_j25331717111921_1_alg».proof.Proof.Ref.ReadP
import proofs.«401436_j25331717111921_1_alg».proof.Proof.KI.VArgs

noncomputable section

namespace Cert.Bridge

open Idealize.ShloMosaic Idealize.ShloMosaic.ValueIdx Idealize.SL.Sem
open Cert.ReferenceIdeal.ReadP

section
open Cert.ReferenceIdeal Cert.ReferenceIdeal.Gen

/-- The reference's four corner stages: over picks × events, the phase spread over the events. -/
theorem ref_corners (x0 x1 x2 x5 x7 x9) :
    Corners bcast_S_S2000000x2 (cornerAt bcast_S_S2000000x2 ![0, 1] bcast_S2000000x2_S2000000x2x1_0_1 2
        concatenates_S2000000x2x1_S2000000x2x1_S2000000x2x1_S2000000x2x3_d2
        gather_S2x1000x100_S2000000x2x3_S2000000x2_n_012_n_n_012_2_111 x9
        (broadcastInDim S2000000x2 ![0, 1] bcast_S2000000x1_S2000000x2_0_1 (wrapV bcast_S_S2000000x1 2#32 (val_main_v0 (F := Ideal) x2))))
      (val_main_v56 (F := Ideal) x0 x1 x5 x7) (val_main_v59 (F := Ideal) x0 x1 x5 x7)
      (val_main_v86 (F := Ideal) x0 x1 x2 x5 x7 x9) (val_main_v109 (F := Ideal) x0 x1 x2 x5 x7 x9)
      (val_main_v132 (F := Ideal) x0 x1 x2 x5 x7 x9) (val_main_v157 (F := Ideal) x0 x1 x2 x5 x7 x9) :=
  ⟨rfl, rfl, rfl, rfl⟩

end

open Cert.KernelIdeal Cert.KernelIdeal.Gen Cert.KernelIdeal.Hand

/-- The four corners as the kernel's host program computes them: over the picks, from the pick's own two cells. -/
abbrev KCorners (t : (⟨S2x1000x100, .f32⟩ : BufTy).Contents (Elt Ideal)) (p ix iy : (⟨S2000000, .i32⟩ : BufTy).Contents (Elt Ideal))
    (v00 v10 v01 v11 : (⟨S2000000, .f32⟩ : BufTy).Contents (Elt Ideal)) : Prop :=
  Corners bcast_S_S2000000 (cornerAt bcast_S_S2000000 ![0] bcast_S2000000_S2000000x1_0 1
    concatenates_S2000000x1_S2000000x1_S2000000x1_S2000000x3_d1 gather_S2x1000x100_S2000000x3_S2000000_n_012_n_n_012_1_111 t
    (wrapV bcast_S_S2000000 2#32 p)) ix iy v00 v10 v01 v11

/-- The kernel's four corners at pick `j` are the reference's at `(j, e)` once the two cells agree there. -/
theorem kv_of {x0 x1 x2 x5 x7 x9 ix iy v00 v10 v01 v11} (H : KCorners x9 x2 ix iy v00 v10 v01 v11) (j : Fin 2000000) (e : Fin 2)
    (kix : ix (ix1 j) = val_main_v56 (F := Ideal) x0 x1 x5 x7 (ix2 j e))
    (kiy : iy (ix1 j) = val_main_v59 (F := Ideal) x0 x1 x5 x7 (ix2 j e)) :
    v00 (ix1 j) = val_main_v86 (F := Ideal) x0 x1 x2 x5 x7 x9 (ix2 j e)
      ∧ v10 (ix1 j) = val_main_v109 (F := Ideal) x0 x1 x2 x5 x7 x9 (ix2 j e)
      ∧ v01 (ix1 j) = val_main_v132 (F := Ideal) x0 x1 x2 x5 x7 x9 (ix2 j e)
      ∧ v11 (ix1 j) = val_main_v157 (F := Ideal) x0 x1 x2 x5 x7 x9 (ix2 j e) :=
  Corners.agree H (ref_corners x0 x1 x2 x5 x7 x9) (corner_agree (by decide) (by decide) _ _ _ _ _ _ _ _ _ _ _ _ _ j e
    ((val_main_v0_apply x2 (ix2 j 0)).trans (congrArg x2 (funext fun a => match a with | ⟨0, _⟩ => rfl)))) kix kiy

set_option maxHeartbeats 8000000 in
theorem stretch0_corners (X : Valuation τ sig (Elt Ideal)) :
    KCorners (X (Proc.devRef .tc main_arg9)) (X (Proc.devRef .tc main_arg2)) (X (Proc.devRef .tc main_v49))
      (X (Proc.devRef .tc main_v52)) (StableHlo.after hostOps0_8 X (Proc.devRef .tc main_v78))
      (StableHlo.after hostOps0_8 X (Proc.devRef .tc main_v100)) (StableHlo.after hostOps0_8 X (Proc.devRef .tc main_v122))
      (StableHlo.after hostOps0_8 X (Proc.devRef .tc main_v146)) := by
  delta hostOps0_8
  after_results_simp3
  exact ⟨rfl, rfl, rfl, rfl⟩

variable (m : (ℓ : Loc nD τ sig) → Buf (Elt Ideal) ℓ) (c : Dev nD) (j : Fin 2000000)

theorem kcorners_0 : KCorners (m (c.tc.loc main_arg9)) (m (c.tc.loc main_arg2)) (V m c main_v49)
    (V m c main_v52) (V m c main_v78) (V m c main_v100) (V m c main_v122) (V m c main_v146) := by
  rw [← V_main_arg9 m c, ← V_main_arg2 m c, V_eq_Y8 m c main_v78 (by decide), V_eq_Y8 m c main_v100 (by decide),
    V_eq_Y8 m c main_v122 (by decide), V_eq_Y8 m c main_v146 (by decide), V_eq_X8 m c main_arg9 (by decide),
    V_eq_X8 m c main_arg2 (by decide), V_eq_X8 m c main_v49 (by decide), V_eq_X8 m c main_v52 (by decide)]
  exact stretch0_corners _

variable (kix : V m c main_v49 (ix1 j) = val_main_v56 (m (c.tc.loc main_arg0)) (m (c.tc.loc main_arg1)) (m (c.tc.loc main_arg5)) (m (c.tc.loc main_arg7)) (ix2 j 0))
  (kiy : V m c main_v52 (ix1 j) = val_main_v59 (m (c.tc.loc main_arg0)) (m (c.tc.loc main_arg1)) (m (c.tc.loc main_arg5)) (m (c.tc.loc main_arg7)) (ix2 j 0))
include kix kiy

theorem kv00_0 : V m c main_v78 (ix1 j) = val_main_v86 (m (c.tc.loc main_arg0)) (m (c.tc.loc main_arg1)) (m (c.tc.loc main_arg2)) (m (c.tc.loc main_arg5)) (m (c.tc.loc main_arg7)) (m (c.tc.loc main_arg9)) (ix2 j 0) :=
  (kv_of (kcorners_0 m c) j 0 kix kiy).1

theorem kv10_0 : V m c main_v100 (ix1 j) = val_main_v109 (m (c.tc.loc main_arg0)) (m (c.tc.loc main_arg1)) (m (c.tc.loc main_arg2)) (m (c.tc.loc main_arg5)) (m (c.tc.loc main_arg7)) (m (c.tc.loc main_arg9)) (ix2 j 0) :=
  (kv_of (kcorners_0 m c) j 0 kix kiy).2.1

theorem kv01_0 : V m c main_v122 (ix1 j) = val_main_v132 (m (c.tc.loc main_arg0)) (m (c.tc.loc main_arg1)) (m (c.tc.loc main_arg2)) (m (c.tc.loc main_arg5)) (m (c.tc.loc main_arg7)) (m (c.tc.loc main_arg9)) (ix2 j 0) :=
  (kv_of (kcorners_0 m c) j 0 kix kiy).2.2.1

theorem kv11_0 : V m c main_v146 (ix1 j) = val_main_v157 (m (c.tc.loc main_arg0)) (m (c.tc.loc main_arg1)) (m (c.tc.loc main_arg2)) (m (c.tc.loc main_arg5)) (m (c.tc.loc main_arg7)) (m (c.tc.loc main_arg9)) (ix2 j 0) :=
  (kv_of (kcorners_0 m c) j 0 kix kiy).2.2.2

end Cert.Bridge

end
-- ==== Proof.Bridge.PrefixB1.lean ====
import proofs.«401436_j25331717111921_1_alg».proof.Proof.Bridge.PrefixB0

noncomputable section

namespace Cert.Bridge

open Idealize.ShloMosaic Idealize.ShloMosaic.ValueIdx Idealize.SL.Sem
open Cert.ReferenceIdeal.ReadP Cert.KernelIdeal Cert.KernelIdeal.Gen Cert.KernelIdeal.Hand

set_option maxHeartbeats 8000000 in
theorem stretch1_corners (X : Valuation τ sig (Elt Ideal)) :
    KCorners (X (Proc.devRef .tc main_arg9)) (X (Proc.devRef .tc main_arg2)) (X (Proc.devRef .tc main_v166))
      (X (Proc.devRef .tc main_v169)) (StableHlo.after hostOps0_16 X (Proc.devRef .tc main_v195))
      (StableHlo.after hostOps0_16 X (Proc.devRef .tc main_v217)) (StableHlo.after hostOps0_16 X (Proc.devRef .tc main_v239))
      (StableHlo.after hostOps0_16 X (Proc.devRef .tc main_v263)) := by
  delta hostOps0_16
  after_results_simp3
  exact ⟨rfl, rfl, rfl, rfl⟩

variable (m : (ℓ : Loc nD τ sig) → Buf (Elt Ideal) ℓ) (c : Dev nD) (j : Fin 2000000)

theorem kcorners_1 : KCorners (m (c.tc.loc main_arg9)) (m (c.tc.loc main_arg2)) (V m c main_v166)
    (V m c main_v169) (V m c main_v195) (V m c main_v217) (V m c main_v239) (V m c main_v263) := by
  rw [← V_main_arg9 m c, ← V_main_arg2 m c, V_eq_Y16 m c main_v195 (by decide), V_eq_Y16 m c main_v217 (by decide),
    V_eq_Y16 m c main_v239 (by decide), V_eq_Y16 m c main_v263 (by decide), V_eq_X16 m c main_arg9 (by decide),
    V_eq_X16 m c main_arg2 (by decide), V_eq_X16 m c main_v166 (by decide), V_eq_X16 m c main_v169 (by decide)]
  exact stretch1_corners _

variable (kix : V m c main_v166 (ix1 j) = val_main_v56 (m (c.tc.loc main_arg0)) (m (c.tc.loc main_arg1)) (m (c.tc.loc main_arg5)) (m (c.tc.loc main_arg7)) (ix2 j 1))
  (kiy : V m c main_v169 (ix1 j) = val_main_v59 (m (c.tc.loc main_arg0)) (m (c.tc.loc main_arg1)) (m (c.tc.loc main_arg5)) (m (c.tc.loc main_arg7)) (ix2 j 1))
include kix kiy

theorem kv00_1 : V m c main_v195 (ix1 j) = val_main_v86 (m (c.tc.loc main_arg0)) (m (c.tc.loc main_arg1)) (m (c.tc.loc main_arg2)) (m (c.tc.loc main_arg5)) (m (c.tc.loc main_arg7)) (m (c.tc.loc main_arg9)) (ix2 j 1) :=
  (kv_of (kcorners_1 m c) j 1 kix kiy).1

theorem kv10_1 : V m c main_v217 (ix1 j) = val_main_v109 (m (c.tc.loc main_arg0)) (m (c.tc.loc main_arg1)) (m (c.tc.loc main_arg2)) (m (c.tc.loc main_arg5)) (m (c.tc.loc main_arg7)) (m (c.tc.loc main_arg9)) (ix2 j 1) :=
  (kv_of (kcorners_1 m c) j 1 kix kiy).2.1

theorem kv01_1 : V m c main_v239 (ix1 j) = val_main_v132 (m (c.tc.loc main_arg0)) (m (c.tc.loc main_arg1)) (m (c.tc.loc main_arg2)) (m (c.tc.loc main_arg5)) (m (c.tc.loc main_arg7)) (m (c.tc.loc main_arg9)) (ix2 j 1) :=
  (kv_of (kcorners_1 m c) j 1 kix kiy).2.2.1

theorem kv11_1 : V m c main_v263 (ix1 j) = val_main_v157 (m (c.tc.loc main_arg0)) (m (c.tc.loc main_arg1)) (m (c.tc.loc main_arg2)) (m (c.tc.loc main_arg5)) (m (c.tc.loc main_arg7)) (m (c.tc.loc main_arg9)) (ix2 j 1) :=
  (kv_of (kcorners_1 m c) j 1 kix kiy).2.2.2

end Cert.Bridge

end
-- ==== Proof.Bridge.Prefix.lean ====
import proofs.«401436_j25331717111921_1_alg».proof.Proof.Bridge.PrefixAsm
import proofs.«401436_j25331717111921_1_alg».proof.Proof.Bridge.PrefixV
import proofs.«401436_j25331717111921_1_alg».proof.Proof.Bridge.PrefixRef
import proofs.«401436_j25331717111921_1_alg».proof.Proof.Bridge.PrefixB0
import proofs.«401436_j25331717111921_1_alg».proof.Proof.Bridge.PrefixB1

noncomputable section

namespace Cert.Bridge

open Idealize.ShloMosaic Idealize.ShloMosaic.ValueIdx Idealize.ShloMosaic.TcCoe Idealize.SL.Sem
open Cert.KernelIdeal Cert.KernelIdeal.Gen Cert.KernelIdeal.Hand

variable (m : (ℓ : Loc nD τ sig) → Buf (Elt Ideal) ℓ) (c : Dev nD)

/-- Each event's cell indices and weights agree with the reference's; the corner values follow from the cell indices. -/
theorem kPt_pick (j : Fin 2000000) :
    kPt m c (⟨j.val, by have := j.isLt; omega⟩ : Fin 2048000)
      = refPt (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) j := by
  obtain ⟨hx0, hy0, wx0, wy0⟩ := k_event _ _ _ _ _ 0 j (Chain.eventRow_apply 0 _ _ j) (V_ev0 m c)
  obtain ⟨hx1, hy1, wx1, wy1⟩ := k_event _ _ _ _ _ 1 j (Chain.eventRow_apply 1 _ _ j) (V_ev1 m c)
  exact kPt_pick_of m c j (kv00_0 m c j hx0 hy0) (kv10_0 m c j hx0 hy0) (kv01_0 m c j hx0 hy0) (kv11_0 m c j hx0 hy0) wx0 wy0
    (kv00_1 m c j hx1 hy1) (kv10_1 m c j hx1 hy1) (kv01_1 m c j hx1 hy1) (kv11_1 m c j hx1 hy1) wx1 wy1

end Cert.Bridge

end
-- ==== Proof.lean ====
import proofs.«401436_j25331717111921_1_alg».proof.Defs
import proofs.«401436_j25331717111921_1_alg».proof.Proof.Gen.Kernel
import proofs.«401436_j25331717111921_1_alg».proof.Proof.Gen.KernelIdeal
import proofs.«401436_j25331717111921_1_alg».proof.Proof.Gen.ReferenceIdeal
import proofs.«401436_j25331717111921_1_alg».proof.Proof.Gen.Pre_finite_inputs
import proofs.«401436_j25331717111921_1_alg».proof.Proof.K.FrameRun
import proofs.«401436_j25331717111921_1_alg».proof.Proof.KI.FrameRun
import proofs.«401436_j25331717111921_1_alg».proof.Proof.KI.ValueRun
import proofs.«401436_j25331717111921_1_alg».proof.Proof.Ref.ValueP
import proofs.«401436_j25331717111921_1_alg».proof.Proof.Ref.Run
import proofs.«401436_j25331717111921_1_alg».proof.Proof.Bridge.Prefix
import proofs.«401436_j25331717111921_1_alg».proof.Proof.Spec
import Idealize.ShloMosaic.Adequacy
import Idealize.ShloMosaic.Init
noncomputable section
namespace Cert.Proof
open Idealize.ShloMosaic Idealize.SL.Sem
/-- The word-level kernel runs to the end, faults nowhere and leaves its twelve arguments as they were. -/
theorem frame_k : Cert.frame_Kernel (hKernel := Cert.Kernel.Gen.facts) (hPre_finite_inputs := Cert.Pre_finite_inputs.Gen.facts) :=
  fun m ρ _ => Cert.Kernel.Hand.frame m ρ
/-- So does its idealization, by the same argument over the idealized program. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ
/-- The reference is host operations only, so its frame is its run with the two results dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.RefRun.run (F := Ideal) m ρ)
/-- Pick by pick both sides feed the same seventeen numbers to the same formulas; a sum may be regrouped into blocks, and the zero-weight padding adds nothing. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, _, Cert.KernelIdeal.HandValue.run m ρ, ?_⟩
  refine (θ_run Cert.ReferenceIdeal.defs _ _).mono (fun _ h c => ⟨(h c).1.trans ?_, (h c).2.1.trans ?_, (h c).2.2⟩)
    (Cert.RefRun.run (F := Ideal) m' ρ')
  · rw [(hagree c).1, (hagree c).2.1, (hagree c).2.2.1, (hagree c).2.2.2.2.2.1, (hagree c).2.2.2.2.2.2.1, (hagree c).2.2.2.2.2.2.2.1, (hagree c).2.2.2.2.2.2.2.2.1, (hagree c).2.2.2.2.2.2.2.2.2.1]
    rw [Cert.RefValue.out0_val _ _ _ (m ((c.tc : Thread Cert.KernelIdeal.nD Cert.KernelIdeal.τ).loc Cert.KernelIdeal.main_arg3))
      (m ((c.tc : Thread Cert.KernelIdeal.nD Cert.KernelIdeal.τ).loc Cert.KernelIdeal.main_arg4))]
    funext i
    exact congrArg Cert.Spec.predPt (Cert.Bridge.kPt_pick m c (i 0)).symm
  · rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1]
    rw [Cert.RefValue.out1_val]
    funext _
    refine (Cert.Spec.accLoss_eq_sum (fun j => Cert.Spec.lossPt (Cert.KernelIdeal.Hand.kPt m c j)) _ ?_ ?_).symm
    · intro j
      exact congrArg Cert.Spec.lossPt (Cert.Bridge.kPt_pick m c j)
    · intro j hj
      exact Cert.Spec.lossPt_of_weight_zero _ (Cert.Bridge.kPt_pad_weight m c j hj)
theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩
end Cert.Proof
end
